-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x512 .f32) (main_arg1 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Pre_finite_inputs_ReferenceIdeal.lean ====
abbrev S1024x2048 : Shape := ⟨2, ![1024, 2048]⟩
abbrev S2048x1024 : Shape := ⟨2, ![2048, 1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S1024x2048 .f32) (main_arg1 : FVec F S2048x1024 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S1024x512 : Shape := ⟨2, ![1024, 512]⟩
abbrev S512x1024 : Shape := ⟨2, ![512, 1024]⟩
abbrev S1024x1024 : Shape := ⟨2, ![1024, 1024]⟩
abbrev S8x512x128 : Shape := ⟨3, ![8, 512, 128]⟩
abbrev S8x256x128 : Shape := ⟨3, ![8, 256, 128]⟩
abbrev S8x6 : Shape := ⟨2, ![8, 6]⟩
abbrev S_ : Shape := ⟨0, ![]⟩
abbrev S512x512 : Shape := ⟨2, ![512, 512]⟩
abbrev S512x128 : Shape := ⟨2, ![512, 128]⟩
abbrev S1x512x128 : Shape := ⟨3, ![1, 512, 128]⟩
abbrev S1x1 : Shape := ⟨2, ![1, 1]⟩
abbrev S1x256x128 : Shape := ⟨3, ![1, 256, 128]⟩
abbrev S256x128 : Shape := ⟨2, ![256, 128]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .bf16⟩
  | .local _ .vmem, ⟨0, _⟩ => ⟨S1024x512, .f32⟩
  | .local _ .vmem, ⟨1, _⟩ => ⟨S512x1024, .f32⟩
  | .local _ .vmem, ⟨2, _⟩ => ⟨S1024x1024, .bf16⟩
  | .local _ .vmem, ⟨3, _⟩ => ⟨S8x512x128, .bf16⟩
  | .local _ .vmem, ⟨4, _⟩ => ⟨S8x512x128, .bf16⟩
  | .local _ .vmem, ⟨5, _⟩ => ⟨S8x256x128, .bf16⟩
  | .local _ .vmem, ⟨6, _⟩ => ⟨S8x256x128, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_98 : BitVec 32 := 1#32
  let v132 : BitVec 32 := Scalar.muli v3 c1_i32_98
  let v133 : BitVec 32 := Scalar.addi c0_i32 v132
  v133.toNat
def k0_dev2 (d0 : Dev nD) : Nat :=
  let c0_i32_101 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_100 : BitVec 32 := 1#32
  let v134 : BitVec 32 := Scalar.muli v4 c1_i32_100
  let v135 : BitVec 32 := Scalar.addi c0_i32_101 v134
  v135.toNat
def k0_off1 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let v16 : BitVec 32 := Scalar.subi c1_i32_7 v7
  let c512_i32_8 : BitVec 32 := 512#32
  let v17 : BitVec 32 := Scalar.muli v16 c512_i32_8
  let v136 : Index := Scalar.indexCast v17
  let c0 : Index := 0#32
  ![v136.toNat, 0]
def k0_off2 (d0 : Dev nD) : Fin 3 → Nat :=
  let c0_i32_110 : BitVec 32 := 0#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_14 : BitVec 32 := 2#32
  let v26 : BitVec 32 := Scalar.muli v7 c2_i32_14
  let v27 : BitVec 32 := Scalar.subi v10 v26
  let v28 : BitVec 32 := Scalar.subi c1_i32_15 v27
  let c256_i32_16 : BitVec 32 := 256#32
  let v29 : BitVec 32 := Scalar.muli v28 c256_i32_16
  let c0_i32_117 : BitVec 32 := 0#32
  ![0, v29.toNat, 0]
def k0_dev3 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_115 : BitVec 32 := 1#32
  let v149 : BitVec 32 := Scalar.muli v3 c1_i32_115
  let v150 : BitVec 32 := Scalar.addi c0_i32_116 v149
  v150.toNat
def k0_off3 (d0 : Dev nD) : Fin 3 → Nat :=
  let c0_i32_120 : BitVec 32 := 0#32
  let c256_i32_108 : BitVec 32 := 256#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_14 : BitVec 32 := 2#32
  let v26 : BitVec 32 := Scalar.muli v7 c2_i32_14
  let v27 : BitVec 32 := Scalar.subi v10 v26
  let v28 : BitVec 32 := Scalar.subi c1_i32_15 v27
  let c256_i32_16 : BitVec 32 := 256#32
  let v29 : BitVec 32 := Scalar.muli v28 c256_i32_16
  let v148 : BitVec 32 := Scalar.subi c256_i32_108 v29
  let c0_i32_127 : BitVec 32 := 0#32
  ![0, v148.toNat, 0]
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_125 : BitVec 32 := 1#32
  let v159 : BitVec 32 := Scalar.muli v3 c1_i32_125
  let v160 : BitVec 32 := Scalar.addi c0_i32_126 v159
  v160.toNat
def k0_off4 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let v31 : BitVec 32 := Scalar.subi c1_i32_18 v11
  let c512_i32_19 : BitVec 32 := 512#32
  let v32 : BitVec 32 := Scalar.muli v31 c512_i32_19
  let v169 : Index := Scalar.indexCast v32
  let c0_129 : Index := 0#32
  ![v169.toNat, 0]
def k0_off5 (d0 : Dev nD) : Fin 3 → Nat :=
  let c1_i32_136 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_26 : BitVec 32 := 2#32
  let v41 : BitVec 32 := Scalar.muli v11 c2_i32_26
  let v42 : BitVec 32 := Scalar.subi v14 v41
  let c256_i32_27 : BitVec 32 := 256#32
  let v43 : BitVec 32 := Scalar.muli v42 c256_i32_27
  let c0_i32_143 : BitVec 32 := 0#32
  ![1, v43.toNat, 0]
def k0_dev5 (d0 : Dev nD) : Nat :=
  let c0_i32_142 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_141 : BitVec 32 := 1#32
  let v182 : BitVec 32 := Scalar.muli v4 c1_i32_141
  let v183 : BitVec 32 := Scalar.addi c0_i32_142 v182
  v183.toNat
def k0_off6 (d0 : Dev nD) : Fin 3 → Nat :=
  let c1_i32_146 : BitVec 32 := 1#32
  let c256_i32_134 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_26 : BitVec 32 := 2#32
  let v41 : BitVec 32 := Scalar.muli v11 c2_i32_26
  let v42 : BitVec 32 := Scalar.subi v14 v41
  let c256_i32_27 : BitVec 32 := 256#32
  let v43 : BitVec 32 := Scalar.muli v42 c256_i32_27
  let v181 : BitVec 32 := Scalar.subi c256_i32_134 v43
  let c0_i32_153 : BitVec 32 := 0#32
  ![1, v181.toNat, 0]
def k0_dev6 (d0 : Dev nD) : Nat :=
  let c0_i32_152 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_151 : BitVec 32 := 1#32
  let v192 : BitVec 32 := Scalar.muli v4 c1_i32_151
  let v193 : BitVec 32 := Scalar.addi c0_i32_152 v192
  v193.toNat
def k0_off7 (d0 : Dev nD) : Fin 3 → Nat :=
  let c2_i32_162 : BitVec 32 := 2#32
  let c1_i32_38 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_37 : BitVec 32 := 2#32
  let v55 : BitVec 32 := Scalar.muli v7 c2_i32_37
  let v56 : BitVec 32 := Scalar.subi v10 v55
  let v57 : BitVec 32 := Scalar.subi c1_i32_38 v56
  let c256_i32_39 : BitVec 32 := 256#32
  let v58 : BitVec 32 := Scalar.muli v57 c256_i32_39
  let c0_i32_169 : BitVec 32 := 0#32
  ![2, v58.toNat, 0]
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_167 : BitVec 32 := 1#32
  let v215 : BitVec 32 := Scalar.muli v3 c1_i32_167
  let v216 : BitVec 32 := Scalar.addi c0_i32_168 v215
  v216.toNat
def k0_off8 (d0 : Dev nD) : Fin 3 → Nat :=
  let c2_i32_172 : BitVec 32 := 2#32
  let c256_i32_160 : BitVec 32 := 256#32
  let c1_i32_38 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_37 : BitVec 32 := 2#32
  let v55 : BitVec 32 := Scalar.muli v7 c2_i32_37
  let v56 : BitVec 32 := Scalar.subi v10 v55
  let v57 : BitVec 32 := Scalar.subi c1_i32_38 v56
  let c256_i32_39 : BitVec 32 := 256#32
  let v58 : BitVec 32 := Scalar.muli v57 c256_i32_39
  let v214 : BitVec 32 := Scalar.subi c256_i32_160 v58
  let c0_i32_179 : BitVec 32 := 0#32
  ![2, v214.toNat, 0]
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_177 : BitVec 32 := 1#32
  let v225 : BitVec 32 := Scalar.muli v3 c1_i32_177
  let v226 : BitVec 32 := Scalar.addi c0_i32_178 v225
  v226.toNat
def k0_off9 (d0 : Dev nD) : Fin 3 → Nat :=
  let c3_i32_188 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_49 : BitVec 32 := 2#32
  let v70 : BitVec 32 := Scalar.muli v11 c2_i32_49
  let v71 : BitVec 32 := Scalar.subi v14 v70
  let c256_i32_50 : BitVec 32 := 256#32
  let v72 : BitVec 32 := Scalar.muli v71 c256_i32_50
  let c0_i32_195 : BitVec 32 := 0#32
  ![3, v72.toNat, 0]
def k0_dev9 (d0 : Dev nD) : Nat :=
  let c0_i32_194 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_193 : BitVec 32 := 1#32
  let v248 : BitVec 32 := Scalar.muli v4 c1_i32_193
  let v249 : BitVec 32 := Scalar.addi c0_i32_194 v248
  v249.toNat
def k0_off10 (d0 : Dev nD) : Fin 3 → Nat :=
  let c3_i32_198 : BitVec 32 := 3#32
  let c256_i32_186 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_49 : BitVec 32 := 2#32
  let v70 : BitVec 32 := Scalar.muli v11 c2_i32_49
  let v71 : BitVec 32 := Scalar.subi v14 v70
  let c256_i32_50 : BitVec 32 := 256#32
  let v72 : BitVec 32 := Scalar.muli v71 c256_i32_50
  let v247 : BitVec 32 := Scalar.subi c256_i32_186 v72
  let c0_i32_205 : BitVec 32 := 0#32
  ![3, v247.toNat, 0]
def k0_dev10 (d0 : Dev nD) : Nat :=
  let c0_i32_204 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_203 : BitVec 32 := 1#32
  let v258 : BitVec 32 := Scalar.muli v4 c1_i32_203
  let v259 : BitVec 32 := Scalar.addi c0_i32_204 v258
  v259.toNat
def k0_off11 (d0 : Dev nD) : Fin 3 → Nat :=
  let c4_i32_214 : BitVec 32 := 4#32
  let c1_i32_61 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_60 : BitVec 32 := 2#32
  let v84 : BitVec 32 := Scalar.muli v7 c2_i32_60
  let v85 : BitVec 32 := Scalar.subi v10 v84
  let v86 : BitVec 32 := Scalar.subi c1_i32_61 v85
  let c256_i32_62 : BitVec 32 := 256#32
  let v87 : BitVec 32 := Scalar.muli v86 c256_i32_62
  let c0_i32_221 : BitVec 32 := 0#32
  ![4, v87.toNat, 0]
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_219 : BitVec 32 := 1#32
  let v281 : BitVec 32 := Scalar.muli v3 c1_i32_219
  let v282 : BitVec 32 := Scalar.addi c0_i32_220 v281
  v282.toNat
def k0_off12 (d0 : Dev nD) : Fin 3 → Nat :=
  let c4_i32_224 : BitVec 32 := 4#32
  let c256_i32_212 : BitVec 32 := 256#32
  let c1_i32_61 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_60 : BitVec 32 := 2#32
  let v84 : BitVec 32 := Scalar.muli v7 c2_i32_60
  let v85 : BitVec 32 := Scalar.subi v10 v84
  let v86 : BitVec 32 := Scalar.subi c1_i32_61 v85
  let c256_i32_62 : BitVec 32 := 256#32
  let v87 : BitVec 32 := Scalar.muli v86 c256_i32_62
  let v280 : BitVec 32 := Scalar.subi c256_i32_212 v87
  let c0_i32_231 : BitVec 32 := 0#32
  ![4, v280.toNat, 0]
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_229 : BitVec 32 := 1#32
  let v291 : BitVec 32 := Scalar.muli v3 c1_i32_229
  let v292 : BitVec 32 := Scalar.addi c0_i32_230 v291
  v292.toNat
def k0_off13 (d0 : Dev nD) : Fin 3 → Nat :=
  let c5_i32_239 : BitVec 32 := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_72 : BitVec 32 := 2#32
  let v99 : BitVec 32 := Scalar.muli v11 c2_i32_72
  let v100 : BitVec 32 := Scalar.subi v14 v99
  let c256_i32_73 : BitVec 32 := 256#32
  let v101 : BitVec 32 := Scalar.muli v100 c256_i32_73
  let c0_i32_246 : BitVec 32 := 0#32
  ![5, v101.toNat, 0]
def k0_dev13 (d0 : Dev nD) : Nat :=
  let c0_i32_245 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_244 : BitVec 32 := 1#32
  let v314 : BitVec 32 := Scalar.muli v4 c1_i32_244
  let v315 : BitVec 32 := Scalar.addi c0_i32_245 v314
  v315.toNat
def k0_off14 (d0 : Dev nD) : Fin 3 → Nat :=
  let c5_i32_249 : BitVec 32 := 5#32
  let c256_i32_238 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_72 : BitVec 32 := 2#32
  let v99 : BitVec 32 := Scalar.muli v11 c2_i32_72
  let v100 : BitVec 32 := Scalar.subi v14 v99
  let c256_i32_73 : BitVec 32 := 256#32
  let v101 : BitVec 32 := Scalar.muli v100 c256_i32_73
  let v313 : BitVec 32 := Scalar.subi c256_i32_238 v101
  let c0_i32_256 : BitVec 32 := 0#32
  ![5, v313.toNat, 0]
def k0_dev14 (d0 : Dev nD) : Nat :=
  let c0_i32_255 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_254 : BitVec 32 := 1#32
  let v324 : BitVec 32 := Scalar.muli v4 c1_i32_254
  let v325 : BitVec 32 := Scalar.addi c0_i32_255 v324
  v325.toNat
def k0_off15 (d0 : Dev nD) : Fin 3 → Nat :=
  let c6_i32_264 : BitVec 32 := 6#32
  let c1_i32_84 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_83 : BitVec 32 := 2#32
  let v113 : BitVec 32 := Scalar.muli v7 c2_i32_83
  let v114 : BitVec 32 := Scalar.subi v10 v113
  let v115 : BitVec 32 := Scalar.subi c1_i32_84 v114
  let c256_i32_85 : BitVec 32 := 256#32
  let v116 : BitVec 32 := Scalar.muli v115 c256_i32_85
  let c0_i32_271 : BitVec 32 := 0#32
  ![6, v116.toNat, 0]
def k0_dev15 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_269 : BitVec 32 := 1#32
  let v347 : BitVec 32 := Scalar.muli v3 c1_i32_269
  let v348 : BitVec 32 := Scalar.addi c0_i32_270 v347
  v348.toNat
def k0_off16 (d0 : Dev nD) : Fin 3 → Nat :=
  let c6_i32_274 : BitVec 32 := 6#32
  let c256_i32_263 : BitVec 32 := 256#32
  let c1_i32_84 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_83 : BitVec 32 := 2#32
  let v113 : BitVec 32 := Scalar.muli v7 c2_i32_83
  let v114 : BitVec 32 := Scalar.subi v10 v113
  let v115 : BitVec 32 := Scalar.subi c1_i32_84 v114
  let c256_i32_85 : BitVec 32 := 256#32
  let v116 : BitVec 32 := Scalar.muli v115 c256_i32_85
  let v346 : BitVec 32 := Scalar.subi c256_i32_263 v116
  let c0_i32_281 : BitVec 32 := 0#32
  ![6, v346.toNat, 0]
def k0_dev16 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_279 : BitVec 32 := 1#32
  let v357 : BitVec 32 := Scalar.muli v3 c1_i32_279
  let v358 : BitVec 32 := Scalar.addi c0_i32_280 v357
  v358.toNat
def k0_off17 (d0 : Dev nD) : Fin 3 → Nat :=
  let c7_i32_289 : BitVec 32 := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_95 : BitVec 32 := 2#32
  let v128 : BitVec 32 := Scalar.muli v11 c2_i32_95
  let v129 : BitVec 32 := Scalar.subi v14 v128
  let c256_i32_96 : BitVec 32 := 256#32
  let v130 : BitVec 32 := Scalar.muli v129 c256_i32_96
  let c0_i32_296 : BitVec 32 := 0#32
  ![7, v130.toNat, 0]
def k0_dev17 (d0 : Dev nD) : Nat :=
  let c0_i32_295 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_294 : BitVec 32 := 1#32
  let v380 : BitVec 32 := Scalar.muli v4 c1_i32_294
  let v381 : BitVec 32 := Scalar.addi c0_i32_295 v380
  v381.toNat
def k0_off18 (d0 : Dev nD) : Fin 3 → Nat :=
  let c7_i32_299 : BitVec 32 := 7#32
  let c256_i32_288 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_95 : BitVec 32 := 2#32
  let v128 : BitVec 32 := Scalar.muli v11 c2_i32_95
  let v129 : BitVec 32 := Scalar.subi v14 v128
  let c256_i32_96 : BitVec 32 := 256#32
  let v130 : BitVec 32 := Scalar.muli v129 c256_i32_96
  let v379 : BitVec 32 := Scalar.subi c256_i32_288 v130
  let c0_i32_306 : BitVec 32 := 0#32
  ![7, v379.toNat, 0]
def k0_dev18 (d0 : Dev nD) : Nat :=
  let c0_i32_305 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_304 : BitVec 32 := 1#32
  let v390 : BitVec 32 := Scalar.muli v4 c1_i32_304
  let v391 : BitVec 32 := Scalar.addi c0_i32_305 v390
  v391.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c512_i32 : BitVec 32 := 512#32
  let v15 : BitVec 32 := Scalar.muli v7 c512_i32
  let c1_i32_12 : BitVec 32 := 1#32
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_11 : BitVec 32 := 2#32
  let v22 : BitVec 32 := Scalar.muli v7 c2_i32_11
  let v23 : BitVec 32 := Scalar.subi v10 v22
  let v24 : BitVec 32 := Scalar.subi c1_i32_12 v23
  let c256_i32_13 : BitVec 32 := 256#32
  let v25 : BitVec 32 := Scalar.muli v24 c256_i32_13
  let v400 : BitVec 32 := Scalar.addi v15 v25
  let v401 : Index := Scalar.indexCast v400
  let c0_308 : Index := 0#32
  ![v401.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c512_i32_17 : BitVec 32 := 512#32
  let v30 : BitVec 32 := Scalar.muli v11 c512_i32_17
  let c1_i32_24 : BitVec 32 := 1#32
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_23 : BitVec 32 := 2#32
  let v37 : BitVec 32 := Scalar.muli v11 c2_i32_23
  let v38 : BitVec 32 := Scalar.subi v14 v37
  let v39 : BitVec 32 := Scalar.subi c1_i32_24 v38
  let c256_i32_25 : BitVec 32 := 256#32
  let v40 : BitVec 32 := Scalar.muli v39 c256_i32_25
  let v409 : BitVec 32 := Scalar.addi v30 v40
  let v410 : Index := Scalar.indexCast v409
  let c0_312 : Index := 0#32
  ![v410.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32 : BitVec 32 := 256#32
  let v18 : BitVec 32 := Scalar.muli v10 c256_i32
  let v472 : Index := Scalar.indexCast v18
  let c0_340 : Index := 0#32
  ![v472.toNat, 0]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_20 : BitVec 32 := 256#32
  let v33 : BitVec 32 := Scalar.muli v14 c256_i32_20
  let v480 : Index := Scalar.indexCast v33
  let c0_344 : Index := 0#32
  ![v480.toNat, 0]
def k0_off23 (d0 : Dev nD) : Fin 3 → Nat :=
  let c0_391 : Index := 0#32
  let c1_i32_12 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_11 : BitVec 32 := 2#32
  let v22 : BitVec 32 := Scalar.muli v7 c2_i32_11
  let v23 : BitVec 32 := Scalar.subi v10 v22
  let v24 : BitVec 32 := Scalar.subi c1_i32_12 v23
  let c256_i32_13 : BitVec 32 := 256#32
  let v25 : BitVec 32 := Scalar.muli v24 c256_i32_13
  let v550 : Index := Scalar.indexCast v25
  let c0_392 : Index := 0#32
  ![0, v550.toNat, 0]
def k0_dev19 (d0 : Dev nD) : Nat :=
  let c0_i32_403 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_402 : BitVec 32 := 1#32
  let v559 : BitVec 32 := Scalar.muli v4 c1_i32_402
  let v560 : BitVec 32 := Scalar.addi c0_i32_403 v559
  v560.toNat
def k0_off24 (d0 : Dev nD) : Fin 3 → Nat :=
  let c1_427 : Index := 1#32
  let c1_i32_24 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_23 : BitVec 32 := 2#32
  let v37 : BitVec 32 := Scalar.muli v11 c2_i32_23
  let v38 : BitVec 32 := Scalar.subi v14 v37
  let v39 : BitVec 32 := Scalar.subi c1_i32_24 v38
  let c256_i32_25 : BitVec 32 := 256#32
  let v40 : BitVec 32 := Scalar.muli v39 c256_i32_25
  let v583 : Index := Scalar.indexCast v40
  let c0_428 : Index := 0#32
  ![1, v583.toNat, 0]
def k0_dev20 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_438 : BitVec 32 := 1#32
  let v592 : BitVec 32 := Scalar.muli v3 c1_i32_438
  let v593 : BitVec 32 := Scalar.addi c0_i32_439 v592
  v593.toNat
def k0_off25 (d0 : Dev nD) : Fin 3 → Nat :=
  let c2_463 : Index := 2#32
  let c1_i32_35 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_34 : BitVec 32 := 2#32
  let v51 : BitVec 32 := Scalar.muli v7 c2_i32_34
  let v52 : BitVec 32 := Scalar.subi v10 v51
  let v53 : BitVec 32 := Scalar.subi c1_i32_35 v52
  let c256_i32_36 : BitVec 32 := 256#32
  let v54 : BitVec 32 := Scalar.muli v53 c256_i32_36
  let v616 : Index := Scalar.indexCast v54
  let c0_464 : Index := 0#32
  ![2, v616.toNat, 0]
def k0_dev21 (d0 : Dev nD) : Nat :=
  let c0_i32_475 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_474 : BitVec 32 := 1#32
  let v625 : BitVec 32 := Scalar.muli v4 c1_i32_474
  let v626 : BitVec 32 := Scalar.addi c0_i32_475 v625
  v626.toNat
def k0_off26 (d0 : Dev nD) : Fin 3 → Nat :=
  let c3_499 : Index := 3#32
  let c1_i32_47 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_46 : BitVec 32 := 2#32
  let v66 : BitVec 32 := Scalar.muli v11 c2_i32_46
  let v67 : BitVec 32 := Scalar.subi v14 v66
  let v68 : BitVec 32 := Scalar.subi c1_i32_47 v67
  let c256_i32_48 : BitVec 32 := 256#32
  let v69 : BitVec 32 := Scalar.muli v68 c256_i32_48
  let v649 : Index := Scalar.indexCast v69
  let c0_500 : Index := 0#32
  ![3, v649.toNat, 0]
def k0_dev22 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_510 : BitVec 32 := 1#32
  let v658 : BitVec 32 := Scalar.muli v3 c1_i32_510
  let v659 : BitVec 32 := Scalar.addi c0_i32_511 v658
  v659.toNat
def k0_off27 (d0 : Dev nD) : Fin 3 → Nat :=
  let c4_535 : Index := 4#32
  let c1_i32_58 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_57 : BitVec 32 := 2#32
  let v80 : BitVec 32 := Scalar.muli v7 c2_i32_57
  let v81 : BitVec 32 := Scalar.subi v10 v80
  let v82 : BitVec 32 := Scalar.subi c1_i32_58 v81
  let c256_i32_59 : BitVec 32 := 256#32
  let v83 : BitVec 32 := Scalar.muli v82 c256_i32_59
  let v682 : Index := Scalar.indexCast v83
  let c0_536 : Index := 0#32
  ![4, v682.toNat, 0]
def k0_dev23 (d0 : Dev nD) : Nat :=
  let c0_i32_547 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_546 : BitVec 32 := 1#32
  let v691 : BitVec 32 := Scalar.muli v4 c1_i32_546
  let v692 : BitVec 32 := Scalar.addi c0_i32_547 v691
  v692.toNat
def k0_off28 (d0 : Dev nD) : Fin 3 → Nat :=
  let c5_571 : Index := 5#32
  let c1_i32_70 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_69 : BitVec 32 := 2#32
  let v95 : BitVec 32 := Scalar.muli v11 c2_i32_69
  let v96 : BitVec 32 := Scalar.subi v14 v95
  let v97 : BitVec 32 := Scalar.subi c1_i32_70 v96
  let c256_i32_71 : BitVec 32 := 256#32
  let v98 : BitVec 32 := Scalar.muli v97 c256_i32_71
  let v715 : Index := Scalar.indexCast v98
  let c0_572 : Index := 0#32
  ![5, v715.toNat, 0]
def k0_dev24 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_582 : BitVec 32 := 1#32
  let v724 : BitVec 32 := Scalar.muli v3 c1_i32_582
  let v725 : BitVec 32 := Scalar.addi c0_i32_583 v724
  v725.toNat
def k0_off29 (d0 : Dev nD) : Fin 3 → Nat :=
  let c6_607 : Index := 6#32
  let c1_i32_81 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_80 : BitVec 32 := 2#32
  let v109 : BitVec 32 := Scalar.muli v7 c2_i32_80
  let v110 : BitVec 32 := Scalar.subi v10 v109
  let v111 : BitVec 32 := Scalar.subi c1_i32_81 v110
  let c256_i32_82 : BitVec 32 := 256#32
  let v112 : BitVec 32 := Scalar.muli v111 c256_i32_82
  let v748 : Index := Scalar.indexCast v112
  let c0_608 : Index := 0#32
  ![6, v748.toNat, 0]
def k0_dev25 (d0 : Dev nD) : Nat :=
  let c0_i32_619 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_618 : BitVec 32 := 1#32
  let v757 : BitVec 32 := Scalar.muli v4 c1_i32_618
  let v758 : BitVec 32 := Scalar.addi c0_i32_619 v757
  v758.toNat
def k0_off30 (d0 : Dev nD) : Fin 3 → Nat :=
  let c7_643 : Index := 7#32
  let c1_i32_93 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_92 : BitVec 32 := 2#32
  let v124 : BitVec 32 := Scalar.muli v11 c2_i32_92
  let v125 : BitVec 32 := Scalar.subi v14 v124
  let v126 : BitVec 32 := Scalar.subi c1_i32_93 v125
  let c256_i32_94 : BitVec 32 := 256#32
  let v127 : BitVec 32 := Scalar.muli v126 c256_i32_94
  let v781 : Index := Scalar.indexCast v127
  let c0_644 : Index := 0#32
  ![7, v781.toNat, 0]
def k0_dev26 (d0 : Dev nD) : Nat :=
  let c0_i32_655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_654 : BitVec 32 := 1#32
  let v790 : BitVec 32 := Scalar.muli v3 c1_i32_654
  let v791 : BitVec 32 := Scalar.addi c0_i32_655 v790
  v791.toNat
def k0_off31 (d0 : Dev nD) : Fin 3 → Nat :=
  let c0_679 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_9 : BitVec 32 := 2#32
  let v19 : BitVec 32 := Scalar.muli v7 c2_i32_9
  let v20 : BitVec 32 := Scalar.subi v10 v19
  let c256_i32_10 : BitVec 32 := 256#32
  let v21 : BitVec 32 := Scalar.muli v20 c256_i32_10
  let v814 : Index := Scalar.indexCast v21
  let c0_680 : Index := 0#32
  ![0, v814.toNat, 0]
def k0_off32 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32 : BitVec 32 := 256#32
  let v18 : BitVec 32 := Scalar.muli v10 c256_i32
  let v851 : Index := Scalar.indexCast v18
  let c0_711 : Index := 0#32
  ![v851.toNat, 0]
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32 : BitVec 32 := 256#32
  let v18 : BitVec 32 := Scalar.muli v10 c256_i32
  let c0_i32_718 : BitVec 32 := 0#32
  ![v18.toNat, 0]
def k0_dev27 (d0 : Dev nD) : Nat :=
  let c0_i32_717 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_716 : BitVec 32 := 1#32
  let v853 : BitVec 32 := Scalar.muli v4 c1_i32_716
  let v854 : BitVec 32 := Scalar.addi c0_i32_717 v853
  v854.toNat
def k0_dev28 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_724 : BitVec 32 := 1#32
  let v861 : BitVec 32 := Scalar.muli v3 c1_i32_724
  let v862 : BitVec 32 := Scalar.addi c0_i32_725 v861
  v862.toNat
def k0_off34 (d0 : Dev nD) : Fin 3 → Nat :=
  let c1_747 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_21 : BitVec 32 := 2#32
  let v34 : BitVec 32 := Scalar.muli v11 c2_i32_21
  let v35 : BitVec 32 := Scalar.subi v14 v34
  let c256_i32_22 : BitVec 32 := 256#32
  let v36 : BitVec 32 := Scalar.muli v35 c256_i32_22
  let v883 : Index := Scalar.indexCast v36
  let c0_748 : Index := 0#32
  ![1, v883.toNat, 0]
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_20 : BitVec 32 := 256#32
  let v33 : BitVec 32 := Scalar.muli v14 c256_i32_20
  let v920 : Index := Scalar.indexCast v33
  let c512_779 : Index := 512#32
  ![v920.toNat, 512]
def k0_off36 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_20 : BitVec 32 := 256#32
  let v33 : BitVec 32 := Scalar.muli v14 c256_i32_20
  let c512_i32_786 : BitVec 32 := 512#32
  ![v33.toNat, 512]
def k0_dev29 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_784 : BitVec 32 := 1#32
  let v922 : BitVec 32 := Scalar.muli v3 c1_i32_784
  let v923 : BitVec 32 := Scalar.addi c0_i32_785 v922
  v923.toNat
def k0_dev30 (d0 : Dev nD) : Nat :=
  let c0_i32_793 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_792 : BitVec 32 := 1#32
  let v930 : BitVec 32 := Scalar.muli v4 c1_i32_792
  let v931 : BitVec 32 := Scalar.addi c0_i32_793 v930
  v931.toNat
def k0_off37 (d0 : Dev nD) : Fin 3 → Nat :=
  let c2_815 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_32 : BitVec 32 := 2#32
  let v48 : BitVec 32 := Scalar.muli v7 c2_i32_32
  let v49 : BitVec 32 := Scalar.subi v10 v48
  let c256_i32_33 : BitVec 32 := 256#32
  let v50 : BitVec 32 := Scalar.muli v49 c256_i32_33
  let v952 : Index := Scalar.indexCast v50
  let c0_816 : Index := 0#32
  ![2, v952.toNat, 0]
def k0_off38 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32_31 : BitVec 32 := 256#32
  let v47 : BitVec 32 := Scalar.muli v10 c256_i32_31
  let v989 : Index := Scalar.indexCast v47
  let c128_847 : Index := 128#32
  ![v989.toNat, 128]
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32_31 : BitVec 32 := 256#32
  let v47 : BitVec 32 := Scalar.muli v10 c256_i32_31
  let c128_i32 : BitVec 32 := 128#32
  ![v47.toNat, 128]
def k0_dev31 (d0 : Dev nD) : Nat :=
  let c0_i32_853 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_852 : BitVec 32 := 1#32
  let v991 : BitVec 32 := Scalar.muli v4 c1_i32_852
  let v992 : BitVec 32 := Scalar.addi c0_i32_853 v991
  v992.toNat
def k0_dev32 (d0 : Dev nD) : Nat :=
  let c0_i32_860 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_859 : BitVec 32 := 1#32
  let v999 : BitVec 32 := Scalar.muli v3 c1_i32_859
  let v1000 : BitVec 32 := Scalar.addi c0_i32_860 v999
  v1000.toNat
def k0_off40 (d0 : Dev nD) : Fin 3 → Nat :=
  let c3_882 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_44 : BitVec 32 := 2#32
  let v63 : BitVec 32 := Scalar.muli v11 c2_i32_44
  let v64 : BitVec 32 := Scalar.subi v14 v63
  let c256_i32_45 : BitVec 32 := 256#32
  let v65 : BitVec 32 := Scalar.muli v64 c256_i32_45
  let v1021 : Index := Scalar.indexCast v65
  let c0_883 : Index := 0#32
  ![3, v1021.toNat, 0]
def k0_off41 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_43 : BitVec 32 := 256#32
  let v62 : BitVec 32 := Scalar.muli v14 c256_i32_43
  let v1058 : Index := Scalar.indexCast v62
  let c640_914 : Index := 640#32
  ![v1058.toNat, 640]
def k0_off42 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_43 : BitVec 32 := 256#32
  let v62 : BitVec 32 := Scalar.muli v14 c256_i32_43
  let c640_i32 : BitVec 32 := 640#32
  ![v62.toNat, 640]
def k0_dev33 (d0 : Dev nD) : Nat :=
  let c0_i32_920 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_919 : BitVec 32 := 1#32
  let v1060 : BitVec 32 := Scalar.muli v3 c1_i32_919
  let v1061 : BitVec 32 := Scalar.addi c0_i32_920 v1060
  v1061.toNat
def k0_dev34 (d0 : Dev nD) : Nat :=
  let c0_i32_927 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_926 : BitVec 32 := 1#32
  let v1068 : BitVec 32 := Scalar.muli v4 c1_i32_926
  let v1069 : BitVec 32 := Scalar.addi c0_i32_927 v1068
  v1069.toNat
def k0_off43 (d0 : Dev nD) : Fin 3 → Nat :=
  let c4_949 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_55 : BitVec 32 := 2#32
  let v77 : BitVec 32 := Scalar.muli v7 c2_i32_55
  let v78 : BitVec 32 := Scalar.subi v10 v77
  let c256_i32_56 : BitVec 32 := 256#32
  let v79 : BitVec 32 := Scalar.muli v78 c256_i32_56
  let v1090 : Index := Scalar.indexCast v79
  let c0_950 : Index := 0#32
  ![4, v1090.toNat, 0]
def k0_off44 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32_54 : BitVec 32 := 256#32
  let v76 : BitVec 32 := Scalar.muli v10 c256_i32_54
  let v1127 : Index := Scalar.indexCast v76
  let c256_981 : Index := 256#32
  ![v1127.toNat, 256]
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32_54 : BitVec 32 := 256#32
  let v76 : BitVec 32 := Scalar.muli v10 c256_i32_54
  let c256_i32_988 : BitVec 32 := 256#32
  ![v76.toNat, 256]
def k0_dev35 (d0 : Dev nD) : Nat :=
  let c0_i32_987 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_986 : BitVec 32 := 1#32
  let v1129 : BitVec 32 := Scalar.muli v4 c1_i32_986
  let v1130 : BitVec 32 := Scalar.addi c0_i32_987 v1129
  v1130.toNat
def k0_dev36 (d0 : Dev nD) : Nat :=
  let c0_i32_995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_994 : BitVec 32 := 1#32
  let v1137 : BitVec 32 := Scalar.muli v3 c1_i32_994
  let v1138 : BitVec 32 := Scalar.addi c0_i32_995 v1137
  v1138.toNat
def k0_off46 (d0 : Dev nD) : Fin 3 → Nat :=
  let c5_1017 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_67 : BitVec 32 := 2#32
  let v92 : BitVec 32 := Scalar.muli v11 c2_i32_67
  let v93 : BitVec 32 := Scalar.subi v14 v92
  let c256_i32_68 : BitVec 32 := 256#32
  let v94 : BitVec 32 := Scalar.muli v93 c256_i32_68
  let v1159 : Index := Scalar.indexCast v94
  let c0_1018 : Index := 0#32
  ![5, v1159.toNat, 0]
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_66 : BitVec 32 := 256#32
  let v91 : BitVec 32 := Scalar.muli v14 c256_i32_66
  let v1196 : Index := Scalar.indexCast v91
  let c768_1049 : Index := 768#32
  ![v1196.toNat, 768]
def k0_off48 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_66 : BitVec 32 := 256#32
  let v91 : BitVec 32 := Scalar.muli v14 c256_i32_66
  let c768_i32 : BitVec 32 := 768#32
  ![v91.toNat, 768]
def k0_dev37 (d0 : Dev nD) : Nat :=
  let c0_i32_1055 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1054 : BitVec 32 := 1#32
  let v1198 : BitVec 32 := Scalar.muli v3 c1_i32_1054
  let v1199 : BitVec 32 := Scalar.addi c0_i32_1055 v1198
  v1199.toNat
def k0_dev38 (d0 : Dev nD) : Nat :=
  let c0_i32_1062 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1061 : BitVec 32 := 1#32
  let v1206 : BitVec 32 := Scalar.muli v4 c1_i32_1061
  let v1207 : BitVec 32 := Scalar.addi c0_i32_1062 v1206
  v1207.toNat
def k0_off49 (d0 : Dev nD) : Fin 3 → Nat :=
  let c6_1084 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_78 : BitVec 32 := 2#32
  let v106 : BitVec 32 := Scalar.muli v7 c2_i32_78
  let v107 : BitVec 32 := Scalar.subi v10 v106
  let c256_i32_79 : BitVec 32 := 256#32
  let v108 : BitVec 32 := Scalar.muli v107 c256_i32_79
  let v1228 : Index := Scalar.indexCast v108
  let c0_1085 : Index := 0#32
  ![6, v1228.toNat, 0]
def k0_off50 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32_77 : BitVec 32 := 256#32
  let v105 : BitVec 32 := Scalar.muli v10 c256_i32_77
  let v1265 : Index := Scalar.indexCast v105
  let c384_1116 : Index := 384#32
  ![v1265.toNat, 384]
def k0_off51 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c256_i32_77 : BitVec 32 := 256#32
  let v105 : BitVec 32 := Scalar.muli v10 c256_i32_77
  let c384_i32 : BitVec 32 := 384#32
  ![v105.toNat, 384]
def k0_dev39 (d0 : Dev nD) : Nat :=
  let c0_i32_1122 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1121 : BitVec 32 := 1#32
  let v1267 : BitVec 32 := Scalar.muli v4 c1_i32_1121
  let v1268 : BitVec 32 := Scalar.addi c0_i32_1122 v1267
  v1268.toNat
def k0_dev40 (d0 : Dev nD) : Nat :=
  let c0_i32_1129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1128 : BitVec 32 := 1#32
  let v1275 : BitVec 32 := Scalar.muli v3 c1_i32_1128
  let v1276 : BitVec 32 := Scalar.addi c0_i32_1129 v1275
  v1276.toNat
def k0_off52 (d0 : Dev nD) : Fin 3 → Nat :=
  let c7_1151 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_90 : BitVec 32 := 2#32
  let v121 : BitVec 32 := Scalar.muli v11 c2_i32_90
  let v122 : BitVec 32 := Scalar.subi v14 v121
  let c256_i32_91 : BitVec 32 := 256#32
  let v123 : BitVec 32 := Scalar.muli v122 c256_i32_91
  let v1297 : Index := Scalar.indexCast v123
  let c0_1152 : Index := 0#32
  ![7, v1297.toNat, 0]
def k0_off53 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_89 : BitVec 32 := 256#32
  let v120 : BitVec 32 := Scalar.muli v14 c256_i32_89
  let v1334 : Index := Scalar.indexCast v120
  let c896_1183 : Index := 896#32
  ![v1334.toNat, 896]
def k0_off54 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c256_i32_89 : BitVec 32 := 256#32
  let v120 : BitVec 32 := Scalar.muli v14 c256_i32_89
  let c896_i32 : BitVec 32 := 896#32
  ![v120.toNat, 896]
def k0_dev41 (d0 : Dev nD) : Nat :=
  let c0_i32_1189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1188 : BitVec 32 := 1#32
  let v1336 : BitVec 32 := Scalar.muli v3 c1_i32_1188
  let v1337 : BitVec 32 := Scalar.addi c0_i32_1189 v1336
  v1337.toNat
def k0_dev42 (d0 : Dev nD) : Nat :=
  let c0_i32_1196 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1195 : BitVec 32 := 1#32
  let v1344 : BitVec 32 := Scalar.muli v4 c1_i32_1195
  let v1345 : BitVec 32 := Scalar.addi c0_i32_1196 v1344
  v1345.toNat
def k0_off55 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c512_i32 : BitVec 32 := 512#32
  let v15 : BitVec 32 := Scalar.muli v7 c512_i32
  let c1_i32_12 : BitVec 32 := 1#32
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_11 : BitVec 32 := 2#32
  let v22 : BitVec 32 := Scalar.muli v7 c2_i32_11
  let v23 : BitVec 32 := Scalar.subi v10 v22
  let v24 : BitVec 32 := Scalar.subi c1_i32_12 v23
  let c256_i32_13 : BitVec 32 := 256#32
  let v25 : BitVec 32 := Scalar.muli v24 c256_i32_13
  let v1362 : BitVec 32 := Scalar.addi v15 v25
  let c0_i32_1220 : BitVec 32 := 0#32
  ![v1362.toNat, 0]
def k0_dev43 (d0 : Dev nD) : Nat :=
  let c0_i32_1219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1218 : BitVec 32 := 1#32
  let v1363 : BitVec 32 := Scalar.muli v3 c1_i32_1218
  let v1364 : BitVec 32 := Scalar.addi c0_i32_1219 v1363
  v1364.toNat
def k0_off56 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c512_i32_17 : BitVec 32 := 512#32
  let v30 : BitVec 32 := Scalar.muli v11 c512_i32_17
  let c1_i32_24 : BitVec 32 := 1#32
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_23 : BitVec 32 := 2#32
  let v37 : BitVec 32 := Scalar.muli v11 c2_i32_23
  let v38 : BitVec 32 := Scalar.subi v14 v37
  let v39 : BitVec 32 := Scalar.subi c1_i32_24 v38
  let c256_i32_25 : BitVec 32 := 256#32
  let v40 : BitVec 32 := Scalar.muli v39 c256_i32_25
  let v1381 : BitVec 32 := Scalar.addi v30 v40
  let c512_i32_1243 : BitVec 32 := 512#32
  ![v1381.toNat, 512]
def k0_dev44 (d0 : Dev nD) : Nat :=
  let c0_i32_1242 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1241 : BitVec 32 := 1#32
  let v1382 : BitVec 32 := Scalar.muli v4 c1_i32_1241
  let v1383 : BitVec 32 := Scalar.addi c0_i32_1242 v1382
  v1383.toNat
def k0_off57 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c512_i32_28 : BitVec 32 := 512#32
  let v44 : BitVec 32 := Scalar.muli v7 c512_i32_28
  let c1_i32_35 : BitVec 32 := 1#32
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_34 : BitVec 32 := 2#32
  let v51 : BitVec 32 := Scalar.muli v7 c2_i32_34
  let v52 : BitVec 32 := Scalar.subi v10 v51
  let v53 : BitVec 32 := Scalar.subi c1_i32_35 v52
  let c256_i32_36 : BitVec 32 := 256#32
  let v54 : BitVec 32 := Scalar.muli v53 c256_i32_36
  let v1400 : BitVec 32 := Scalar.addi v44 v54
  let c128_i32_1266 : BitVec 32 := 128#32
  ![v1400.toNat, 128]
def k0_dev45 (d0 : Dev nD) : Nat :=
  let c0_i32_1265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1264 : BitVec 32 := 1#32
  let v1401 : BitVec 32 := Scalar.muli v3 c1_i32_1264
  let v1402 : BitVec 32 := Scalar.addi c0_i32_1265 v1401
  v1402.toNat
def k0_off58 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c512_i32_40 : BitVec 32 := 512#32
  let v59 : BitVec 32 := Scalar.muli v11 c512_i32_40
  let c1_i32_47 : BitVec 32 := 1#32
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_46 : BitVec 32 := 2#32
  let v66 : BitVec 32 := Scalar.muli v11 c2_i32_46
  let v67 : BitVec 32 := Scalar.subi v14 v66
  let v68 : BitVec 32 := Scalar.subi c1_i32_47 v67
  let c256_i32_48 : BitVec 32 := 256#32
  let v69 : BitVec 32 := Scalar.muli v68 c256_i32_48
  let v1419 : BitVec 32 := Scalar.addi v59 v69
  let c640_i32_1289 : BitVec 32 := 640#32
  ![v1419.toNat, 640]
def k0_dev46 (d0 : Dev nD) : Nat :=
  let c0_i32_1288 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1287 : BitVec 32 := 1#32
  let v1420 : BitVec 32 := Scalar.muli v4 c1_i32_1287
  let v1421 : BitVec 32 := Scalar.addi c0_i32_1288 v1420
  v1421.toNat
def k0_off59 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c512_i32_51 : BitVec 32 := 512#32
  let v73 : BitVec 32 := Scalar.muli v7 c512_i32_51
  let c1_i32_58 : BitVec 32 := 1#32
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_57 : BitVec 32 := 2#32
  let v80 : BitVec 32 := Scalar.muli v7 c2_i32_57
  let v81 : BitVec 32 := Scalar.subi v10 v80
  let v82 : BitVec 32 := Scalar.subi c1_i32_58 v81
  let c256_i32_59 : BitVec 32 := 256#32
  let v83 : BitVec 32 := Scalar.muli v82 c256_i32_59
  let v1438 : BitVec 32 := Scalar.addi v73 v83
  let c256_i32_1312 : BitVec 32 := 256#32
  ![v1438.toNat, 256]
def k0_dev47 (d0 : Dev nD) : Nat :=
  let c0_i32_1311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1310 : BitVec 32 := 1#32
  let v1439 : BitVec 32 := Scalar.muli v3 c1_i32_1310
  let v1440 : BitVec 32 := Scalar.addi c0_i32_1311 v1439
  v1440.toNat
def k0_off60 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c512_i32_63 : BitVec 32 := 512#32
  let v88 : BitVec 32 := Scalar.muli v11 c512_i32_63
  let c1_i32_70 : BitVec 32 := 1#32
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_69 : BitVec 32 := 2#32
  let v95 : BitVec 32 := Scalar.muli v11 c2_i32_69
  let v96 : BitVec 32 := Scalar.subi v14 v95
  let v97 : BitVec 32 := Scalar.subi c1_i32_70 v96
  let c256_i32_71 : BitVec 32 := 256#32
  let v98 : BitVec 32 := Scalar.muli v97 c256_i32_71
  let v1457 : BitVec 32 := Scalar.addi v88 v98
  let c768_i32_1335 : BitVec 32 := 768#32
  ![v1457.toNat, 768]
def k0_dev48 (d0 : Dev nD) : Nat :=
  let c0_i32_1334 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1333 : BitVec 32 := 1#32
  let v1458 : BitVec 32 := Scalar.muli v4 c1_i32_1333
  let v1459 : BitVec 32 := Scalar.addi c0_i32_1334 v1458
  v1459.toNat
def k0_off61 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.shrsi v2 c1_i32_1
  let v6 : BitVec 32 := Scalar.xori v2 v5
  let c1_i32_2 : BitVec 32 := 1#32
  let v7 : BitVec 32 := Scalar.andi v6 c1_i32_2
  let c512_i32_74 : BitVec 32 := 512#32
  let v102 : BitVec 32 := Scalar.muli v7 c512_i32_74
  let c1_i32_81 : BitVec 32 := 1#32
  let c2_i32 : BitVec 32 := 2#32
  let v8 : BitVec 32 := Scalar.muli v7 c2_i32
  let c1_i32_3 : BitVec 32 := 1#32
  let v9 : BitVec 32 := Scalar.shrsi v2 c1_i32_3
  let v10 : BitVec 32 := Scalar.addi v8 v9
  let c2_i32_80 : BitVec 32 := 2#32
  let v109 : BitVec 32 := Scalar.muli v7 c2_i32_80
  let v110 : BitVec 32 := Scalar.subi v10 v109
  let v111 : BitVec 32 := Scalar.subi c1_i32_81 v110
  let c256_i32_82 : BitVec 32 := 256#32
  let v112 : BitVec 32 := Scalar.muli v111 c256_i32_82
  let v1476 : BitVec 32 := Scalar.addi v102 v112
  let c384_i32_1358 : BitVec 32 := 384#32
  ![v1476.toNat, 384]
def k0_dev49 (d0 : Dev nD) : Nat :=
  let c0_i32_1357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1356 : BitVec 32 := 1#32
  let v1477 : BitVec 32 := Scalar.muli v3 c1_i32_1356
  let v1478 : BitVec 32 := Scalar.addi c0_i32_1357 v1477
  v1478.toNat
def k0_off62 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v11 : BitVec 32 := Scalar.shrsi v2 c1_i32_4
  let c512_i32_86 : BitVec 32 := 512#32
  let v117 : BitVec 32 := Scalar.muli v11 c512_i32_86
  let c1_i32_93 : BitVec 32 := 1#32
  let c2_i32_5 : BitVec 32 := 2#32
  let v12 : BitVec 32 := Scalar.muli v11 c2_i32_5
  let c1_i32_6 : BitVec 32 := 1#32
  let v13 : BitVec 32 := Scalar.andi v2 c1_i32_6
  let v14 : BitVec 32 := Scalar.addi v12 v13
  let c2_i32_92 : BitVec 32 := 2#32
  let v124 : BitVec 32 := Scalar.muli v11 c2_i32_92
  let v125 : BitVec 32 := Scalar.subi v14 v124
  let v126 : BitVec 32 := Scalar.subi c1_i32_93 v125
  let c256_i32_94 : BitVec 32 := 256#32
  let v127 : BitVec 32 := Scalar.muli v126 c256_i32_94
  let v1495 : BitVec 32 := Scalar.addi v117 v127
  let c896_i32_1381 : BitVec 32 := 896#32
  ![v1495.toNat, 896]
def k0_dev50 (d0 : Dev nD) : Nat :=
  let c0_i32_1380 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1379 : BitVec 32 := 1#32
  let v1496 : BitVec 32 := Scalar.muli v4 c1_i32_1379
  let v1497 : BitVec 32 := Scalar.addi c0_i32_1380 v1496
  v1497.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S512x512 : 0 < S512x512.numel
  shapeCasts_S512x512_S512x512 : S512x512.ShapeCasts S512x512
  bitsLt_bf16_f32 : FTy.bits .bf16 < FTy.bits .f32
  inb_S512x1024_S512x128_0_0 : ∀ a, (![0, 0] : Fin 2 → Nat) a + S512x128.size a ≤ S512x1024.size a
  h_S512x128 : 0 < S512x128.numel
  shapeCasts_S512x128_S512x128 : S512x128.ShapeCasts S512x128
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  shapeCasts_S512x128_S1x512x128 : S512x128.ShapeCasts S1x512x128
  packedbf16_S8x512x128_S1x512x128_0_0_0 : (Rect.unit (s := S8x512x128) ![0, 0, 0] S1x512x128.size inb_S8x512x128_S1x512x128_0_0_0).PackedRows (EltTy.packing .bf16)
  hamt_2 : (2#32 : BitVec 32).msb = false
  inb_S8x6_S1x1_0_0 : ∀ a, (![0, 0] : Fin 2 → Nat) a + S1x1.size a ≤ S8x6.size a
  squeezes_S1x1_S_ : S1x1.Squeezes S_
  squeezes_S1x256x128_S256x128 : S1x256x128.Squeezes S256x128
  inb_S8x6_S1x1_0_1 : ∀ a, (![0, 1] : Fin 2 → Nat) a + S1x1.size a ≤ S8x6.size a
  inb_S512x1024_S512x128_0_512 : ∀ a, (![0, 512] : Fin 2 → Nat) a + S512x128.size a ≤ S512x1024.size a
  inb_S8x512x128_S1x512x128_1_0_0 : ∀ a, (![1, 0, 0] : Fin 3 → Nat) a + S1x512x128.size a ≤ S8x512x128.size a
  packedbf16_S8x512x128_S1x512x128_1_0_0 : (Rect.unit (s := S8x512x128) ![1, 0, 0] S1x512x128.size inb_S8x512x128_S1x512x128_1_0_0).PackedRows (EltTy.packing .bf16)
  inb_S8x6_S1x1_1_0 : ∀ a, (![1, 0] : Fin 2 → Nat) a + S1x1.size a ≤ S8x6.size a
  inb_S8x6_S1x1_1_1 : ∀ a, (![1, 1] : Fin 2 → Nat) a + S1x1.size a ≤ S8x6.size a
  inb_S512x1024_S512x128_0_128 : ∀ a, (![0, 128] : Fin 2 → Nat) a + S512x128.size a ≤ S512x1024.size a
  inb_S8x512x128_S1x512x128_2_0_0 : ∀ a, (![2, 0, 0] : Fin 3 → Nat) a + S1x512x128.size a ≤ S8x512x128.size a
  packedbf16_S8x512x128_S1x512x128_2_0_0 : (Rect.unit (s := S8x512x128) ![2, 0, 0] S1x512x128.size inb_S8x512x128_S1x512x128_2_0_0).PackedRows (EltTy.packing .bf16)
  inb_S8x6_S1x1_2_0 : ∀ a, (![2, 0] : Fin 2 → Nat) a + S1x1.size a ≤ S8x6.size a
  inb_S8x6_S1x1_2_1 : ∀ a, (![2, 1] : Fin 2 → Nat) a + S1x1.size a ≤ S8x6.size a
  inb_S512x1024_S512x128_0_640 : ∀ a, (![0, 640] : Fin 2 → Nat) a + S512x128.size a ≤ S512x1024.size a
  inb_S8x512x128_S1x512x128_3_0_0 : ∀ a, (![3, 0, 0] : Fin 3 → Nat) a + S1x512x128.size a ≤ S8x512x128.size a
  packedbf16_S8x512x128_S1x512x128_3_0_0 : (Rect.unit (s := S8x512x128) ![3, 0, 0] S1x512x128.size inb_S8x512x128_S1x512x128_3_0_0).PackedRows (EltTy.packing .bf16)
  inb_S8x6_S1x1_3_0 : ∀ a, (![3, 0] : Fin 2 → Nat) a + S1x1.size a ≤ S8x6.size a
  inb_S8x6_S1x1_3_1 : ∀ a, (![3, 1] : Fin 2 → Nat) a + S1x1.size a ≤ S8x6.size a
  inb_S512x1024_S512x128_0_256 : ∀ a, (![0, 256] : Fin 2 → Nat) a + S512x128.size a ≤ S512x1024.size a
  inb_S8x512x128_S1x512x128_4_0_0 : ∀ a, (![4, 0, 0] : Fin 3 → Nat) a + S1x512x128.size a ≤ S8x512x128.size a
  packedbf16_S8x512x128_S1x512x128_4_0_0 : (Rect.unit (s := S8x512x128) ![4, 0, 0] S1x512x128.size inb_S8x512x128_S1x512x128_4_0_0).PackedRows (EltTy.packing .bf16)
  inb_S8x6_S1x1_4_0 : ∀ a, (![4, 0] : Fin 2 → Nat) a + S1x1.size a ≤ S8x6.size a
  inb_S8x6_S1x1_4_1 : ∀ a, (![4, 1] : Fin 2 → Nat) a + S1x1.size a ≤ S8x6.size a
  inb_S512x1024_S512x128_0_768 : ∀ a, (![0, 768] : Fin 2 → Nat) a + S512x128.size a ≤ S512x1024.size a
  inb_S8x512x128_S1x512x128_5_0_0 : ∀ a, (![5, 0, 0] : Fin 3 → Nat) a + S1x512x128.size a ≤ S8x512x128.size a
  packedbf16_S8x512x128_S1x512x128_5_0_0 : (Rect.unit (s := S8x512x128) ![5, 0, 0] S1x512x128.size inb_S8x512x128_S1x512x128_5_0_0).PackedRows (EltTy.packing .bf16)
  inb_S8x6_S1x1_5_0 : ∀ a, (![5, 0] : Fin 2 → Nat) a + S1x1.size a ≤ S8x6.size a
  inb_S8x6_S1x1_5_1 : ∀ a, (![5, 1] : Fin 2 → Nat) a + S1x1.size a ≤ S8x6.size a
  inb_S512x1024_S512x128_0_384 : ∀ a, (![0, 384] : Fin 2 → Nat) a + S512x128.size a ≤ S512x1024.size a
  inb_S8x512x128_S1x512x128_6_0_0 : ∀ a, (![6, 0, 0] : Fin 3 → Nat) a + S1x512x128.size a ≤ S8x512x128.size a
  packedbf16_S8x512x128_S1x512x128_6_0_0 : (Rect.unit (s := S8x512x128) ![6, 0, 0] S1x512x128.size inb_S8x512x128_S1x512x128_6_0_0).PackedRows (EltTy.packing .bf16)
  inb_S8x6_S1x1_6_0 : ∀ a, (![6, 0] : Fin 2 → Nat) a + S1x1.size a ≤ S8x6.size a
  inb_S8x6_S1x1_6_1 : ∀ a, (![6, 1] : Fin 2 → Nat) a + S1x1.size a ≤ S8x6.size a
  inb_S512x1024_S512x128_0_896 : ∀ a, (![0, 896] : Fin 2 → Nat) a + S512x128.size a ≤ S512x1024.size a
  inb_S8x512x128_S1x512x128_7_0_0 : ∀ a, (![7, 0, 0] : Fin 3 → Nat) a + S1x512x128.size a ≤ S8x512x128.size a
  packedbf16_S8x512x128_S1x512x128_7_0_0 : (Rect.unit (s := S8x512x128) ![7, 0, 0] S1x512x128.size inb_S8x512x128_S1x512x128_7_0_0).PackedRows (EltTy.packing .bf16)
  inb_S8x6_S1x1_7_0 : ∀ a, (![7, 0] : Fin 2 → Nat) a + S1x1.size a ≤ S8x6.size a
  inb_S8x6_S1x1_7_1 : ∀ a, (![7, 1] : Fin 2 → Nat) a + S1x1.size a ≤ S8x6.size a
  h_S256x512 : 0 < S256x512.numel
  shapeCasts_S256x512_S256x512 : S256x512.ShapeCasts S256x512
  h_S1x256x128 : 0 < S1x256x128.numel
  shapeCasts_S1x256x128_S256x128 : S1x256x128.ShapeCasts S256x128
  inb_S8x256x128_S1x256x128_0_0_0 : ∀ a, (![0, 0, 0] : Fin 3 → Nat) a + S1x256x128.size a ≤ S8x256x128.size a
  shapeCasts_S256x128_S1x256x128 : S256x128.ShapeCasts S1x256x128
  packedbf16_S8x256x128_S1x256x128_0_0_0 : (Rect.unit (s := S8x256x128) ![0, 0, 0] S1x256x128.size inb_S8x256x128_S1x256x128_0_0_0).PackedRows (EltTy.packing .bf16)
  inb_S8x6_S1x1_0_2 : ∀ a, (![0, 2] : Fin 2 → Nat) a + S1x1.size a ≤ S8x6.size a
  wordsbf16_S8x256x128_S1x256x128_0_0_0 : (Rect.unit (s := S8x256x128) ![0, 0, 0] S1x256x128.size inb_S8x256x128_S1x256x128_0_0_0).WholeWords (EltTy.packing .bf16)
  inb_S8x256x128_S1x256x128_1_0_0 : ∀ a, (![1, 0, 0] : Fin 3 → Nat) a + S1x256x128.size a ≤ S8x256x128.size a
  packedbf16_S8x256x128_S1x256x128_1_0_0 : (Rect.unit (s := S8x256x128) ![1, 0, 0] S1x256x128.size inb_S8x256x128_S1x256x128_1_0_0).PackedRows (EltTy.packing .bf16)
  inb_S8x6_S1x1_1_2 : ∀ a, (![1, 2] : Fin 2 → Nat) a + S1x1.size a ≤ S8x6.size a
  wordsbf16_S8x256x128_S1x256x128_1_0_0 : (Rect.unit (s := S8x256x128) ![1, 0, 0] S1x256x128.size inb_S8x256x128_S1x256x128_1_0_0).WholeWords (EltTy.packing .bf16)
  inb_S8x256x128_S1x256x128_2_0_0 : ∀ a, (![2, 0, 0] : Fin 3 → Nat) a + S1x256x128.size a ≤ S8x256x128.size a
  packedbf16_S8x256x128_S1x256x128_2_0_0 : (Rect.unit (s := S8x256x128) ![2, 0, 0] S1x256x128.size inb_S8x256x128_S1x256x128_2_0_0).PackedRows (EltTy.packing .bf16)
  inb_S8x6_S1x1_2_2 : ∀ a, (![2, 2] : Fin 2 → Nat) a + S1x1.size a ≤ S8x6.size a
  wordsbf16_S8x256x128_S1x256x128_2_0_0 : (Rect.unit (s := S8x256x128) ![2, 0, 0] S1x256x128.size inb_S8x256x128_S1x256x128_2_0_0).WholeWords (EltTy.packing .bf16)
  inb_S8x256x128_S1x256x128_3_0_0 : ∀ a, (![3, 0, 0] : Fin 3 → Nat) a + S1x256x128.size a ≤ S8x256x128.size a
  packedbf16_S8x256x128_S1x256x128_3_0_0 : (Rect.unit (s := S8x256x128) ![3, 0, 0] S1x256x128.size inb_S8x256x128_S1x256x128_3_0_0).PackedRows (EltTy.packing .bf16)
  inb_S8x6_S1x1_3_2 : ∀ a, (![3, 2] : Fin 2 → Nat) a + S1x1.size a ≤ S8x6.size a
  wordsbf16_S8x256x128_S1x256x128_3_0_0 : (Rect.unit (s := S8x256x128) ![3, 0, 0] S1x256x128.size inb_S8x256x128_S1x256x128_3_0_0).WholeWords (EltTy.packing .bf16)
  inb_S8x256x128_S1x256x128_4_0_0 : ∀ a, (![4, 0, 0] : Fin 3 → Nat) a + S1x256x128.size a ≤ S8x256x128.size a
  packedbf16_S8x256x128_S1x256x128_4_0_0 : (Rect.unit (s := S8x256x128) ![4, 0, 0] S1x256x128.size inb_S8x256x128_S1x256x128_4_0_0).PackedRows (EltTy.packing .bf16)
  inb_S8x6_S1x1_4_2 : ∀ a, (![4, 2] : Fin 2 → Nat) a + S1x1.size a ≤ S8x6.size a
  wordsbf16_S8x256x128_S1x256x128_4_0_0 : (Rect.unit (s := S8x256x128) ![4, 0, 0] S1x256x128.size inb_S8x256x128_S1x256x128_4_0_0).WholeWords (EltTy.packing .bf16)
  inb_S8x256x128_S1x256x128_5_0_0 : ∀ a, (![5, 0, 0] : Fin 3 → Nat) a + S1x256x128.size a ≤ S8x256x128.size a
  packedbf16_S8x256x128_S1x256x128_5_0_0 : (Rect.unit (s := S8x256x128) ![5, 0, 0] S1x256x128.size inb_S8x256x128_S1x256x128_5_0_0).PackedRows (EltTy.packing .bf16)
  inb_S8x6_S1x1_5_2 : ∀ a, (![5, 2] : Fin 2 → Nat) a + S1x1.size a ≤ S8x6.size a
  wordsbf16_S8x256x128_S1x256x128_5_0_0 : (Rect.unit (s := S8x256x128) ![5, 0, 0] S1x256x128.size inb_S8x256x128_S1x256x128_5_0_0).WholeWords (EltTy.packing .bf16)
  inb_S8x256x128_S1x256x128_6_0_0 : ∀ a, (![6, 0, 0] : Fin 3 → Nat) a + S1x256x128.size a ≤ S8x256x128.size a
  packedbf16_S8x256x128_S1x256x128_6_0_0 : (Rect.unit (s := S8x256x128) ![6, 0, 0] S1x256x128.size inb_S8x256x128_S1x256x128_6_0_0).PackedRows (EltTy.packing .bf16)
  inb_S8x6_S1x1_6_2 : ∀ a, (![6, 2] : Fin 2 → Nat) a + S1x1.size a ≤ S8x6.size a
  wordsbf16_S8x256x128_S1x256x128_6_0_0 : (Rect.unit (s := S8x256x128) ![6, 0, 0] S1x256x128.size inb_S8x256x128_S1x256x128_6_0_0).WholeWords (EltTy.packing .bf16)
  inb_S8x256x128_S1x256x128_7_0_0 : ∀ a, (![7, 0, 0] : Fin 3 → Nat) a + S1x256x128.size a ≤ S8x256x128.size a
  packedbf16_S8x256x128_S1x256x128_7_0_0 : (Rect.unit (s := S8x256x128) ![7, 0, 0] S1x256x128.size inb_S8x256x128_S1x256x128_7_0_0).PackedRows (EltTy.packing .bf16)
  inb_S8x6_S1x1_7_2 : ∀ a, (![7, 2] : Fin 2 → Nat) a + S1x1.size a ≤ S8x6.size a
  wordsbf16_S8x256x128_S1x256x128_7_0_0 : (Rect.unit (s := S8x256x128) ![7, 0, 0] S1x256x128.size inb_S8x256x128_S1x256x128_7_0_0).WholeWords (EltTy.packing .bf16)
  h_S256x128 : 0 < S256x128.numel
  inb_S8x6_S1x1_0_3 : ∀ a, (![0, 3] : Fin 2 → Nat) a + S1x1.size a ≤ S8x6.size a
  inb_S8x6_S1x1_0_4 : ∀ a, (![0, 4] : Fin 2 → Nat) a + S1x1.size a ≤ S8x6.size a
  inb_S8x6_S1x1_1_3 : ∀ a, (![1, 3] : Fin 2 → Nat) a + S1x1.size a ≤ S8x6.size a
  inb_S8x6_S1x1_1_4 : ∀ a, (![1, 4] : Fin 2 → Nat) a + S1x1.size a ≤ S8x6.size a
  inb_S8x6_S1x1_2_3 : ∀ a, (![2, 3] : Fin 2 → Nat) a + S1x1.size a ≤ S8x6.size a
  inb_S8x6_S1x1_2_4 : ∀ a, (![2, 4] : Fin 2 → Nat) a + S1x1.size a ≤ S8x6.size a
  inb_S8x6_S1x1_3_3 : ∀ a, (![3, 3] : Fin 2 → Nat) a + S1x1.size a ≤ S8x6.size a
  inb_S8x6_S1x1_3_4 : ∀ a, (![3, 4] : Fin 2 → Nat) a + S1x1.size a ≤ S8x6.size a
  inb_S8x6_S1x1_4_3 : ∀ a, (![4, 3] : Fin 2 → Nat) a + S1x1.size a ≤ S8x6.size a
  inb_S8x6_S1x1_4_4 : ∀ a, (![4, 4] : Fin 2 → Nat) a + S1x1.size a ≤ S8x6.size a
  inb_S8x6_S1x1_5_3 : ∀ a, (![5, 3] : Fin 2 → Nat) a + S1x1.size a ≤ S8x6.size a
  inb_S8x6_S1x1_5_4 : ∀ a, (![5, 4] : Fin 2 → Nat) a + S1x1.size a ≤ S8x6.size a
  inb_S8x6_S1x1_6_3 : ∀ a, (![6, 3] : Fin 2 → Nat) a + S1x1.size a ≤ S8x6.size a
  inb_S8x6_S1x1_6_4 : ∀ a, (![6, 4] : Fin 2 → Nat) a + S1x1.size a ≤ S8x6.size a
  inb_S8x6_S1x1_7_3 : ∀ a, (![7, 3] : Fin 2 → Nat) a + S1x1.size a ≤ S8x6.size a
  inb_S8x6_S1x1_7_4 : ∀ a, (![7, 4] : Fin 2 → Nat) a + S1x1.size a ≤ S8x6.size a
  inb_S8x6_S1x1_0_5 : ∀ a, (![0, 5] : Fin 2 → Nat) a + S1x1.size a ≤ S8x6.size a
  inb_S8x6_S1x1_1_5 : ∀ a, (![1, 5] : Fin 2 → Nat) a + S1x1.size a ≤ S8x6.size a
  inb_S8x6_S1x1_2_5 : ∀ a, (![2, 5] : Fin 2 → Nat) a + S1x1.size a ≤ S8x6.size a
  inb_S8x6_S1x1_3_5 : ∀ a, (![3, 5] : Fin 2 → Nat) a + S1x1.size a ≤ S8x6.size a
  inb_S8x6_S1x1_4_5 : ∀ a, (![4, 5] : Fin 2 → Nat) a + S1x1.size a ≤ S8x6.size a
  inb_S8x6_S1x1_5_5 : ∀ a, (![5, 5] : Fin 2 → Nat) a + S1x1.size a ≤ S8x6.size a
  inb_S8x6_S1x1_6_5 : ∀ a, (![6, 5] : Fin 2 → Nat) a + S1x1.size a ≤ S8x6.size a
  inb_S8x6_S1x1_7_5 : ∀ a, (![7, 5] : Fin 2 → Nat) a + S1x1.size a ≤ S8x6.size a
  dot_S512x512_S512x128_S512x128_1_0_0_1_n_n_wf : DotDims.WF S512x512 S512x128 S512x128 [1] [0] [0] [1] [] []
  dot_S256x512_S512x128_S256x128_1_0_0_1_n_n_wf : DotDims.WF S256x512 S512x128 S256x128 [1] [0] [0] [1] [] []
  hcc0_scratch4 : 3 + S8x6.numel ≤ 99
  hcc0_scratch5 : 51 + S8x6.numel ≤ 99
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x512.size a ≤ S1024x512.size a
  k0_off2_inb : ∀ d0 : Dev nD, ∀ a, (k0_off2 d0) a + S1x256x128.size a ≤ S8x512x128.size a
  k0_off2_wordsbf16 : ∀ d0 : Dev nD, (Rect.unit (s := S8x512x128) (k0_off2 d0) S1x256x128.size (k0_off2_inb d0)).WholeWords (EltTy.packing .bf16)
  k0_dev3_lt : ∀ d0 : Dev nD, (k0_dev3 d0) < nD
  k0_off3_inb : ∀ d0 : Dev nD, ∀ a, (k0_off3 d0) a + S1x256x128.size a ≤ S8x512x128.size a
  k0_off3_wordsbf16 : ∀ d0 : Dev nD, (Rect.unit (s := S8x512x128) (k0_off3 d0) S1x256x128.size (k0_off3_inb d0)).WholeWords (EltTy.packing .bf16)
  k0_dev4_lt : ∀ d0 : Dev nD, (k0_dev4 d0) < nD
  k0_off4_inb : ∀ d0 : Dev nD, ∀ a, (k0_off4 d0) a + S512x512.size a ≤ S1024x512.size a
  k0_off5_inb : ∀ d0 : Dev nD, ∀ a, (k0_off5 d0) a + S1x256x128.size a ≤ S8x512x128.size a
  k0_off5_wordsbf16 : ∀ d0 : Dev nD, (Rect.unit (s := S8x512x128) (k0_off5 d0) S1x256x128.size (k0_off5_inb d0)).WholeWords (EltTy.packing .bf16)
  k0_dev5_lt : ∀ d0 : Dev nD, (k0_dev5 d0) < nD
  k0_off6_inb : ∀ d0 : Dev nD, ∀ a, (k0_off6 d0) a + S1x256x128.size a ≤ S8x512x128.size a
  k0_off6_wordsbf16 : ∀ d0 : Dev nD, (Rect.unit (s := S8x512x128) (k0_off6 d0) S1x256x128.size (k0_off6_inb d0)).WholeWords (EltTy.packing .bf16)
  k0_dev6_lt : ∀ d0 : Dev nD, (k0_dev6 d0) < nD
  k0_off7_inb : ∀ d0 : Dev nD, ∀ a, (k0_off7 d0) a + S1x256x128.size a ≤ S8x512x128.size a
  k0_off7_wordsbf16 : ∀ d0 : Dev nD, (Rect.unit (s := S8x512x128) (k0_off7 d0) S1x256x128.size (k0_off7_inb d0)).WholeWords (EltTy.packing .bf16)
  k0_dev7_lt : ∀ d0 : Dev nD, (k0_dev7 d0) < nD
  k0_off8_inb : ∀ d0 : Dev nD, ∀ a, (k0_off8 d0) a + S1x256x128.size a ≤ S8x512x128.size a
  k0_off8_wordsbf16 : ∀ d0 : Dev nD, (Rect.unit (s := S8x512x128) (k0_off8 d0) S1x256x128.size (k0_off8_inb d0)).WholeWords (EltTy.packing .bf16)
  k0_dev8_lt : ∀ d0 : Dev nD, (k0_dev8 d0) < nD
  k0_off9_inb : ∀ d0 : Dev nD, ∀ a, (k0_off9 d0) a + S1x256x128.size a ≤ S8x512x128.size a
  k0_off9_wordsbf16 : ∀ d0 : Dev nD, (Rect.unit (s := S8x512x128) (k0_off9 d0) S1x256x128.size (k0_off9_inb d0)).WholeWords (EltTy.packing .bf16)
  k0_dev9_lt : ∀ d0 : Dev nD, (k0_dev9 d0) < nD
  k0_off10_inb : ∀ d0 : Dev nD, ∀ a, (k0_off10 d0) a + S1x256x128.size a ≤ S8x512x128.size a
  k0_off10_wordsbf16 : ∀ d0 : Dev nD, (Rect.unit (s := S8x512x128) (k0_off10 d0) S1x256x128.size (k0_off10_inb d0)).WholeWords (EltTy.packing .bf16)
  k0_dev10_lt : ∀ d0 : Dev nD, (k0_dev10 d0) < nD
  k0_off11_inb : ∀ d0 : Dev nD, ∀ a, (k0_off11 d0) a + S1x256x128.size a ≤ S8x512x128.size a
  k0_off11_wordsbf16 : ∀ d0 : Dev nD, (Rect.unit (s := S8x512x128) (k0_off11 d0) S1x256x128.size (k0_off11_inb d0)).WholeWords (EltTy.packing .bf16)
  k0_dev11_lt : ∀ d0 : Dev nD, (k0_dev11 d0) < nD
  k0_off12_inb : ∀ d0 : Dev nD, ∀ a, (k0_off12 d0) a + S1x256x128.size a ≤ S8x512x128.size a
  k0_off12_wordsbf16 : ∀ d0 : Dev nD, (Rect.unit (s := S8x512x128) (k0_off12 d0) S1x256x128.size (k0_off12_inb d0)).WholeWords (EltTy.packing .bf16)
  k0_dev12_lt : ∀ d0 : Dev nD, (k0_dev12 d0) < nD
  k0_off13_inb : ∀ d0 : Dev nD, ∀ a, (k0_off13 d0) a + S1x256x128.size a ≤ S8x512x128.size a
  k0_off13_wordsbf16 : ∀ d0 : Dev nD, (Rect.unit (s := S8x512x128) (k0_off13 d0) S1x256x128.size (k0_off13_inb d0)).WholeWords (EltTy.packing .bf16)
  k0_dev13_lt : ∀ d0 : Dev nD, (k0_dev13 d0) < nD
  k0_off14_inb : ∀ d0 : Dev nD, ∀ a, (k0_off14 d0) a + S1x256x128.size a ≤ S8x512x128.size a
  k0_off14_wordsbf16 : ∀ d0 : Dev nD, (Rect.unit (s := S8x512x128) (k0_off14 d0) S1x256x128.size (k0_off14_inb d0)).WholeWords (EltTy.packing .bf16)
  k0_dev14_lt : ∀ d0 : Dev nD, (k0_dev14 d0) < nD
  k0_off15_inb : ∀ d0 : Dev nD, ∀ a, (k0_off15 d0) a + S1x256x128.size a ≤ S8x512x128.size a
  k0_off15_wordsbf16 : ∀ d0 : Dev nD, (Rect.unit (s := S8x512x128) (k0_off15 d0) S1x256x128.size (k0_off15_inb d0)).WholeWords (EltTy.packing .bf16)
  k0_dev15_lt : ∀ d0 : Dev nD, (k0_dev15 d0) < nD
  k0_off16_inb : ∀ d0 : Dev nD, ∀ a, (k0_off16 d0) a + S1x256x128.size a ≤ S8x512x128.size a
  k0_off16_wordsbf16 : ∀ d0 : Dev nD, (Rect.unit (s := S8x512x128) (k0_off16 d0) S1x256x128.size (k0_off16_inb d0)).WholeWords (EltTy.packing .bf16)
  k0_dev16_lt : ∀ d0 : Dev nD, (k0_dev16 d0) < nD
  k0_off17_inb : ∀ d0 : Dev nD, ∀ a, (k0_off17 d0) a + S1x256x128.size a ≤ S8x512x128.size a
  k0_off17_wordsbf16 : ∀ d0 : Dev nD, (Rect.unit (s := S8x512x128) (k0_off17 d0) S1x256x128.size (k0_off17_inb d0)).WholeWords (EltTy.packing .bf16)
  k0_dev17_lt : ∀ d0 : Dev nD, (k0_dev17 d0) < nD
  k0_off18_inb : ∀ d0 : Dev nD, ∀ a, (k0_off18 d0) a + S1x256x128.size a ≤ S8x512x128.size a
  k0_off18_wordsbf16 : ∀ d0 : Dev nD, (Rect.unit (s := S8x512x128) (k0_off18 d0) S1x256x128.size (k0_off18_inb d0)).WholeWords (EltTy.packing .bf16)
  k0_dev18_lt : ∀ d0 : Dev nD, (k0_dev18 d0) < nD
  k0_off19_inb : ∀ d0 : Dev nD, ∀ a, (k0_off19 d0) a + S256x512.size a ≤ S1024x512.size a
  k0_off20_inb : ∀ d0 : Dev nD, ∀ a, (k0_off20 d0) a + S256x512.size a ≤ S1024x512.size a
  k0_off21_inb : ∀ d0 : Dev nD, ∀ a, (k0_off21 d0) a + S256x512.size a ≤ S1024x512.size a
  k0_off22_inb : ∀ d0 : Dev nD, ∀ a, (k0_off22 d0) a + S256x512.size a ≤ S1024x512.size a
  k0_off23_inb : ∀ d0 : Dev nD, ∀ a, (k0_off23 d0) a + S1x256x128.size a ≤ S8x512x128.size a
  k0_dev19_lt : ∀ d0 : Dev nD, (k0_dev19 d0) < nD
  k0_off24_inb : ∀ d0 : Dev nD, ∀ a, (k0_off24 d0) a + S1x256x128.size a ≤ S8x512x128.size a
  k0_dev20_lt : ∀ d0 : Dev nD, (k0_dev20 d0) < nD
  k0_off25_inb : ∀ d0 : Dev nD, ∀ a, (k0_off25 d0) a + S1x256x128.size a ≤ S8x512x128.size a
  k0_dev21_lt : ∀ d0 : Dev nD, (k0_dev21 d0) < nD
  k0_off26_inb : ∀ d0 : Dev nD, ∀ a, (k0_off26 d0) a + S1x256x128.size a ≤ S8x512x128.size a
  k0_dev22_lt : ∀ d0 : Dev nD, (k0_dev22 d0) < nD
  k0_off27_inb : ∀ d0 : Dev nD, ∀ a, (k0_off27 d0) a + S1x256x128.size a ≤ S8x512x128.size a
  k0_dev23_lt : ∀ d0 : Dev nD, (k0_dev23 d0) < nD
  k0_off28_inb : ∀ d0 : Dev nD, ∀ a, (k0_off28 d0) a + S1x256x128.size a ≤ S8x512x128.size a
  k0_dev24_lt : ∀ d0 : Dev nD, (k0_dev24 d0) < nD
  k0_off29_inb : ∀ d0 : Dev nD, ∀ a, (k0_off29 d0) a + S1x256x128.size a ≤ S8x512x128.size a
  k0_dev25_lt : ∀ d0 : Dev nD, (k0_dev25 d0) < nD
  k0_off30_inb : ∀ d0 : Dev nD, ∀ a, (k0_off30 d0) a + S1x256x128.size a ≤ S8x512x128.size a
  k0_dev26_lt : ∀ d0 : Dev nD, (k0_dev26 d0) < nD
  k0_off31_inb : ∀ d0 : Dev nD, ∀ a, (k0_off31 d0) a + S1x256x128.size a ≤ S8x512x128.size a
  k0_off32_inb : ∀ d0 : Dev nD, ∀ a, (k0_off32 d0) a + S256x128.size a ≤ S1024x1024.size a
  k0_off32_packedbf16 : ∀ d0 : Dev nD, (Rect.unit (s := S1024x1024) (k0_off32 d0) S256x128.size (k0_off32_inb d0)).PackedRows (EltTy.packing .bf16)
  k0_off33_inb : ∀ d0 : Dev nD, ∀ a, (k0_off33 d0) a + S256x128.size a ≤ S1024x1024.size a
  k0_off33_wordsbf16 : ∀ d0 : Dev nD, (Rect.unit (s := S1024x1024) (k0_off33 d0) S256x128.size (k0_off33_inb d0)).WholeWords (EltTy.packing .bf16)
  k0_dev27_lt : ∀ d0 : Dev nD, (k0_dev27 d0) < nD
  k0_dev28_lt : ∀ d0 : Dev nD, (k0_dev28 d0) < nD
  k0_off34_inb : ∀ d0 : Dev nD, ∀ a, (k0_off34 d0) a + S1x256x128.size a ≤ S8x512x128.size a
  k0_off35_inb : ∀ d0 : Dev nD, ∀ a, (k0_off35 d0) a + S256x128.size a ≤ S1024x1024.size a
  k0_off35_packedbf16 : ∀ d0 : Dev nD, (Rect.unit (s := S1024x1024) (k0_off35 d0) S256x128.size (k0_off35_inb d0)).PackedRows (EltTy.packing .bf16)
  k0_off36_inb : ∀ d0 : Dev nD, ∀ a, (k0_off36 d0) a + S256x128.size a ≤ S1024x1024.size a
  k0_off36_wordsbf16 : ∀ d0 : Dev nD, (Rect.unit (s := S1024x1024) (k0_off36 d0) S256x128.size (k0_off36_inb d0)).WholeWords (EltTy.packing .bf16)
  k0_dev29_lt : ∀ d0 : Dev nD, (k0_dev29 d0) < nD
  k0_dev30_lt : ∀ d0 : Dev nD, (k0_dev30 d0) < nD
  k0_off37_inb : ∀ d0 : Dev nD, ∀ a, (k0_off37 d0) a + S1x256x128.size a ≤ S8x512x128.size a
  k0_off38_inb : ∀ d0 : Dev nD, ∀ a, (k0_off38 d0) a + S256x128.size a ≤ S1024x1024.size a
  k0_off38_packedbf16 : ∀ d0 : Dev nD, (Rect.unit (s := S1024x1024) (k0_off38 d0) S256x128.size (k0_off38_inb d0)).PackedRows (EltTy.packing .bf16)
  k0_off39_inb : ∀ d0 : Dev nD, ∀ a, (k0_off39 d0) a + S256x128.size a ≤ S1024x1024.size a
  k0_off39_wordsbf16 : ∀ d0 : Dev nD, (Rect.unit (s := S1024x1024) (k0_off39 d0) S256x128.size (k0_off39_inb d0)).WholeWords (EltTy.packing .bf16)
  k0_dev31_lt : ∀ d0 : Dev nD, (k0_dev31 d0) < nD
  k0_dev32_lt : ∀ d0 : Dev nD, (k0_dev32 d0) < nD
  k0_off40_inb : ∀ d0 : Dev nD, ∀ a, (k0_off40 d0) a + S1x256x128.size a ≤ S8x512x128.size a
  k0_off41_inb : ∀ d0 : Dev nD, ∀ a, (k0_off41 d0) a + S256x128.size a ≤ S1024x1024.size a
  k0_off41_packedbf16 : ∀ d0 : Dev nD, (Rect.unit (s := S1024x1024) (k0_off41 d0) S256x128.size (k0_off41_inb d0)).PackedRows (EltTy.packing .bf16)
  k0_off42_inb : ∀ d0 : Dev nD, ∀ a, (k0_off42 d0) a + S256x128.size a ≤ S1024x1024.size a
  k0_off42_wordsbf16 : ∀ d0 : Dev nD, (Rect.unit (s := S1024x1024) (k0_off42 d0) S256x128.size (k0_off42_inb d0)).WholeWords (EltTy.packing .bf16)
  k0_dev33_lt : ∀ d0 : Dev nD, (k0_dev33 d0) < nD
  k0_dev34_lt : ∀ d0 : Dev nD, (k0_dev34 d0) < nD
  k0_off43_inb : ∀ d0 : Dev nD, ∀ a, (k0_off43 d0) a + S1x256x128.size a ≤ S8x512x128.size a
  k0_off44_inb : ∀ d0 : Dev nD, ∀ a, (k0_off44 d0) a + S256x128.size a ≤ S1024x1024.size a
  k0_off44_packedbf16 : ∀ d0 : Dev nD, (Rect.unit (s := S1024x1024) (k0_off44 d0) S256x128.size (k0_off44_inb d0)).PackedRows (EltTy.packing .bf16)
  k0_off45_inb : ∀ d0 : Dev nD, ∀ a, (k0_off45 d0) a + S256x128.size a ≤ S1024x1024.size a
  k0_off45_wordsbf16 : ∀ d0 : Dev nD, (Rect.unit (s := S1024x1024) (k0_off45 d0) S256x128.size (k0_off45_inb d0)).WholeWords (EltTy.packing .bf16)
  k0_dev35_lt : ∀ d0 : Dev nD, (k0_dev35 d0) < nD
  k0_dev36_lt : ∀ d0 : Dev nD, (k0_dev36 d0) < nD
  k0_off46_inb : ∀ d0 : Dev nD, ∀ a, (k0_off46 d0) a + S1x256x128.size a ≤ S8x512x128.size a
  k0_off47_inb : ∀ d0 : Dev nD, ∀ a, (k0_off47 d0) a + S256x128.size a ≤ S1024x1024.size a
  k0_off47_packedbf16 : ∀ d0 : Dev nD, (Rect.unit (s := S1024x1024) (k0_off47 d0) S256x128.size (k0_off47_inb d0)).PackedRows (EltTy.packing .bf16)
  k0_off48_inb : ∀ d0 : Dev nD, ∀ a, (k0_off48 d0) a + S256x128.size a ≤ S1024x1024.size a
  k0_off48_wordsbf16 : ∀ d0 : Dev nD, (Rect.unit (s := S1024x1024) (k0_off48 d0) S256x128.size (k0_off48_inb d0)).WholeWords (EltTy.packing .bf16)
  k0_dev37_lt : ∀ d0 : Dev nD, (k0_dev37 d0) < nD
  k0_dev38_lt : ∀ d0 : Dev nD, (k0_dev38 d0) < nD
  k0_off49_inb : ∀ d0 : Dev nD, ∀ a, (k0_off49 d0) a + S1x256x128.size a ≤ S8x512x128.size a
  k0_off50_inb : ∀ d0 : Dev nD, ∀ a, (k0_off50 d0) a + S256x128.size a ≤ S1024x1024.size a
  k0_off50_packedbf16 : ∀ d0 : Dev nD, (Rect.unit (s := S1024x1024) (k0_off50 d0) S256x128.size (k0_off50_inb d0)).PackedRows (EltTy.packing .bf16)
  k0_off51_inb : ∀ d0 : Dev nD, ∀ a, (k0_off51 d0) a + S256x128.size a ≤ S1024x1024.size a
  k0_off51_wordsbf16 : ∀ d0 : Dev nD, (Rect.unit (s := S1024x1024) (k0_off51 d0) S256x128.size (k0_off51_inb d0)).WholeWords (EltTy.packing .bf16)
  k0_dev39_lt : ∀ d0 : Dev nD, (k0_dev39 d0) < nD
  k0_dev40_lt : ∀ d0 : Dev nD, (k0_dev40 d0) < nD
  k0_off52_inb : ∀ d0 : Dev nD, ∀ a, (k0_off52 d0) a + S1x256x128.size a ≤ S8x512x128.size a
  k0_off53_inb : ∀ d0 : Dev nD, ∀ a, (k0_off53 d0) a + S256x128.size a ≤ S1024x1024.size a
  k0_off53_packedbf16 : ∀ d0 : Dev nD, (Rect.unit (s := S1024x1024) (k0_off53 d0) S256x128.size (k0_off53_inb d0)).PackedRows (EltTy.packing .bf16)
  k0_off54_inb : ∀ d0 : Dev nD, ∀ a, (k0_off54 d0) a + S256x128.size a ≤ S1024x1024.size a
  k0_off54_wordsbf16 : ∀ d0 : Dev nD, (Rect.unit (s := S1024x1024) (k0_off54 d0) S256x128.size (k0_off54_inb d0)).WholeWords (EltTy.packing .bf16)
  k0_dev41_lt : ∀ d0 : Dev nD, (k0_dev41 d0) < nD
  k0_dev42_lt : ∀ d0 : Dev nD, (k0_dev42 d0) < nD
  k0_off55_inb : ∀ d0 : Dev nD, ∀ a, (k0_off55 d0) a + S256x128.size a ≤ S1024x1024.size a
  k0_off55_wordsbf16 : ∀ d0 : Dev nD, (Rect.unit (s := S1024x1024) (k0_off55 d0) S256x128.size (k0_off55_inb d0)).WholeWords (EltTy.packing .bf16)
  k0_dev43_lt : ∀ d0 : Dev nD, (k0_dev43 d0) < nD
  k0_off56_inb : ∀ d0 : Dev nD, ∀ a, (k0_off56 d0) a + S256x128.size a ≤ S1024x1024.size a
  k0_off56_wordsbf16 : ∀ d0 : Dev nD, (Rect.unit (s := S1024x1024) (k0_off56 d0) S256x128.size (k0_off56_inb d0)).WholeWords (EltTy.packing .bf16)
  k0_dev44_lt : ∀ d0 : Dev nD, (k0_dev44 d0) < nD
  k0_off57_inb : ∀ d0 : Dev nD, ∀ a, (k0_off57 d0) a + S256x128.size a ≤ S1024x1024.size a
  k0_off57_wordsbf16 : ∀ d0 : Dev nD, (Rect.unit (s := S1024x1024) (k0_off57 d0) S256x128.size (k0_off57_inb d0)).WholeWords (EltTy.packing .bf16)
  k0_dev45_lt : ∀ d0 : Dev nD, (k0_dev45 d0) < nD
  k0_off58_inb : ∀ d0 : Dev nD, ∀ a, (k0_off58 d0) a + S256x128.size a ≤ S1024x1024.size a
  k0_off58_wordsbf16 : ∀ d0 : Dev nD, (Rect.unit (s := S1024x1024) (k0_off58 d0) S256x128.size (k0_off58_inb d0)).WholeWords (EltTy.packing .bf16)
  k0_dev46_lt : ∀ d0 : Dev nD, (k0_dev46 d0) < nD
  k0_off59_inb : ∀ d0 : Dev nD, ∀ a, (k0_off59 d0) a + S256x128.size a ≤ S1024x1024.size a
  k0_off59_wordsbf16 : ∀ d0 : Dev nD, (Rect.unit (s := S1024x1024) (k0_off59 d0) S256x128.size (k0_off59_inb d0)).WholeWords (EltTy.packing .bf16)
  k0_dev47_lt : ∀ d0 : Dev nD, (k0_dev47 d0) < nD
  k0_off60_inb : ∀ d0 : Dev nD, ∀ a, (k0_off60 d0) a + S256x128.size a ≤ S1024x1024.size a
  k0_off60_wordsbf16 : ∀ d0 : Dev nD, (Rect.unit (s := S1024x1024) (k0_off60 d0) S256x128.size (k0_off60_inb d0)).WholeWords (EltTy.packing .bf16)
  k0_dev48_lt : ∀ d0 : Dev nD, (k0_dev48 d0) < nD
  k0_off61_inb : ∀ d0 : Dev nD, ∀ a, (k0_off61 d0) a + S256x128.size a ≤ S1024x1024.size a
  k0_off61_wordsbf16 : ∀ d0 : Dev nD, (Rect.unit (s := S1024x1024) (k0_off61 d0) S256x128.size (k0_off61_inb d0)).WholeWords (EltTy.packing .bf16)
  k0_dev49_lt : ∀ d0 : Dev nD, (k0_dev49 d0) < nD
  k0_off62_inb : ∀ d0 : Dev nD, ∀ a, (k0_off62 d0) a + S256x128.size a ≤ S1024x1024.size a
  k0_off62_wordsbf16 : ∀ d0 : Dev nD, (Rect.unit (s := S1024x1024) (k0_off62 d0) S256x128.size (k0_off62_inb d0)).WholeWords (EltTy.packing .bf16)
  k0_dev50_lt : ∀ d0 : Dev nD, (k0_dev50 d0) < nD
  hstage0_0 : ∀ j, (stage0_0 j).IsWhole
  hstage0_1 : ∀ j, (stage0_1 j).IsWhole
  hstage0_2 : ∀ j, (stage0_2 j).IsWhole

variable [Facts₀]

abbrev cc0_scratch4 : DmaSems sig S8x6 := SemArray.consecutive 3 S8x6 hcc0_scratch4
abbrev cc0_scratch5 : DmaSems sig S8x6 := SemArray.consecutive 51 S8x6 hcc0_scratch5
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bitsLt_bf16_f32 : FTy.bits .bf16 < FTy.bits .f32
  dot_S1024x2048_S2048x1024_S1024x1024_1_0_0_1_n_n_wf : DotDims.WF S1024x2048 S2048x1024 S1024x1024 [1] [0] [0] [1] [] []

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

class Facts : Prop extends Facts₀ where

variable [Facts]
-- ==== Proof.ValueSpec.lean ====
import proofs.«900880_g7700000000000881_dist_matmul_gelu_kshard_i_m1024_n1024_k512_v7x_i4_bf16_1_alg».proof.Proof.Gen.ReferenceIdeal.Read
import Idealize.ShloMosaic.Lib.Layout
import Idealize.ShloMosaic.Lib.ValueIdx
import Idealize.ShloMosaic.PureOps.Ideal.Laws

noncomputable section

open scoped BigOperators

namespace Cert.ValueSpec

open Idealize.ShloMosaic Cert.ReferenceIdeal

abbrev S1024x512 : Shape := ⟨2, ![1024, 512]⟩

abbrev S512x1024 : Shape := ⟨2, ![512, 1024]⟩

def zdot (A : S1024x2048.Idx → EReal) (B : S2048x1024.Idx → EReal) (r c : Fin 1024) : EReal :=
  ∑ k : Fin 2048, A (ValueIdx.ix2 r k) * B (ValueIdx.ix2 k c)

def gelu (z : EReal) : EReal :=
  ((Ideal.ofBits .f32 0x3F000000#32 : EReal) * z)
    * ((Ideal.ofBits .f32 0x3F800000#32 : EReal)
        + Ideal.tanh ((Ideal.ofBits .f32 0x3F4C422A#32 : EReal)
            * (z + (((Ideal.ofBits .f32 0x3D372713#32 : EReal) * z) * z) * z)))

theorem v0_eq (A : S1024x2048.Idx → EReal) (B : S2048x1024.Idx → EReal) (i : S1024x1024.Idx) :
    Read.val_main_v0 (F := Ideal) A B i = zdot A B (i 0) (i 1) := by
  rw [Read.val_main_v0_apply]
  unfold zdot
  refine Finset.sum_congr rfl fun k _ => ?_
  have hl : Read.lidx_main_v0 i k = ValueIdx.ix2 (i 0) k := by
    funext a; match a with | ⟨0, _⟩ => rfl | ⟨1, _⟩ => rfl
  have hr : Read.ridx_main_v0 i k = ValueIdx.ix2 k (i 1) := by
    funext a; match a with | ⟨0, _⟩ => rfl | ⟨1, _⟩ => rfl
  rw [hl, hr]
  rfl

theorem ref_eq (A : S1024x2048.Idx → EReal) (B : S2048x1024.Idx → EReal) (i : S1024x1024.Idx) :
    Read.val_main_v14 (F := Ideal) A B i = gelu (zdot A B (i 0) (i 1)) := by
  rw [← v0_eq]
  rfl

def zpart (Ad : S1024x512.Idx → EReal) (Bd : S512x1024.Idx → EReal) (r c : Fin 1024) : EReal :=
  ∑ k : Fin 512, Ad (ValueIdx.ix2 r k) * Bd (ValueIdx.ix2 k c)

def split4 : Fin 4 × Fin 512 ≃ Fin 2048 where
  toFun x := ⟨x.1.val * 512 + x.2.val, by have := x.1.isLt; have := x.2.isLt; omega⟩
  invFun k := (⟨k.val / 512, by have := k.isLt; omega⟩, ⟨k.val % 512, by omega⟩)
  left_inv x := by
    have h1 := x.1.isLt; have h2 := x.2.isLt
    refine Prod.ext (Fin.ext ?_) (Fin.ext ?_)
    · show (x.1.val * 512 + x.2.val) / 512 = x.1.val; omega
    · show (x.1.val * 512 + x.2.val) % 512 = x.2.val; omega
  right_inv k := by
    refine Fin.ext ?_
    show k.val / 512 * 512 + k.val % 512 = k.val; omega

theorem sum_split {M : Type*} [AddCommMonoid M] (f : Fin 2048 → M) :
    ∑ k, f k = ∑ d : Fin 4, ∑ k : Fin 512, f ⟨d.val * 512 + k.val, by have := d.isLt; have := k.isLt; omega⟩ := by
  calc ∑ k, f k = ∑ x : Fin 4 × Fin 512, f (split4 x) := (Equiv.sum_comp split4 f).symm
    _ = ∑ d : Fin 4, ∑ k : Fin 512, f (split4 (d, k)) := Fintype.sum_prod_type _
    _ = _ := rfl

theorem zdot_split (A : S1024x2048.Idx → EReal) (B : S2048x1024.Idx → EReal) (r c : Fin 1024) :
    zdot A B r c = ∑ d : Fin 4, zpart (Layout.block ⟨2, ![1024, 512]⟩ ⟨2, ![1024, 2048]⟩ 1 4 d A)
      (Layout.block ⟨2, ![512, 1024]⟩ ⟨2, ![2048, 1024]⟩ 0 4 d B) r c := by
  unfold zdot zpart
  rw [sum_split]
  refine Finset.sum_congr rfl fun d _ => Finset.sum_congr rfl fun k _ => ?_
  rw [Layout.block_apply, Layout.block_apply]
  congr 2
  · funext a; refine Fin.ext ?_
    match a with | ⟨0, _⟩ => rfl | ⟨1, _⟩ => rfl
  · funext a; refine Fin.ext ?_
    match a with | ⟨0, _⟩ => rfl | ⟨1, _⟩ => rfl

def p1 (c : Fin 4) : Fin 4 := ⟨c.val ^^^ 1, Nat.xor_lt_two_pow (n := 2) c.isLt (by decide)⟩

def p2 (c : Fin 4) : Fin 4 := ⟨3 - c.val, by omega⟩

theorem four_sum_a (P : Fin 4 → EReal) (c : Fin 4) :
    (P c + P (p1 c)) + (P (p2 c) + P (p1 (p2 c))) = ∑ d : Fin 4, P d := by
  rw [Fin.sum_univ_four]
  fin_cases c
  · show (P 0 + P 1) + (P 3 + P 2) = _; ac_rfl
  · show (P 1 + P 0) + (P 2 + P 3) = _; ac_rfl
  · show (P 2 + P 3) + (P 1 + P 0) = _; ac_rfl
  · show (P 3 + P 2) + (P 0 + P 1) = _; ac_rfl

theorem four_sum_b (P : Fin 4 → EReal) (c : Fin 4) :
    (P c + P (p2 c)) + (P (p1 c) + P (p2 (p1 c))) = ∑ d : Fin 4, P d := by
  rw [Fin.sum_univ_four]
  fin_cases c
  · show (P 0 + P 3) + (P 1 + P 2) = _; ac_rfl
  · show (P 1 + P 2) + (P 0 + P 3) = _; ac_rfl
  · show (P 2 + P 1) + (P 3 + P 0) = _; ac_rfl
  · show (P 3 + P 0) + (P 2 + P 1) = _; ac_rfl

end Cert.ValueSpec

end
-- ==== Proof.RefRun.lean ====
import proofs.«900880_g7700000000000881_dist_matmul_gelu_kshard_i_m1024_n1024_k512_v7x_i4_bf16_1_alg».proof.Defs
import proofs.«900880_g7700000000000881_dist_matmul_gelu_kshard_i_m1024_n1024_k512_v7x_i4_bf16_1_alg».proof.Proof.Gen.ReferenceIdeal
import proofs.«900880_g7700000000000881_dist_matmul_gelu_kshard_i_m1024_n1024_k512_v7x_i4_bf16_1_alg».proof.Proof.Gen.ReferenceIdeal.Run
import proofs.«900880_g7700000000000881_dist_matmul_gelu_kshard_i_m1024_n1024_k512_v7x_i4_bf16_1_alg».proof.Proof.Gen.ReferenceIdeal.Read
import proofs.«900880_g7700000000000881_dist_matmul_gelu_kshard_i_m1024_n1024_k512_v7x_i4_bf16_1_alg».proof.Proof.Gen.Pre_finite_inputs_ReferenceIdeal
import proofs.«900880_g7700000000000881_dist_matmul_gelu_kshard_i_m1024_n1024_k512_v7x_i4_bf16_1_alg».proof.Proof.ValueSpec

noncomputable section

namespace Cert.RefSide

open Idealize.ShloMosaic Idealize.SL.Sem

theorem ref_frame : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

theorem ref_value (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v14)
          = (fun i => ValueSpec.gelu (ValueSpec.zdot
              (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1)) (i 0) (i 1)))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1)
          = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨by
        rw [(h 0).1, Cert.ReferenceIdeal.Read.val_main_v14_eq]
        exact funext fun i => ValueSpec.ref_eq _ _ i,
      (h 0).2⟩)
    (Cert.ReferenceIdeal.Value.run (F := Ideal) m' ρ')

end Cert.RefSide

end
-- ==== Proof.KernelIdealTab.lean ====
import proofs.«900880_g7700000000000881_dist_matmul_gelu_kshard_i_m1024_n1024_k512_v7x_i4_bf16_1_alg».proof.Proof.Gen.KernelIdeal

namespace Cert.KernelIdeal.Tab

open Cert.KernelIdeal Cert.KernelIdeal.Gen Idealize.ShloMosaic

/-- The device chain of a lane's copy. -/
def devN : Fin 8 → Fin 6 → Dev nD → Nat
  | 0, 0 => k0_dev3
  | 0, 1 => k0_dev4
  | 0, 2 => k0_dev19
  | 0, 3 => k0_dev27
  | 0, 4 => k0_dev28
  | 0, 5 => k0_dev43
  | 1, 0 => k0_dev5
  | 1, 1 => k0_dev6
  | 1, 2 => k0_dev20
  | 1, 3 => k0_dev29
  | 1, 4 => k0_dev30
  | 1, 5 => k0_dev44
  | 2, 0 => k0_dev7
  | 2, 1 => k0_dev8
  | 2, 2 => k0_dev21
  | 2, 3 => k0_dev31
  | 2, 4 => k0_dev32
  | 2, 5 => k0_dev45
  | 3, 0 => k0_dev9
  | 3, 1 => k0_dev10
  | 3, 2 => k0_dev22
  | 3, 3 => k0_dev33
  | 3, 4 => k0_dev34
  | 3, 5 => k0_dev46
  | 4, 0 => k0_dev11
  | 4, 1 => k0_dev12
  | 4, 2 => k0_dev23
  | 4, 3 => k0_dev35
  | 4, 4 => k0_dev36
  | 4, 5 => k0_dev47
  | 5, 0 => k0_dev13
  | 5, 1 => k0_dev14
  | 5, 2 => k0_dev24
  | 5, 3 => k0_dev37
  | 5, 4 => k0_dev38
  | 5, 5 => k0_dev48
  | 6, 0 => k0_dev15
  | 6, 1 => k0_dev16
  | 6, 2 => k0_dev25
  | 6, 3 => k0_dev39
  | 6, 4 => k0_dev40
  | 6, 5 => k0_dev49
  | 7, 0 => k0_dev17
  | 7, 1 => k0_dev18
  | 7, 2 => k0_dev26
  | 7, 3 => k0_dev41
  | 7, 4 => k0_dev42
  | 7, 5 => k0_dev50

/-- The offsets chain of the two half-lane copies (source and destination lie at the same offsets). -/
def offH : Fin 8 → Fin 2 → Dev nD → Fin 3 → Nat
  | 0, 0 => k0_off2
  | 0, 1 => k0_off3
  | 1, 0 => k0_off5
  | 1, 1 => k0_off6
  | 2, 0 => k0_off7
  | 2, 1 => k0_off8
  | 3, 0 => k0_off9
  | 3, 1 => k0_off10
  | 4, 0 => k0_off11
  | 4, 1 => k0_off12
  | 5, 0 => k0_off13
  | 5, 1 => k0_off14
  | 6, 0 => k0_off15
  | 6, 1 => k0_off16
  | 7, 0 => k0_off17
  | 7, 1 => k0_off18

/-- The offsets chain of the result block a lane computes (copies 3 and 4 send it). -/
def offO : Fin 8 → Dev nD → Fin 2 → Nat
  | 0 => k0_off33
  | 1 => k0_off36
  | 2 => k0_off39
  | 3 => k0_off42
  | 4 => k0_off45
  | 5 => k0_off48
  | 6 => k0_off51
  | 7 => k0_off54

/-- The offsets chain of the result block copy 5 forwards. -/
def offO5 : Fin 8 → Dev nD → Fin 2 → Nat
  | 0 => k0_off55
  | 1 => k0_off56
  | 2 => k0_off57
  | 3 => k0_off58
  | 4 => k0_off59
  | 5 => k0_off60
  | 6 => k0_off61
  | 7 => k0_off62

/-- The offsets chain of the result block's store. -/
def offOst : Fin 8 → Dev nD → Fin 2 → Nat
  | 0 => k0_off32
  | 1 => k0_off35
  | 2 => k0_off38
  | 3 => k0_off41
  | 4 => k0_off44
  | 5 => k0_off47
  | 6 => k0_off50
  | 7 => k0_off53

/-- The offsets chains of the two loads of received half lanes. -/
def offL1 : Fin 8 → Dev nD → Fin 3 → Nat
  | 0 => k0_off23
  | 1 => k0_off24
  | 2 => k0_off25
  | 3 => k0_off26
  | 4 => k0_off27
  | 5 => k0_off28
  | 6 => k0_off29
  | 7 => k0_off30

def offL2 : Fin 8 → Dev nD → Fin 3 → Nat
  | 0 => k0_off31
  | 1 => k0_off34
  | 2 => k0_off37
  | 3 => k0_off40
  | 4 => k0_off43
  | 5 => k0_off46
  | 6 => k0_off49
  | 7 => k0_off52

/-- The offsets chains of the three row blocks of the left operand a lane multiplies. -/
def offA1 : Fin 8 → Dev nD → Fin 2 → Nat
  | 0 => k0_off1
  | 1 => k0_off4
  | 2 => k0_off1
  | 3 => k0_off4
  | 4 => k0_off1
  | 5 => k0_off4
  | 6 => k0_off1
  | 7 => k0_off4

def offAqo : Fin 8 → Dev nD → Fin 2 → Nat
  | 0 => k0_off19
  | 1 => k0_off20
  | 2 => k0_off19
  | 3 => k0_off20
  | 4 => k0_off19
  | 5 => k0_off20
  | 6 => k0_off19
  | 7 => k0_off20

def offAqi : Fin 8 → Dev nD → Fin 2 → Nat
  | 0 => k0_off21
  | 1 => k0_off22
  | 2 => k0_off21
  | 3 => k0_off22
  | 4 => k0_off21
  | 5 => k0_off22
  | 6 => k0_off21
  | 7 => k0_off22

/-- The DMA semaphore of a lane's copy on the sending side, and on the receiving side, spelt as the program spells them. -/
def sendSem : Fin 8 → Fin 6 → DmaSem sig
  | 0, 0 => ((cc0_scratch4.slice (Rect.unit (s := S8x6) ![0, 0] S1x1.size inb_S8x6_S1x1_0_0)).squeeze S_ squeezes_S1x1_S_).sem
  | 0, 1 => ((cc0_scratch4.slice (Rect.unit (s := S8x6) ![0, 1] S1x1.size inb_S8x6_S1x1_0_1)).squeeze S_ squeezes_S1x1_S_).sem
  | 0, 2 => ((cc0_scratch4.slice (Rect.unit (s := S8x6) ![0, 2] S1x1.size inb_S8x6_S1x1_0_2)).squeeze S_ squeezes_S1x1_S_).sem
  | 0, 3 => ((cc0_scratch4.slice (Rect.unit (s := S8x6) ![0, 3] S1x1.size inb_S8x6_S1x1_0_3)).squeeze S_ squeezes_S1x1_S_).sem
  | 0, 4 => ((cc0_scratch4.slice (Rect.unit (s := S8x6) ![0, 4] S1x1.size inb_S8x6_S1x1_0_4)).squeeze S_ squeezes_S1x1_S_).sem
  | 0, 5 => ((cc0_scratch4.slice (Rect.unit (s := S8x6) ![0, 5] S1x1.size inb_S8x6_S1x1_0_5)).squeeze S_ squeezes_S1x1_S_).sem
  | 1, 0 => ((cc0_scratch4.slice (Rect.unit (s := S8x6) ![1, 0] S1x1.size inb_S8x6_S1x1_1_0)).squeeze S_ squeezes_S1x1_S_).sem
  | 1, 1 => ((cc0_scratch4.slice (Rect.unit (s := S8x6) ![1, 1] S1x1.size inb_S8x6_S1x1_1_1)).squeeze S_ squeezes_S1x1_S_).sem
  | 1, 2 => ((cc0_scratch4.slice (Rect.unit (s := S8x6) ![1, 2] S1x1.size inb_S8x6_S1x1_1_2)).squeeze S_ squeezes_S1x1_S_).sem
  | 1, 3 => ((cc0_scratch4.slice (Rect.unit (s := S8x6) ![1, 3] S1x1.size inb_S8x6_S1x1_1_3)).squeeze S_ squeezes_S1x1_S_).sem
  | 1, 4 => ((cc0_scratch4.slice (Rect.unit (s := S8x6) ![1, 4] S1x1.size inb_S8x6_S1x1_1_4)).squeeze S_ squeezes_S1x1_S_).sem
  | 1, 5 => ((cc0_scratch4.slice (Rect.unit (s := S8x6) ![1, 5] S1x1.size inb_S8x6_S1x1_1_5)).squeeze S_ squeezes_S1x1_S_).sem
  | 2, 0 => ((cc0_scratch4.slice (Rect.unit (s := S8x6) ![2, 0] S1x1.size inb_S8x6_S1x1_2_0)).squeeze S_ squeezes_S1x1_S_).sem
  | 2, 1 => ((cc0_scratch4.slice (Rect.unit (s := S8x6) ![2, 1] S1x1.size inb_S8x6_S1x1_2_1)).squeeze S_ squeezes_S1x1_S_).sem
  | 2, 2 => ((cc0_scratch4.slice (Rect.unit (s := S8x6) ![2, 2] S1x1.size inb_S8x6_S1x1_2_2)).squeeze S_ squeezes_S1x1_S_).sem
  | 2, 3 => ((cc0_scratch4.slice (Rect.unit (s := S8x6) ![2, 3] S1x1.size inb_S8x6_S1x1_2_3)).squeeze S_ squeezes_S1x1_S_).sem
  | 2, 4 => ((cc0_scratch4.slice (Rect.unit (s := S8x6) ![2, 4] S1x1.size inb_S8x6_S1x1_2_4)).squeeze S_ squeezes_S1x1_S_).sem
  | 2, 5 => ((cc0_scratch4.slice (Rect.unit (s := S8x6) ![2, 5] S1x1.size inb_S8x6_S1x1_2_5)).squeeze S_ squeezes_S1x1_S_).sem
  | 3, 0 => ((cc0_scratch4.slice (Rect.unit (s := S8x6) ![3, 0] S1x1.size inb_S8x6_S1x1_3_0)).squeeze S_ squeezes_S1x1_S_).sem
  | 3, 1 => ((cc0_scratch4.slice (Rect.unit (s := S8x6) ![3, 1] S1x1.size inb_S8x6_S1x1_3_1)).squeeze S_ squeezes_S1x1_S_).sem
  | 3, 2 => ((cc0_scratch4.slice (Rect.unit (s := S8x6) ![3, 2] S1x1.size inb_S8x6_S1x1_3_2)).squeeze S_ squeezes_S1x1_S_).sem
  | 3, 3 => ((cc0_scratch4.slice (Rect.unit (s := S8x6) ![3, 3] S1x1.size inb_S8x6_S1x1_3_3)).squeeze S_ squeezes_S1x1_S_).sem
  | 3, 4 => ((cc0_scratch4.slice (Rect.unit (s := S8x6) ![3, 4] S1x1.size inb_S8x6_S1x1_3_4)).squeeze S_ squeezes_S1x1_S_).sem
  | 3, 5 => ((cc0_scratch4.slice (Rect.unit (s := S8x6) ![3, 5] S1x1.size inb_S8x6_S1x1_3_5)).squeeze S_ squeezes_S1x1_S_).sem
  | 4, 0 => ((cc0_scratch4.slice (Rect.unit (s := S8x6) ![4, 0] S1x1.size inb_S8x6_S1x1_4_0)).squeeze S_ squeezes_S1x1_S_).sem
  | 4, 1 => ((cc0_scratch4.slice (Rect.unit (s := S8x6) ![4, 1] S1x1.size inb_S8x6_S1x1_4_1)).squeeze S_ squeezes_S1x1_S_).sem
  | 4, 2 => ((cc0_scratch4.slice (Rect.unit (s := S8x6) ![4, 2] S1x1.size inb_S8x6_S1x1_4_2)).squeeze S_ squeezes_S1x1_S_).sem
  | 4, 3 => ((cc0_scratch4.slice (Rect.unit (s := S8x6) ![4, 3] S1x1.size inb_S8x6_S1x1_4_3)).squeeze S_ squeezes_S1x1_S_).sem
  | 4, 4 => ((cc0_scratch4.slice (Rect.unit (s := S8x6) ![4, 4] S1x1.size inb_S8x6_S1x1_4_4)).squeeze S_ squeezes_S1x1_S_).sem
  | 4, 5 => ((cc0_scratch4.slice (Rect.unit (s := S8x6) ![4, 5] S1x1.size inb_S8x6_S1x1_4_5)).squeeze S_ squeezes_S1x1_S_).sem
  | 5, 0 => ((cc0_scratch4.slice (Rect.unit (s := S8x6) ![5, 0] S1x1.size inb_S8x6_S1x1_5_0)).squeeze S_ squeezes_S1x1_S_).sem
  | 5, 1 => ((cc0_scratch4.slice (Rect.unit (s := S8x6) ![5, 1] S1x1.size inb_S8x6_S1x1_5_1)).squeeze S_ squeezes_S1x1_S_).sem
  | 5, 2 => ((cc0_scratch4.slice (Rect.unit (s := S8x6) ![5, 2] S1x1.size inb_S8x6_S1x1_5_2)).squeeze S_ squeezes_S1x1_S_).sem
  | 5, 3 => ((cc0_scratch4.slice (Rect.unit (s := S8x6) ![5, 3] S1x1.size inb_S8x6_S1x1_5_3)).squeeze S_ squeezes_S1x1_S_).sem
  | 5, 4 => ((cc0_scratch4.slice (Rect.unit (s := S8x6) ![5, 4] S1x1.size inb_S8x6_S1x1_5_4)).squeeze S_ squeezes_S1x1_S_).sem
  | 5, 5 => ((cc0_scratch4.slice (Rect.unit (s := S8x6) ![5, 5] S1x1.size inb_S8x6_S1x1_5_5)).squeeze S_ squeezes_S1x1_S_).sem
  | 6, 0 => ((cc0_scratch4.slice (Rect.unit (s := S8x6) ![6, 0] S1x1.size inb_S8x6_S1x1_6_0)).squeeze S_ squeezes_S1x1_S_).sem
  | 6, 1 => ((cc0_scratch4.slice (Rect.unit (s := S8x6) ![6, 1] S1x1.size inb_S8x6_S1x1_6_1)).squeeze S_ squeezes_S1x1_S_).sem
  | 6, 2 => ((cc0_scratch4.slice (Rect.unit (s := S8x6) ![6, 2] S1x1.size inb_S8x6_S1x1_6_2)).squeeze S_ squeezes_S1x1_S_).sem
  | 6, 3 => ((cc0_scratch4.slice (Rect.unit (s := S8x6) ![6, 3] S1x1.size inb_S8x6_S1x1_6_3)).squeeze S_ squeezes_S1x1_S_).sem
  | 6, 4 => ((cc0_scratch4.slice (Rect.unit (s := S8x6) ![6, 4] S1x1.size inb_S8x6_S1x1_6_4)).squeeze S_ squeezes_S1x1_S_).sem
  | 6, 5 => ((cc0_scratch4.slice (Rect.unit (s := S8x6) ![6, 5] S1x1.size inb_S8x6_S1x1_6_5)).squeeze S_ squeezes_S1x1_S_).sem
  | 7, 0 => ((cc0_scratch4.slice (Rect.unit (s := S8x6) ![7, 0] S1x1.size inb_S8x6_S1x1_7_0)).squeeze S_ squeezes_S1x1_S_).sem
  | 7, 1 => ((cc0_scratch4.slice (Rect.unit (s := S8x6) ![7, 1] S1x1.size inb_S8x6_S1x1_7_1)).squeeze S_ squeezes_S1x1_S_).sem
  | 7, 2 => ((cc0_scratch4.slice (Rect.unit (s := S8x6) ![7, 2] S1x1.size inb_S8x6_S1x1_7_2)).squeeze S_ squeezes_S1x1_S_).sem
  | 7, 3 => ((cc0_scratch4.slice (Rect.unit (s := S8x6) ![7, 3] S1x1.size inb_S8x6_S1x1_7_3)).squeeze S_ squeezes_S1x1_S_).sem
  | 7, 4 => ((cc0_scratch4.slice (Rect.unit (s := S8x6) ![7, 4] S1x1.size inb_S8x6_S1x1_7_4)).squeeze S_ squeezes_S1x1_S_).sem
  | 7, 5 => ((cc0_scratch4.slice (Rect.unit (s := S8x6) ![7, 5] S1x1.size inb_S8x6_S1x1_7_5)).squeeze S_ squeezes_S1x1_S_).sem

def recvSem : Fin 8 → Fin 6 → DmaSem sig
  | 0, 0 => ((cc0_scratch5.slice (Rect.unit (s := S8x6) ![0, 0] S1x1.size inb_S8x6_S1x1_0_0)).squeeze S_ squeezes_S1x1_S_).sem
  | 0, 1 => ((cc0_scratch5.slice (Rect.unit (s := S8x6) ![0, 1] S1x1.size inb_S8x6_S1x1_0_1)).squeeze S_ squeezes_S1x1_S_).sem
  | 0, 2 => ((cc0_scratch5.slice (Rect.unit (s := S8x6) ![0, 2] S1x1.size inb_S8x6_S1x1_0_2)).squeeze S_ squeezes_S1x1_S_).sem
  | 0, 3 => ((cc0_scratch5.slice (Rect.unit (s := S8x6) ![0, 3] S1x1.size inb_S8x6_S1x1_0_3)).squeeze S_ squeezes_S1x1_S_).sem
  | 0, 4 => ((cc0_scratch5.slice (Rect.unit (s := S8x6) ![0, 4] S1x1.size inb_S8x6_S1x1_0_4)).squeeze S_ squeezes_S1x1_S_).sem
  | 0, 5 => ((cc0_scratch5.slice (Rect.unit (s := S8x6) ![0, 5] S1x1.size inb_S8x6_S1x1_0_5)).squeeze S_ squeezes_S1x1_S_).sem
  | 1, 0 => ((cc0_scratch5.slice (Rect.unit (s := S8x6) ![1, 0] S1x1.size inb_S8x6_S1x1_1_0)).squeeze S_ squeezes_S1x1_S_).sem
  | 1, 1 => ((cc0_scratch5.slice (Rect.unit (s := S8x6) ![1, 1] S1x1.size inb_S8x6_S1x1_1_1)).squeeze S_ squeezes_S1x1_S_).sem
  | 1, 2 => ((cc0_scratch5.slice (Rect.unit (s := S8x6) ![1, 2] S1x1.size inb_S8x6_S1x1_1_2)).squeeze S_ squeezes_S1x1_S_).sem
  | 1, 3 => ((cc0_scratch5.slice (Rect.unit (s := S8x6) ![1, 3] S1x1.size inb_S8x6_S1x1_1_3)).squeeze S_ squeezes_S1x1_S_).sem
  | 1, 4 => ((cc0_scratch5.slice (Rect.unit (s := S8x6) ![1, 4] S1x1.size inb_S8x6_S1x1_1_4)).squeeze S_ squeezes_S1x1_S_).sem
  | 1, 5 => ((cc0_scratch5.slice (Rect.unit (s := S8x6) ![1, 5] S1x1.size inb_S8x6_S1x1_1_5)).squeeze S_ squeezes_S1x1_S_).sem
  | 2, 0 => ((cc0_scratch5.slice (Rect.unit (s := S8x6) ![2, 0] S1x1.size inb_S8x6_S1x1_2_0)).squeeze S_ squeezes_S1x1_S_).sem
  | 2, 1 => ((cc0_scratch5.slice (Rect.unit (s := S8x6) ![2, 1] S1x1.size inb_S8x6_S1x1_2_1)).squeeze S_ squeezes_S1x1_S_).sem
  | 2, 2 => ((cc0_scratch5.slice (Rect.unit (s := S8x6) ![2, 2] S1x1.size inb_S8x6_S1x1_2_2)).squeeze S_ squeezes_S1x1_S_).sem
  | 2, 3 => ((cc0_scratch5.slice (Rect.unit (s := S8x6) ![2, 3] S1x1.size inb_S8x6_S1x1_2_3)).squeeze S_ squeezes_S1x1_S_).sem
  | 2, 4 => ((cc0_scratch5.slice (Rect.unit (s := S8x6) ![2, 4] S1x1.size inb_S8x6_S1x1_2_4)).squeeze S_ squeezes_S1x1_S_).sem
  | 2, 5 => ((cc0_scratch5.slice (Rect.unit (s := S8x6) ![2, 5] S1x1.size inb_S8x6_S1x1_2_5)).squeeze S_ squeezes_S1x1_S_).sem
  | 3, 0 => ((cc0_scratch5.slice (Rect.unit (s := S8x6) ![3, 0] S1x1.size inb_S8x6_S1x1_3_0)).squeeze S_ squeezes_S1x1_S_).sem
  | 3, 1 => ((cc0_scratch5.slice (Rect.unit (s := S8x6) ![3, 1] S1x1.size inb_S8x6_S1x1_3_1)).squeeze S_ squeezes_S1x1_S_).sem
  | 3, 2 => ((cc0_scratch5.slice (Rect.unit (s := S8x6) ![3, 2] S1x1.size inb_S8x6_S1x1_3_2)).squeeze S_ squeezes_S1x1_S_).sem
  | 3, 3 => ((cc0_scratch5.slice (Rect.unit (s := S8x6) ![3, 3] S1x1.size inb_S8x6_S1x1_3_3)).squeeze S_ squeezes_S1x1_S_).sem
  | 3, 4 => ((cc0_scratch5.slice (Rect.unit (s := S8x6) ![3, 4] S1x1.size inb_S8x6_S1x1_3_4)).squeeze S_ squeezes_S1x1_S_).sem
  | 3, 5 => ((cc0_scratch5.slice (Rect.unit (s := S8x6) ![3, 5] S1x1.size inb_S8x6_S1x1_3_5)).squeeze S_ squeezes_S1x1_S_).sem
  | 4, 0 => ((cc0_scratch5.slice (Rect.unit (s := S8x6) ![4, 0] S1x1.size inb_S8x6_S1x1_4_0)).squeeze S_ squeezes_S1x1_S_).sem
  | 4, 1 => ((cc0_scratch5.slice (Rect.unit (s := S8x6) ![4, 1] S1x1.size inb_S8x6_S1x1_4_1)).squeeze S_ squeezes_S1x1_S_).sem
  | 4, 2 => ((cc0_scratch5.slice (Rect.unit (s := S8x6) ![4, 2] S1x1.size inb_S8x6_S1x1_4_2)).squeeze S_ squeezes_S1x1_S_).sem
  | 4, 3 => ((cc0_scratch5.slice (Rect.unit (s := S8x6) ![4, 3] S1x1.size inb_S8x6_S1x1_4_3)).squeeze S_ squeezes_S1x1_S_).sem
  | 4, 4 => ((cc0_scratch5.slice (Rect.unit (s := S8x6) ![4, 4] S1x1.size inb_S8x6_S1x1_4_4)).squeeze S_ squeezes_S1x1_S_).sem
  | 4, 5 => ((cc0_scratch5.slice (Rect.unit (s := S8x6) ![4, 5] S1x1.size inb_S8x6_S1x1_4_5)).squeeze S_ squeezes_S1x1_S_).sem
  | 5, 0 => ((cc0_scratch5.slice (Rect.unit (s := S8x6) ![5, 0] S1x1.size inb_S8x6_S1x1_5_0)).squeeze S_ squeezes_S1x1_S_).sem
  | 5, 1 => ((cc0_scratch5.slice (Rect.unit (s := S8x6) ![5, 1] S1x1.size inb_S8x6_S1x1_5_1)).squeeze S_ squeezes_S1x1_S_).sem
  | 5, 2 => ((cc0_scratch5.slice (Rect.unit (s := S8x6) ![5, 2] S1x1.size inb_S8x6_S1x1_5_2)).squeeze S_ squeezes_S1x1_S_).sem
  | 5, 3 => ((cc0_scratch5.slice (Rect.unit (s := S8x6) ![5, 3] S1x1.size inb_S8x6_S1x1_5_3)).squeeze S_ squeezes_S1x1_S_).sem
  | 5, 4 => ((cc0_scratch5.slice (Rect.unit (s := S8x6) ![5, 4] S1x1.size inb_S8x6_S1x1_5_4)).squeeze S_ squeezes_S1x1_S_).sem
  | 5, 5 => ((cc0_scratch5.slice (Rect.unit (s := S8x6) ![5, 5] S1x1.size inb_S8x6_S1x1_5_5)).squeeze S_ squeezes_S1x1_S_).sem
  | 6, 0 => ((cc0_scratch5.slice (Rect.unit (s := S8x6) ![6, 0] S1x1.size inb_S8x6_S1x1_6_0)).squeeze S_ squeezes_S1x1_S_).sem
  | 6, 1 => ((cc0_scratch5.slice (Rect.unit (s := S8x6) ![6, 1] S1x1.size inb_S8x6_S1x1_6_1)).squeeze S_ squeezes_S1x1_S_).sem
  | 6, 2 => ((cc0_scratch5.slice (Rect.unit (s := S8x6) ![6, 2] S1x1.size inb_S8x6_S1x1_6_2)).squeeze S_ squeezes_S1x1_S_).sem
  | 6, 3 => ((cc0_scratch5.slice (Rect.unit (s := S8x6) ![6, 3] S1x1.size inb_S8x6_S1x1_6_3)).squeeze S_ squeezes_S1x1_S_).sem
  | 6, 4 => ((cc0_scratch5.slice (Rect.unit (s := S8x6) ![6, 4] S1x1.size inb_S8x6_S1x1_6_4)).squeeze S_ squeezes_S1x1_S_).sem
  | 6, 5 => ((cc0_scratch5.slice (Rect.unit (s := S8x6) ![6, 5] S1x1.size inb_S8x6_S1x1_6_5)).squeeze S_ squeezes_S1x1_S_).sem
  | 7, 0 => ((cc0_scratch5.slice (Rect.unit (s := S8x6) ![7, 0] S1x1.size inb_S8x6_S1x1_7_0)).squeeze S_ squeezes_S1x1_S_).sem
  | 7, 1 => ((cc0_scratch5.slice (Rect.unit (s := S8x6) ![7, 1] S1x1.size inb_S8x6_S1x1_7_1)).squeeze S_ squeezes_S1x1_S_).sem
  | 7, 2 => ((cc0_scratch5.slice (Rect.unit (s := S8x6) ![7, 2] S1x1.size inb_S8x6_S1x1_7_2)).squeeze S_ squeezes_S1x1_S_).sem
  | 7, 3 => ((cc0_scratch5.slice (Rect.unit (s := S8x6) ![7, 3] S1x1.size inb_S8x6_S1x1_7_3)).squeeze S_ squeezes_S1x1_S_).sem
  | 7, 4 => ((cc0_scratch5.slice (Rect.unit (s := S8x6) ![7, 4] S1x1.size inb_S8x6_S1x1_7_4)).squeeze S_ squeezes_S1x1_S_).sem
  | 7, 5 => ((cc0_scratch5.slice (Rect.unit (s := S8x6) ![7, 5] S1x1.size inb_S8x6_S1x1_7_5)).squeeze S_ squeezes_S1x1_S_).sem

end Cert.KernelIdeal.Tab
-- ==== Proof.Proto.lean ====
import proofs.«900880_g7700000000000881_dist_matmul_gelu_kshard_i_m1024_n1024_k512_v7x_i4_bf16_1_alg».proof.Proof.KernelIdealTab

namespace Cert.KernelIdeal.Proto

open Cert.KernelIdeal Cert.KernelIdeal.Gen Cert.KernelIdeal.Tab Idealize.ShloMosaic

def p1 (c : Dev nD) : Dev nD := ⟨c.val ^^^ 1, by revert c; decide⟩

def p2 (c : Dev nD) : Dev nD := ⟨3 - c.val, by revert c; decide⟩

theorem p1_p1 (c : Dev nD) : p1 (p1 c) = c := by revert c; decide
theorem p2_p2 (c : Dev nD) : p2 (p2 c) = c := by revert c; decide
def grp (li : Fin 8) : Nat := li.val % 2

def firstStep (k : Fin 6) : Bool := k.val != 2 && k.val != 3

def toP1 (li : Fin 8) (k : Fin 6) : Bool := (grp li == 0) == firstStep k

def peer (li : Fin 8) (k : Fin 6) (c : Dev nD) : Dev nD := if toP1 li k then p1 c else p2 c

theorem peer_peer (li : Fin 8) (k : Fin 6) (c : Dev nD) : peer li k (peer li k c) = c := by
  unfold peer; split
  · exact p1_p1 c
  · exact p2_p2 c

theorem devN_lt : ∀ (li : Fin 8) (k : Fin 6) (c : Dev nD), devN li k c < nD := by decide +kernel

theorem dev_eq : ∀ (li : Fin 8) (k : Fin 6) (c : Dev nD), (⟨devN li k c, devN_lt li k c⟩ : Dev nD) = peer li k c := by decide +kernel

def hi (c : Dev nD) : Nat := c.val / 2
def lo (c : Dev nD) : Nat := c.val % 2

def keep (li : Fin 8) (c : Dev nD) : Nat := if grp li = 0 then (lo c + hi c) % 2 else hi c

def sub (li : Fin 8) (c : Dev nD) : Nat := if grp li = 0 then hi c else lo c

def col (li : Fin 8) : Nat := grp li * 512 + (li.val / 2) * 128

def qiRow (li : Fin 8) (c : Dev nD) : Nat := keep li c * 512 + sub li c * 256
def qoRow (li : Fin 8) (c : Dev nD) : Nat := keep li c * 512 + (1 - sub li c) * 256

def sendRow (li : Fin 8) (c : Dev nD) : Nat := (1 - keep li c) * 512

def halfRow (li : Fin 8) (k : Fin 2) (c : Dev nD) : Nat :=
  if grp li = 0 then (if k = 0 then (1 - sub li c) * 256 else sub li c * 256)
  else (if k = 0 then sub li c * 256 else (1 - sub li c) * 256)

theorem offH_eq : ∀ (li : Fin 8) (k : Fin 2) (c : Dev nD) (a : Fin 3), offH li k c a = (![li.val, halfRow li k c, 0] : Fin 3 → Nat) a := by decide +kernel
theorem offL1_eq : ∀ (li : Fin 8) (c : Dev nD) (a : Fin 3), offL1 li c a = (![li.val, (1 - sub li c) * 256, 0] : Fin 3 → Nat) a := by decide +kernel
theorem offL2_eq : ∀ (li : Fin 8) (c : Dev nD) (a : Fin 3), offL2 li c a = (![li.val, sub li c * 256, 0] : Fin 3 → Nat) a := by decide +kernel
theorem offO_eq : ∀ (li : Fin 8) (c : Dev nD) (a : Fin 2), offO li c a = (![qiRow li c, col li] : Fin 2 → Nat) a := by decide +kernel
theorem offOst_eq : ∀ (li : Fin 8) (c : Dev nD) (a : Fin 2), offOst li c a = (![qiRow li c, col li] : Fin 2 → Nat) a := by decide +kernel
theorem offA1_eq : ∀ (li : Fin 8) (c : Dev nD) (a : Fin 2), offA1 li c a = (![sendRow li c, 0] : Fin 2 → Nat) a := by decide +kernel
theorem offAqo_eq : ∀ (li : Fin 8) (c : Dev nD) (a : Fin 2), offAqo li c a = (![qoRow li c, 0] : Fin 2 → Nat) a := by decide +kernel
theorem offAqi_eq : ∀ (li : Fin 8) (c : Dev nD) (a : Fin 2), offAqi li c a = (![qiRow li c, 0] : Fin 2 → Nat) a := by decide +kernel

theorem land1 : ∀ (li : Fin 8) (c : Dev nD) (a : Fin 3), offH li 0 (peer li 0 c) a = offL1 li c a := by decide +kernel
theorem land2 : ∀ (li : Fin 8) (c : Dev nD) (a : Fin 3), offH li 1 (peer li 1 c) a = offL2 li c a := by decide +kernel

theorem sendRow_peer0 : ∀ (li : Fin 8) (c : Dev nD), sendRow li (peer li 0 c) = keep li c * 512 := by decide +kernel

end Cert.KernelIdeal.Proto
-- ==== Proof.Cells.lean ====
import proofs.«900880_g7700000000000881_dist_matmul_gelu_kshard_i_m1024_n1024_k512_v7x_i4_bf16_1_alg».proof.Proof.Proto
import proofs.«900880_g7700000000000881_dist_matmul_gelu_kshard_i_m1024_n1024_k512_v7x_i4_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Cells

open Cert.KernelIdeal Cert.KernelIdeal.Gen Cert.KernelIdeal.Tab Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev aM : Memref sig .tc .vmem S1024x512 .f32 := Memref.whole cc0_stg0_0
abbrev bM : Memref sig .tc .vmem S512x1024 .f32 := Memref.whole cc0_stg1_0
abbrev oM : Memref sig .tc .vmem S1024x1024 .bf16 := Memref.whole cc0_stg2_0
abbrev hsM : Memref sig .tc .vmem S8x512x128 .bf16 := Memref.whole cc0_scratch0
abbrev hrM : Memref sig .tc .vmem S8x512x128 .bf16 := Memref.whole cc0_scratch1
abbrev qsM : Memref sig .tc .vmem S8x256x128 .bf16 := Memref.whole cc0_scratch2
abbrev qrM : Memref sig .tc .vmem S8x256x128 .bf16 := Memref.whole cc0_scratch3

abbrev halfOf (M : Memref sig .tc .vmem S8x512x128 .bf16) (off : Fin 3 → Nat) (h : ∀ a, off a + S1x256x128.size a ≤ S8x512x128.size a) :
    Memref sig .tc .vmem S256x128 .bf16 :=
  (M.slice (Rect.unit (s := S8x512x128) off S1x256x128.size h) (fun _ => rfl)).squeeze S256x128 squeezes_S1x256x128_S256x128

abbrev blockOf (M : Memref sig .tc .vmem S1024x1024 .bf16) (off : Fin 2 → Nat) (h : ∀ a, off a + S256x128.size a ≤ S1024x1024.size a) :
    Memref sig .tc .vmem S256x128 .bf16 :=
  M.slice (Rect.unit (s := S1024x1024) off S256x128.size h) (fun _ => rfl)

theorem offH_inb : ∀ (li : Fin 8) (k : Fin 2) (c : Dev nD) (a : Fin 3), offH li k c a + S1x256x128.size a ≤ S8x512x128.size a := by decide +kernel
theorem offO_inb : ∀ (li : Fin 8) (c : Dev nD) (a : Fin 2), offO li c a + S256x128.size a ≤ S1024x1024.size a := by decide +kernel
theorem offO5_inb : ∀ (li : Fin 8) (c : Dev nD) (a : Fin 2), offO5 li c a + S256x128.size a ≤ S1024x1024.size a := by decide +kernel

abbrev barS : Sem sig := (SemArray.scalar (sig.barrier 0 rfl) : Sems sig S_).sem

abbrev barCell (c : Dev nD) : GSem nD τ sig := ((c : Thread nD τ), .reg barS)
abbrev sendCell (c : Dev nD) (li : Fin 8) (k : Fin 6) : GSem nD τ sig := ((c : Thread nD τ), .dma (sendSem li k))
abbrev recvCell (c : Dev nD) (li : Fin 8) (k : Fin 6) : GSem nD τ sig := ((c : Thread nD τ), .dma (recvSem li k))

end Cert.KernelIdeal.Cells

end
-- ==== Proof.Sched.lean ====
import proofs.«900880_g7700000000000881_dist_matmul_gelu_kshard_i_m1024_n1024_k512_v7x_i4_bf16_1_alg».proof.Proof.Cells

noncomputable section

namespace Cert.KernelIdeal.Sched

open Cert.KernelIdeal Cert.KernelIdeal.Gen Cert.KernelIdeal.Tab Cert.KernelIdeal.Proto Cert.KernelIdeal.Cells

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

structure Conts (F : FTy → Type) [FloatOps F] where
  hs : (c : Dev nD) → Buf (Elt F) ((c : Thread nD τ).loc cc0_scratch0)
  hr : (c : Dev nD) → Buf (Elt F) ((c : Thread nD τ).loc cc0_scratch1)
  qs : (c : Dev nD) → Buf (Elt F) ((c : Thread nD τ).loc cc0_scratch2)
  qr : (c : Dev nD) → Buf (Elt F) ((c : Thread nD τ).loc cc0_scratch3)
  out : (c : Dev nD) → Buf (Elt F) ((c : Thread nD τ).loc cc0_stg2_0)

variable (X : Conts F)

def laneOff (li : Fin 8) : Fin 3 → Nat := ![li.val, 0, 0]
theorem laneOff_inb : ∀ (li : Fin 8) (a : Fin 3), laneOff li a + S1x256x128.size a ≤ S8x256x128.size a := by decide
abbrev laneOf (M : Memref sig .tc .vmem S8x256x128 .bf16) (li : Fin 8) : Memref sig .tc .vmem S256x128 .bf16 :=
  (M.slice (Rect.unit (s := S8x256x128) (laneOff li) S1x256x128.size (laneOff_inb li)) (fun _ => rfl)).squeeze S256x128 squeezes_S1x256x128_S256x128

abbrev N : ℕ := (blockOf oM ![0, 0] (by decide)).view.dmaCredit

def sendPay (c : Dev nD) (li : Fin 8) : Fin 6 → sProp 𝕄
  | 0 => (halfOf hsM (offH li 0 c) (offH_inb li 0 c)).view.loc (c : Thread nD τ) ↦[(halfOf hsM (offH li 0 c) (offH_inb li 0 c)).view.set]{fullShare} X.hs c
  | 1 => (halfOf hsM (offH li 1 c) (offH_inb li 1 c)).view.loc (c : Thread nD τ) ↦[(halfOf hsM (offH li 1 c) (offH_inb li 1 c)).view.set]{fullShare} X.hs c
  | 2 => (laneOf qsM li).view.loc (c : Thread nD τ) ↦[(laneOf qsM li).view.set]{fullShare} X.qs c
  | 3 => (blockOf oM (offO li c) (offO_inb li c)).view.loc (c : Thread nD τ) ↦[(blockOf oM (offO li c) (offO_inb li c)).view.set]{fullShare.left} X.out c
  | 4 => (blockOf oM (offO li c) (offO_inb li c)).view.loc (c : Thread nD τ) ↦[(blockOf oM (offO li c) (offO_inb li c)).view.set]{fullShare.right} X.out c
  | 5 => (blockOf oM (offO5 li c) (offO5_inb li c)).view.loc (c : Thread nD τ) ↦[(blockOf oM (offO5 li c) (offO5_inb li c)).view.set]{fullShare} X.out c

def recvPayFrom (c : Dev nD) (li : Fin 8) : (k : Fin 6) → sProp 𝕄
  | 0 => (halfOf hrM (offH li 0 c) (offH_inb li 0 c)).view.loc (peer li 0 c : Thread nD τ) ↦[(halfOf hrM (offH li 0 c) (offH_inb li 0 c)).view.set]{fullShare} X.hr (peer li 0 c)
  | 1 => (halfOf hrM (offH li 1 c) (offH_inb li 1 c)).view.loc (peer li 1 c : Thread nD τ) ↦[(halfOf hrM (offH li 1 c) (offH_inb li 1 c)).view.set]{fullShare} X.hr (peer li 1 c)
  | 2 => (laneOf qrM li).view.loc (peer li 2 c : Thread nD τ) ↦[(laneOf qrM li).view.set]{fullShare} X.qr (peer li 2 c)
  | 3 => (blockOf oM (offO li c) (offO_inb li c)).view.loc (peer li 3 c : Thread nD τ) ↦[(blockOf oM (offO li c) (offO_inb li c)).view.set]{fullShare} X.out (peer li 3 c)
  | 4 => (blockOf oM (offO li c) (offO_inb li c)).view.loc (peer li 4 c : Thread nD τ) ↦[(blockOf oM (offO li c) (offO_inb li c)).view.set]{fullShare} X.out (peer li 4 c)
  | 5 => (blockOf oM (offO5 li c) (offO5_inb li c)).view.loc (peer li 5 c : Thread nD τ) ↦[(blockOf oM (offO5 li c) (offO5_inb li c)).view.set]{fullShare} X.out (peer li 5 c)

def landFrom (c : Dev nD) (li : Fin 8) : (k : Fin 6) → sProp 𝕄
  | 0 => iprop(∃ f, (halfOf hrM (offH li 0 c) (offH_inb li 0 c)).view.loc (peer li 0 c : Thread nD τ) ↦[(halfOf hrM (offH li 0 c) (offH_inb li 0 c)).view.set]{fullShare} f)
  | 1 => iprop(∃ f, (halfOf hrM (offH li 1 c) (offH_inb li 1 c)).view.loc (peer li 1 c : Thread nD τ) ↦[(halfOf hrM (offH li 1 c) (offH_inb li 1 c)).view.set]{fullShare} f)
  | 2 => iprop(∃ f, (laneOf qrM li).view.loc (peer li 2 c : Thread nD τ) ↦[(laneOf qrM li).view.set]{fullShare} f)
  | 3 => iprop(∃ f, (blockOf oM (offO li c) (offO_inb li c)).view.loc (peer li 3 c : Thread nD τ) ↦[(blockOf oM (offO li c) (offO_inb li c)).view.set]{fullShare} f)
  | 4 => iprop(∃ f, (blockOf oM (offO li c) (offO_inb li c)).view.loc (peer li 4 c : Thread nD τ) ↦[(blockOf oM (offO li c) (offO_inb li c)).view.set]{fullShare} f)
  | 5 => iprop(∃ f, (blockOf oM (offO5 li c) (offO5_inb li c)).view.loc (peer li 5 c : Thread nD τ) ↦[(blockOf oM (offO5 li c) (offO5_inb li c)).view.set]{fullShare} f)

def copiesTo (b : Bool) : Finset (Fin 8 × Fin 6) := Finset.univ.filter fun lk => toP1 lk.1 lk.2 = b

def barPay (b : Bool) (c : Dev nD) : sProp 𝕄 := bigSep (copiesTo b) fun lk => landFrom (F := F) c lk.1 lk.2

def semKind : SemLoc sig → Option (Bool × Fin 8 × Fin 6)
  | .dma q =>
    if h : 3 ≤ q.val ∧ q.val < 51 then some (false, ⟨(q.val - 3) / 6, by omega⟩, ⟨(q.val - 3) % 6, Nat.mod_lt _ (by decide)⟩)
    else if h : 51 ≤ q.val ∧ q.val < 99 then some (true, ⟨(q.val - 51) / 6, by omega⟩, ⟨(q.val - 51) % 6, Nat.mod_lt _ (by decide)⟩)
    else none
  | .reg _ => none

theorem semKind_send : ∀ (li : Fin 8) (k : Fin 6), semKind (.dma (sendSem li k)) = some (false, li, k) := by decide +kernel
theorem semKind_recv : ∀ (li : Fin 8) (k : Fin 6), semKind (.dma (recvSem li k)) = some (true, li, k) := by decide +kernel

def sch : Rounds.Schedule (GSem nD τ sig) Bool 𝕄 where
  duties g r :=
    if r = 0 ∧ g.1.2 = .tc then (if g.2 = .reg barS then Finset.univ else if (semKind g.2).isSome then {false} else ∅) else ∅
  unitless _ := False
  amount g _ _ := if g.2 = .reg barS then 1 else N
  payload g _ d :=
    if g.2 = .reg barS then barPay (F := F) d g.1.1
    else match semKind g.2 with
      | some (true, li, k) => recvPayFrom X (peer li k g.1.1) li k
      | some (false, li, k) => sendPay X g.1.1 li k
      | none => iprop(emp)
  amount_pos g _ _ _ := by
    by_cases h : g.2 = .reg barS
    · rw [if_pos h]; exact Nat.one_pos
    · rw [if_neg h]; exact View.dmaCredit_pos _ (by decide)

end Cert.KernelIdeal.Sched

end
-- ==== Proof.Ghost.lean ====
import proofs.«900880_g7700000000000881_dist_matmul_gelu_kshard_i_m1024_n1024_k512_v7x_i4_bf16_1_alg».proof.Proof.Sched

noncomputable section

namespace Cert.KernelIdeal.Ghost

open Cert.KernelIdeal Cert.KernelIdeal.Gen Cert.KernelIdeal.Tab Cert.KernelIdeal.Proto Cert.KernelIdeal.Cells Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (X : Conts F)

def s₀ : MemSt nD τ sig (Elt F) := ⟨m, fun _ => 0, ρ⟩

abbrev LK : Type := Fin 8 × Fin 6

def Tc (c : Dev nD) (lk : LK) : CellTallies nD τ sig Unit := tallyAt (recvCell (peer lk.1 lk.2 c) lk.1 lk.2) () N

def owedOf (c : Dev nD) (S : Finset LK) : CellTallies nD τ sig Unit := ∑ lk ∈ S, Tc c lk

def O₁ (c : Dev nD) : CellTallies nD τ sig Unit := owedOf c Finset.univ + tallyAt (barCell (p2 c)) () 1
def O₀ (c : Dev nD) : CellTallies nD τ sig Unit := O₁ c + tallyAt (barCell (p1 c)) () 1

def L (g : GSem nD τ sig) : Finset Unit := if g.1.2 = .tc then {()} else ∅

def lv (g : GSem nD τ sig) (_ : Unit) : ℕ :=
  if g.2 = .reg barS then 1 else match semKind g.2 with
    | some (_, _, k) => k.val + 2
    | none => 0

abbrev Ck : Type := Option (Bool × Fin 8 × Fin 6)
abbrev csem : Ck → SemLoc sig
  | none => .reg barS
  | some (false, li, k) => .dma (sendSem li k)
  | some (true, li, k) => .dma (recvSem li k)
abbrev kcell (ck : Dev nD × Ck) : GSem nD τ sig := ((ck.1 : Thread nD τ), csem ck.2)

def invs (K : Dev nD × Ck → ℕ) (c : Dev nD) : sProp 𝕄 :=
  iprop((bigSep Finset.univ fun j : Ck => cellInv ER (sch X) (K (c, j)) (kcell (c, j)))
    ∗ cellInv ER (sch X) (K (p1 c, none)) (barCell (p1 c)) ∗ cellInv ER (sch X) (K (p2 c, none)) (barCell (p2 c))
    ∗ bigSep Finset.univ fun lk : LK => cellInv ER (sch X) (K (peer lk.1 lk.2 c, some (true, lk.1, lk.2))) (recvCell (peer lk.1 lk.2 c) lk.1 lk.2))

instance invs_persistent (K : Dev nD × Ck → ℕ) (c : Dev nD) : BI.Persistent (invs X K c) := by unfold invs; infer_instance

def reach (c : Dev nD) : sProp 𝕄 :=
  iprop(reached ER (barCell (p1 c)) 0 ∗ reached ER (barCell (p2 c)) 0
    ∗ (bigSep Finset.univ fun lk : LK => reached ER (recvCell (peer lk.1 lk.2 c) lk.1 lk.2) 0)
    ∗ bigSep Finset.univ fun lk : LK => reached ER (sendCell c lk.1 lk.2) 0)

instance reach_persistent (c : Dev nD) : BI.Persistent (reach (F := F) c) := by unfold reach; infer_instance

def payToks (c : Dev nD) : sProp 𝕄 :=
  iprop(dutyTok ER (barCell (p1 c)) 0 true ∗ dutyTok ER (barCell (p2 c)) 0 false
    ∗ (bigSep Finset.univ fun lk : LK => dutyTok ER (recvCell (peer lk.1 lk.2 c) lk.1 lk.2) 0 false)
    ∗ bigSep Finset.univ fun lk : LK => dutyTok ER (sendCell c lk.1 lk.2) 0 false)

def positions (c : Dev nD) : sProp 𝕄 := bigSep Finset.univ fun j : Ck => atPos ER (kcell (c, j)) 0 ∅ 0

def ghost (K : Dev nD × Ck → ℕ) (c : Dev nD) : sProp 𝕄 :=
  iprop(invs X K c ∗ reach (F := F) c ∗ positions (F := F) c ∗ payToks (F := F) c)

def credits (c : Dev nD) : sProp 𝕄 :=
  iprop(cred (tallyAt (barCell c) () 2) ∗ bigSep Finset.univ fun lk : LK => cred (tallyAt (recvCell c lk.1 lk.2) () N))

def start (c : Dev nD) : sProp 𝕄 :=
  iprop((∃ K, ghost X K c) ∗ credits (F := F) c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start X c ∗ scratch (F := F) c)

def Φ₁ (c : Dev nD) : sProp 𝕄 :=
  iprop(scratch (F := F) c ∗ (bigSep Finset.univ fun lk : LK => semVal (sendCell c lk.1 lk.2) 0) ∗ bigSep Finset.univ fun lk : LK => semVal (recvCell c lk.1 lk.2) 0)

def astg (c : Dev nD) : (cc0_stg0_0 : Ref sig .tc).ty.Contents (Elt F) :=
  (win0_0.blk (0 : Fin 1)).view.read (Elt F) ((s₀ m ρ).mem ((c : Thread nD τ).loc main_arg0))
def bstg (c : Dev nD) : (cc0_stg1_0 : Ref sig .tc).ty.Contents (Elt F) :=
  (win0_1.blk (0 : Fin 1)).view.read (Elt F) ((s₀ m ρ).mem ((c : Thread nD τ).loc main_arg1))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => astg m ρ c
    | ⟨1, _⟩ => bstg m ρ c
    | ⟨2, _⟩ => X.out c
  Φ t := match t with
    | ⟨0, _⟩ => Φ₀ X c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Ghost

end
-- ==== Proof.Contents.lean ====
import proofs.«900880_g7700000000000881_dist_matmul_gelu_kshard_i_m1024_n1024_k512_v7x_i4_bf16_1_alg».proof.Proof.Ghost
import proofs.«900880_g7700000000000881_dist_matmul_gelu_kshard_i_m1024_n1024_k512_v7x_i4_bf16_1_alg».proof.Proof.Gen.KernelIdeal.Skeleton
import Idealize.ShloMosaic.Lib.Pipeline.Value

noncomputable section

namespace Cert.KernelIdeal.Contents

open Cert.KernelIdeal Cert.KernelIdeal.Gen Cert.KernelIdeal.Tab Cert.KernelIdeal.Proto Cert.KernelIdeal.Cells Cert.KernelIdeal.Sched
open Cert.KernelIdeal.Ghost

open Idealize.ShloMosaic
open Idealize.ShloMosaic.TcCoe
open Idealize.SL.Sem

variable {F : FTy → Type} [FloatOps F]

variable (m : (ℓ : Loc nD τ sig) → Buf (Elt F) ℓ) (ρ : Dev nD → PrngReg)

theorem offA1_inb : ∀ (li : Fin 8) (c : Dev nD) (a : Fin 2), offA1 li c a + S512x512.size a ≤ S1024x512.size a := by decide +kernel
theorem offAqo_inb : ∀ (li : Fin 8) (c : Dev nD) (a : Fin 2), offAqo li c a + S256x512.size a ≤ S1024x512.size a := by decide +kernel
theorem offAqi_inb : ∀ (li : Fin 8) (c : Dev nD) (a : Fin 2), offAqi li c a + S256x512.size a ≤ S1024x512.size a := by decide +kernel

def colOff (li : Fin 8) : Fin 2 → Nat := ![0, col li]
theorem colOff_inb : ∀ (li : Fin 8) (a : Fin 2), colOff li a + S512x128.size a ≤ S512x1024.size a := by decide +kernel
theorem offL1_inb : ∀ (li : Fin 8) (c : Dev nD) (a : Fin 3), offL1 li c a + S1x256x128.size a ≤ S8x512x128.size a := by decide +kernel
theorem offL2_inb : ∀ (li : Fin 8) (c : Dev nD) (a : Fin 3), offL2 li c a + S1x256x128.size a ≤ S8x512x128.size a := by decide +kernel
theorem offOst_inb : ∀ (li : Fin 8) (c : Dev nD) (a : Fin 2), offOst li c a + S256x128.size a ≤ S1024x1024.size a := by decide +kernel

def lane3 (li : Fin 8) : Fin 3 → Nat := ![li.val, 0, 0]
theorem lane3_inb512 : ∀ (li : Fin 8) (a : Fin 3), lane3 li a + S1x512x128.size a ≤ S8x512x128.size a := by decide +kernel
theorem lane3_inb256 : ∀ (li : Fin 8) (a : Fin 3), lane3 li a + S1x256x128.size a ≤ S8x256x128.size a := by decide +kernel

def aSend (c : Dev nD) (li : Fin 8) : Vec F S512x512 .f32 :=
  aM.view.readAt (Elt F) (Rect.unit (s := S1024x512) (offA1 li c) S512x512.size (offA1_inb li c)).toLoadRect (astg m ρ c)

def aQo (c : Dev nD) (li : Fin 8) : Vec F S256x512 .f32 :=
  aM.view.readAt (Elt F) (Rect.unit (s := S1024x512) (offAqo li c) S256x512.size (offAqo_inb li c)).toLoadRect (astg m ρ c)

def aQi (c : Dev nD) (li : Fin 8) : Vec F S256x512 .f32 :=
  aM.view.readAt (Elt F) (Rect.unit (s := S1024x512) (offAqi li c) S256x512.size (offAqi_inb li c)).toLoadRect (astg m ρ c)

def bCols (c : Dev nD) (li : Fin 8) : Vec F S512x128 .f32 :=
  bM.view.readAt (Elt F) (Rect.unit (s := S512x1024) (colOff li) S512x128.size (colOff_inb li)).toLoadRect (bstg m ρ c)

def in512 (i : S8x512x128.Idx) : S1x512x128.Idx := fun a => match a with
  | ⟨0, _⟩ => ⟨0, Nat.one_pos⟩ | ⟨1, _⟩ => i 1 | ⟨2, _⟩ => i 2
def in256 (i : S8x256x128.Idx) : S1x256x128.Idx := fun a => match a with
  | ⟨0, _⟩ => ⟨0, Nat.one_pos⟩ | ⟨1, _⟩ => i 1 | ⟨2, _⟩ => i 2

def hval (c : Dev nD) (li : Fin 8) : FVec F S1x512x128 .bf16 := k0_pay1 (aSend m ρ c li) (bCols m ρ c li)

def hsC (c : Dev nD) : S8x512x128.Idx → F .bf16 := fun i => hval m ρ c (i 0) (in512 i)
def hrC (c : Dev nD) : S8x512x128.Idx → F .bf16 := fun i => hsC m ρ (peer (i 0) 0 c) i

def qval (c : Dev nD) (li : Fin 8) : FVec F S1x256x128 .bf16 :=
  k0_pay31 (k0_pay9 (aQo m ρ c li) (bCols m ρ c li))
    (hrM.view.readAt (Elt F) (Rect.unit (s := S8x512x128) (offL1 li c) S1x256x128.size (offL1_inb li c)).toLoadRect (hrC m ρ c))

def qsC (c : Dev nD) : S8x256x128.Idx → F .bf16 := fun i => qval m ρ c (i 0) (in256 i)
def qrC (c : Dev nD) : S8x256x128.Idx → F .bf16 := fun i => qsC m ρ (peer (i 0) 2 c) i

def oval (c : Dev nD) (li : Fin 8) : FVec F S256x128 .bf16 :=
  k0_pay41 (k0_pay40 (k0_pay19 (aQi m ρ c li) (bCols m ρ c li))
      (hrM.view.readAt (Elt F) (Rect.unit (s := S8x512x128) (offL2 li c) S1x256x128.size (offL2_inb li c)).toLoadRect (hrC m ρ c)))
    (qrM.view.readAt (Elt F) (Rect.unit (s := S8x256x128) (lane3 li) S1x256x128.size (lane3_inb256 li)).toLoadRect (qrC m ρ c))

def laneOfCol (j : Nat) : Fin 8 := ⟨(2 * ((j % 512) / 128) + j / 512) % 8, Nat.mod_lt _ (by decide)⟩
def own (li : Fin 8) (q : Nat) : Dev nD :=
  if grp li = 0 then (match q % 4 with | 0 => 0 | 1 => 3 | 2 => 1 | _ => 2) else ⟨q % 4, Nat.mod_lt _ (by decide)⟩

def inBlock (i : S1024x1024.Idx) : S256x128.Idx := fun a => match a with
  | ⟨0, _⟩ => ⟨(i 0).val % 256, Nat.mod_lt _ (by decide)⟩ | ⟨1, _⟩ => ⟨(i 1).val % 128, Nat.mod_lt _ (by decide)⟩

def outC (_ : Dev nD) : S1024x1024.Idx → F .bf16 := fun i =>
  oval m ρ (own (laneOfCol (i 1).val) ((i 0).val / 256)) (laneOfCol (i 1).val) (inBlock i)

def conts : Conts F where
  hs := hsC m ρ
  hr := hrC m ρ
  qs := qsC m ρ
  qr := qrC m ρ
  out := outC m ρ

section Printed
variable (c : Dev nD)

end Printed

theorem lane_key512 (c : Dev nD) (li : Fin 8) (y : S1x512x128.Idx) :
    hval m ρ c li y = hsC m ρ c ((Rect.unit (s := S8x512x128) (lane3 li) S1x512x128.size (lane3_inb512 li)).emb y) := by
  have hy0 : (y 0).val < 1 := (y 0).isLt
  have h0 : ((Rect.unit (s := S8x512x128) (lane3 li) S1x512x128.size (lane3_inb512 li)).emb y) 0 = li :=
    Fin.ext (by show li.val + 1 * (y 0).val = li.val; omega)
  have h1 : in512 ((Rect.unit (s := S8x512x128) (lane3 li) S1x512x128.size (lane3_inb512 li)).emb y) = y := by
    funext a
    match a with
    | ⟨0, _⟩ => exact Fin.ext (by show 0 = (y 0).val; omega)
    | ⟨1, _⟩ => exact Fin.ext (by show 0 + 1 * (y 1).val = (y 1).val; omega)
    | ⟨2, _⟩ => exact Fin.ext (by show 0 + 1 * (y 2).val = (y 2).val; omega)
  unfold hsC
  rw [h1, h0]

theorem hs_store (c : Dev nD) (li : Fin 8) (f : Buf (Elt F) ((c : Thread nD τ).loc cc0_scratch0)) :
    ∀ i ∈ (hsM.access (Rect.unit (s := S8x512x128) (lane3 li) S1x512x128.size (lane3_inb512 li))).set,
      ((hsM.access (Rect.unit (s := S8x512x128) (lane3 li) S1x512x128.size (lane3_inb512 li))).write (Elt F) f (hval m ρ c li) Finset.univ) i
        = (conts m ρ).hs c i := by
  intro i hi
  obtain ⟨y, rfl⟩ := View.exists_emb_of_mem_set _ hi
  rw [View.write_emb_of_mem _ _ (Finset.mem_univ y)]
  exact lane_key512 m ρ c li y

theorem peer0_peer : ∀ (li : Fin 8) (k : Fin 2) (c : Dev nD), peer li 0 (peer li ⟨k.val, by have := k.isLt; omega⟩ c) = c := by decide +kernel

theorem hr_land (c : Dev nD) (li : Fin 8) (k : Fin 2) (fd : Buf (Elt F) ((peer li ⟨k.val, by have := k.isLt; omega⟩ c : Thread nD τ).loc cc0_scratch1)) :
    ∀ i ∈ (halfOf hrM (offH li k c) (offH_inb li k c)).view.set,
      ((halfOf hrM (offH li k c) (offH_inb li k c)).view.write (Elt F) fd
          ((halfOf hsM (offH li k c) (offH_inb li k c)).view.read (Elt F) ((conts m ρ).hs c)) Finset.univ) i
        = (conts m ρ).hr (peer li ⟨k.val, by have := k.isLt; omega⟩ c) i := by
  intro i hi
  obtain ⟨y, rfl⟩ := View.exists_emb_of_mem_set _ hi
  rw [View.write_emb_of_mem _ _ (Finset.mem_univ y)]
  have key : ∀ E : S8x512x128.Idx, E 0 = li →
      hsC m ρ c E = hrC m ρ (peer li ⟨k.val, by have := k.isLt; omega⟩ c) E := by
    intro E h
    unfold hrC
    rw [h, peer0_peer]
  refine key _ (Fin.ext ?_)
  have hz : ((Shape.reshapeEquiv (Shape.Squeezes.numel_eq squeezes_S1x256x128_S256x128) y) 0).val < 1 :=
    ((Shape.reshapeEquiv (Shape.Squeezes.numel_eq squeezes_S1x256x128_S256x128) y) 0).isLt
  show offH li k c 0 + 1 * ((Shape.reshapeEquiv _ y) 0).val = li.val
  rw [offH_eq li k c 0]
  show li.val + 1 * _ = li.val
  omega

theorem lane_key256 (c : Dev nD) (li : Fin 8) (y : S1x256x128.Idx) :
    qval m ρ c li y = qsC m ρ c ((Rect.unit (s := S8x256x128) (lane3 li) S1x256x128.size (lane3_inb256 li)).emb y) := by
  have hy0 : (y 0).val < 1 := (y 0).isLt
  have h0 : ((Rect.unit (s := S8x256x128) (lane3 li) S1x256x128.size (lane3_inb256 li)).emb y) 0 = li :=
    Fin.ext (by show li.val + 1 * (y 0).val = li.val; omega)
  have h1 : in256 ((Rect.unit (s := S8x256x128) (lane3 li) S1x256x128.size (lane3_inb256 li)).emb y) = y := by
    funext a
    match a with
    | ⟨0, _⟩ => exact Fin.ext (by show 0 = (y 0).val; omega)
    | ⟨1, _⟩ => exact Fin.ext (by show 0 + 1 * (y 1).val = (y 1).val; omega)
    | ⟨2, _⟩ => exact Fin.ext (by show 0 + 1 * (y 2).val = (y 2).val; omega)
  unfold qsC
  rw [h1, h0]

theorem qs_store (c : Dev nD) (li : Fin 8) (f : Buf (Elt F) ((c : Thread nD τ).loc cc0_scratch2)) :
    ∀ i ∈ (qsM.access (Rect.unit (s := S8x256x128) (lane3 li) S1x256x128.size (lane3_inb256 li))).set,
      ((qsM.access (Rect.unit (s := S8x256x128) (lane3 li) S1x256x128.size (lane3_inb256 li))).write (Elt F) f (qval m ρ c li) Finset.univ) i
        = (conts m ρ).qs c i := by
  intro i hi
  obtain ⟨y, rfl⟩ := View.exists_emb_of_mem_set _ hi
  rw [View.write_emb_of_mem _ _ (Finset.mem_univ y)]
  exact lane_key256 m ρ c li y

theorem peer2_peer : ∀ (li : Fin 8) (c : Dev nD), peer li 2 (peer li 2 c) = c := fun li c => peer_peer li 2 c

theorem qr_land (c : Dev nD) (li : Fin 8) (fd : Buf (Elt F) ((peer li 2 c : Thread nD τ).loc cc0_scratch3)) :
    ∀ i ∈ (laneOf qrM li).view.set,
      ((laneOf qrM li).view.write (Elt F) fd ((laneOf qsM li).view.read (Elt F) ((conts m ρ).qs c)) Finset.univ) i
        = (conts m ρ).qr (peer li 2 c) i := by
  intro i hi
  obtain ⟨y, rfl⟩ := View.exists_emb_of_mem_set _ hi
  rw [View.write_emb_of_mem _ _ (Finset.mem_univ y)]
  have key : ∀ E : S8x256x128.Idx, E 0 = li → qsC m ρ c E = qrC m ρ (peer li 2 c) E := by
    intro E h
    unfold qrC
    rw [h, peer2_peer]
  refine key _ (Fin.ext ?_)
  have hz : ((Shape.reshapeEquiv (Shape.Squeezes.numel_eq squeezes_S1x256x128_S256x128) y) 0).val < 1 :=
    ((Shape.reshapeEquiv (Shape.Squeezes.numel_eq squeezes_S1x256x128_S256x128) y) 0).isLt
  show li.val + 1 * ((Shape.reshapeEquiv _ y) 0).val = li.val
  omega

theorem laneOfCol_col : ∀ (li : Fin 8) (x : Fin 128), laneOfCol (col li + 1 * x.val) = li := by decide +kernel
theorem own_qi : ∀ (li : Fin 8) (c : Dev nD) (x : Fin 256), own li ((qiRow li c + 1 * x.val) / 256) = c := by decide +kernel
theorem qi_mod : ∀ (li : Fin 8) (c : Dev nD) (x : Fin 256), (qiRow li c + 1 * x.val) % 256 = x.val := by decide +kernel
theorem col_mod : ∀ (li : Fin 8) (x : Fin 128), (col li + 1 * x.val) % 128 = x.val := by decide +kernel

theorem block_key (c : Dev nD) (li : Fin 8) (y : S256x128.Idx) :
    oval m ρ c li y = outC m ρ c ((Rect.unit (s := S1024x1024) (offOst li c) S256x128.size (offOst_inb li c)).emb y) := by
  have e0 : (((Rect.unit (s := S1024x1024) (offOst li c) S256x128.size (offOst_inb li c)).emb y) 0).val = qiRow li c + 1 * (y 0).val := by
    show offOst li c 0 + 1 * (y 0).val = _
    rw [offOst_eq li c 0]; rfl
  have e1 : (((Rect.unit (s := S1024x1024) (offOst li c) S256x128.size (offOst_inb li c)).emb y) 1).val = col li + 1 * (y 1).val := by
    show offOst li c 1 + 1 * (y 1).val = _
    rw [offOst_eq li c 1]; rfl
  have hb : inBlock ((Rect.unit (s := S1024x1024) (offOst li c) S256x128.size (offOst_inb li c)).emb y) = y := by
    funext a
    match a with
    | ⟨0, _⟩ => exact Fin.ext (by show (((Rect.unit (s := S1024x1024) (offOst li c) S256x128.size (offOst_inb li c)).emb y) 0).val % 256 = (y 0).val; rw [e0]; exact qi_mod li c (y 0))
    | ⟨1, _⟩ => exact Fin.ext (by show (((Rect.unit (s := S1024x1024) (offOst li c) S256x128.size (offOst_inb li c)).emb y) 1).val % 128 = (y 1).val; rw [e1]; exact col_mod li (y 1))
  unfold outC
  rw [hb, e0, e1, laneOfCol_col li (y 1), own_qi li c (y 0)]

theorem out_store (c : Dev nD) (li : Fin 8) (f : Buf (Elt F) ((c : Thread nD τ).loc cc0_stg2_0)) :
    ∀ i ∈ (oM.access (Rect.unit (s := S1024x1024) (offOst li c) S256x128.size (offOst_inb li c))).set,
      ((oM.access (Rect.unit (s := S1024x1024) (offOst li c) S256x128.size (offOst_inb li c))).write (Elt F) f (oval m ρ c li) Finset.univ) i
        = (conts m ρ).out c i := by
  intro i hi
  obtain ⟨y, rfl⟩ := View.exists_emb_of_mem_set _ hi
  rw [View.write_emb_of_mem _ _ (Finset.mem_univ y)]
  exact block_key m ρ c li y

theorem out_land3 (c : Dev nD) (li : Fin 8) (fd : Buf (Elt F) ((peer li 3 c : Thread nD τ).loc cc0_stg2_0)) :
    ∀ i ∈ (blockOf oM (offO li c) (offO_inb li c)).view.set,
      ((blockOf oM (offO li c) (offO_inb li c)).view.write (Elt F) fd
          ((blockOf oM (offO li c) (offO_inb li c)).view.read (Elt F) ((conts m ρ).out c)) Finset.univ) i
        = (conts m ρ).out (peer li 3 c) i := by
  intro i hi
  obtain ⟨y, rfl⟩ := View.exists_emb_of_mem_set _ hi
  rw [View.write_emb_of_mem _ _ (Finset.mem_univ y)]
  rfl
theorem out_land4 (c : Dev nD) (li : Fin 8) (fd : Buf (Elt F) ((peer li 4 c : Thread nD τ).loc cc0_stg2_0)) :
    ∀ i ∈ (blockOf oM (offO li c) (offO_inb li c)).view.set,
      ((blockOf oM (offO li c) (offO_inb li c)).view.write (Elt F) fd
          ((blockOf oM (offO li c) (offO_inb li c)).view.read (Elt F) ((conts m ρ).out c)) Finset.univ) i
        = (conts m ρ).out (peer li 4 c) i := by
  intro i hi
  obtain ⟨y, rfl⟩ := View.exists_emb_of_mem_set _ hi
  rw [View.write_emb_of_mem _ _ (Finset.mem_univ y)]
  rfl
theorem out_land5 (c : Dev nD) (li : Fin 8) (fd : Buf (Elt F) ((peer li 5 c : Thread nD τ).loc cc0_stg2_0)) :
    ∀ i ∈ (blockOf oM (offO5 li c) (offO5_inb li c)).view.set,
      ((blockOf oM (offO5 li c) (offO5_inb li c)).view.write (Elt F) fd
          ((blockOf oM (offO5 li c) (offO5_inb li c)).view.read (Elt F) ((conts m ρ).out c)) Finset.univ) i
        = (conts m ρ).out (peer li 5 c) i := by
  intro i hi
  obtain ⟨y, rfl⟩ := View.exists_emb_of_mem_set _ hi
  rw [View.write_emb_of_mem _ _ (Finset.mem_univ y)]
  rfl

end Cert.KernelIdeal.Contents

end
-- ==== Proof.Assemble.lean ====
import proofs.«900880_g7700000000000881_dist_matmul_gelu_kshard_i_m1024_n1024_k512_v7x_i4_bf16_1_alg».proof.Defs
import proofs.«900880_g7700000000000881_dist_matmul_gelu_kshard_i_m1024_n1024_k512_v7x_i4_bf16_1_alg».proof.Proof.Gen.Kernel
import proofs.«900880_g7700000000000881_dist_matmul_gelu_kshard_i_m1024_n1024_k512_v7x_i4_bf16_1_alg».proof.Proof.Gen.KernelIdeal
import proofs.«900880_g7700000000000881_dist_matmul_gelu_kshard_i_m1024_n1024_k512_v7x_i4_bf16_1_alg».proof.Proof.Gen.ReferenceIdeal
import proofs.«900880_g7700000000000881_dist_matmul_gelu_kshard_i_m1024_n1024_k512_v7x_i4_bf16_1_alg».proof.Proof.Gen.Pre_finite_inputs_Kernel
import proofs.«900880_g7700000000000881_dist_matmul_gelu_kshard_i_m1024_n1024_k512_v7x_i4_bf16_1_alg».proof.Proof.Gen.Pre_finite_inputs_ReferenceIdeal
import proofs.«900880_g7700000000000881_dist_matmul_gelu_kshard_i_m1024_n1024_k512_v7x_i4_bf16_1_alg».proof.Proof.RefRun
import proofs.«900880_g7700000000000881_dist_matmul_gelu_kshard_i_m1024_n1024_k512_v7x_i4_bf16_1_alg».proof.Proof.Contents

noncomputable section

namespace Cert.Assemble

open Idealize.ShloMosaic Idealize.ShloMosaic.TcCoe Idealize.SL.Sem
open Cert.KernelIdeal.Contents (conts)

abbrev RunK : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

abbrev RunKI : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = (conts m ρ).out c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

abbrev OutVal : Prop :=
  ∀ (m : (ℓ : Loc Cert.KernelIdeal.nD Cert.KernelIdeal.τ Cert.KernelIdeal.sig) → Buf (Elt Ideal) ℓ) (ρ : Dev Cert.KernelIdeal.nD → PrngReg)
    (Aw : Cert.ReferenceIdeal.S1024x2048.Idx → EReal) (Bw : Cert.ReferenceIdeal.S2048x1024.Idx → EReal),
    (∀ c, Cert.KernelIdeal.Ghost.astg m ρ c = Layout.block ⟨2, ![1024, 512]⟩ ⟨2, ![1024, 2048]⟩ 1 4 c Aw) →
    (∀ c, Cert.KernelIdeal.Ghost.bstg m ρ c = Layout.block ⟨2, ![512, 1024]⟩ ⟨2, ![2048, 1024]⟩ 0 4 c Bw) →
    ∀ c i, (conts m ρ).out c i = ValueSpec.gelu (ValueSpec.zdot Aw Bw (i 0) (i 1))

theorem astg_eq {F : FTy → Type} [FloatOps F] (m : (ℓ : Loc Cert.KernelIdeal.nD Cert.KernelIdeal.τ Cert.KernelIdeal.sig) → Buf (Elt F) ℓ)
    (ρ : Dev Cert.KernelIdeal.nD → PrngReg) (c : Dev Cert.KernelIdeal.nD) :
    Cert.KernelIdeal.Ghost.astg m ρ c = m ((c : Thread Cert.KernelIdeal.nD Cert.KernelIdeal.τ).loc Cert.KernelIdeal.main_arg0) :=
  Memref.read_access_unit_zero (Elt F) Cert.KernelIdeal.main_arg0 (funext fun a => by fin_cases a <;> rfl) _ _

theorem bstg_eq {F : FTy → Type} [FloatOps F] (m : (ℓ : Loc Cert.KernelIdeal.nD Cert.KernelIdeal.τ Cert.KernelIdeal.sig) → Buf (Elt F) ℓ)
    (ρ : Dev Cert.KernelIdeal.nD → PrngReg) (c : Dev Cert.KernelIdeal.nD) :
    Cert.KernelIdeal.Ghost.bstg m ρ c = m ((c : Thread Cert.KernelIdeal.nD Cert.KernelIdeal.τ).loc Cert.KernelIdeal.main_arg1) :=
  Memref.read_access_unit_zero (Elt F) Cert.KernelIdeal.main_arg1 (funext fun a => by fin_cases a <;> rfl) _ _

theorem frameK (hK : RunK) : Cert.frame_Kernel (hKernel := Cert.Kernel.Gen.facts) (hPre_finite_inputs_Kernel := Cert.Pre_finite_inputs_Kernel.Gen.facts) :=
  fun m ρ _ => hK m ρ

theorem frameKI (hKI : RunKI) : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2) (hKI m ρ)

theorem algebraic (hKI : RunKI) (hval : OutVal) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m ρ m' ρ' _ hb
  refine ⟨fun i => ValueSpec.gelu (ValueSpec.zdot
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) (i 0) (i 1)),
    ?_, Cert.RefSide.ref_value m' ρ'⟩
  refine (θ_run (Cert.KernelIdeal.defs (F := Ideal)) _ _).mono (fun r h c => ⟨?_, (h c).2⟩) (hKI m ρ)
  rw [(h c).1]
  funext i
  exact hval m ρ _ _ (fun d => (astg_eq m ρ d).trans (hb d).1) (fun d => (bstg_eq m ρ d).trans (hb d).2) c i

theorem claim (hK : RunK) (hKI : RunKI) (hval : OutVal) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frameK hK, frameKI hKI, Cert.RefSide.ref_frame, trivial, algebraic hKI hval⟩

end Cert.Assemble

end
-- ==== Proof.SchedTab.lean ====
import proofs.«900880_g7700000000000881_dist_matmul_gelu_kshard_i_m1024_n1024_k512_v7x_i4_bf16_1_alg».proof.Proof.Sched

noncomputable section

namespace Cert.KernelIdeal.SchedTab

open Cert.KernelIdeal Cert.KernelIdeal.Gen Cert.KernelIdeal.Tab Cert.KernelIdeal.Proto Cert.KernelIdeal.Cells
open Cert.KernelIdeal.Sched

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Conts F)

theorem send_ne_bar (li : Fin 8) (k : Fin 6) : (SemLoc.dma (sendSem li k) : SemLoc sig) ≠ .reg barS := fun h => by cases h
theorem recv_ne_bar (li : Fin 8) (k : Fin 6) : (SemLoc.dma (recvSem li k) : SemLoc sig) ≠ .reg barS := fun h => by cases h

instance sendPay_storable (c : Dev nD) (li : Fin 8) (k : Fin 6) : BI.Storable (upEmb : UEmb _ 𝕄) (sendPay X c li k) := by
  fin_cases k <;> (unfold sendPay; infer_instance)

instance recvPayFrom_storable (c : Dev nD) (li : Fin 8) (k : Fin 6) : BI.Storable (upEmb : UEmb _ 𝕄) (recvPayFrom X c li k) := by
  fin_cases k <;> (unfold recvPayFrom; infer_instance)

instance landFrom_storable (c : Dev nD) (li : Fin 8) (k : Fin 6) : BI.Storable (upEmb : UEmb _ 𝕄) (landFrom (F := F) c li k) := by
  fin_cases k <;> (unfold landFrom; infer_instance)

instance barPay_storable (b : Bool) (c : Dev nD) : BI.Storable (upEmb : UEmb _ 𝕄) (barPay (F := F) b c) := by
  unfold barPay; infer_instance

instance sch_payload_storable (g : GSem nD τ sig) (r : ℕ) (d : Bool) :
    BI.Storable (upEmb : UEmb _ 𝕄) ((sch (F := F) X).payload g r d) := by
  dsimp only [sch]
  split
  · infer_instance
  · split <;> infer_instance

section Tables
variable (c : Dev nD) (li : Fin 8) (k : Fin 6)

theorem duties_bar : (sch (F := F) X).duties (barCell c) 0 = Finset.univ := by
  dsimp only [sch]; rw [if_pos ⟨rfl, rfl⟩, if_pos rfl]

theorem duties_send : (sch (F := F) X).duties (sendCell c li k) 0 = {false} := by
  dsimp only [sch]; rw [if_pos ⟨rfl, rfl⟩, if_neg (send_ne_bar li k), semKind_send]; rfl

theorem duties_recv : (sch (F := F) X).duties (recvCell c li k) 0 = {false} := by
  dsimp only [sch]; rw [if_pos ⟨rfl, rfl⟩, if_neg (recv_ne_bar li k), semKind_recv]; rfl

theorem duties_later (g : GSem nD τ sig) : ∀ r, 1 ≤ r → (sch (F := F) X).duties g r = ∅ :=
  fun r hr => by dsimp only [sch]; rw [if_neg fun h => by omega]

theorem amount_bar (d : Bool) : (sch (F := F) X).amount (barCell c) 0 d = 1 := by dsimp only [sch]; exact if_pos rfl

theorem amount_send (d : Bool) : (sch (F := F) X).amount (sendCell c li k) 0 d = N := by
  dsimp only [sch]; exact if_neg (send_ne_bar li k)

theorem amount_recv (d : Bool) : (sch (F := F) X).amount (recvCell c li k) 0 d = N := by
  dsimp only [sch]; exact if_neg (recv_ne_bar li k)

theorem expect_bar : (sch (F := F) X).expect (barCell c) 0 = 2 := by
  unfold Schedule.expect Schedule.amountOf
  rw [duties_bar, Finset.sum_congr rfl fun d _ => amount_bar X c d, Finset.sum_const, Finset.card_univ, Fintype.card_bool, smul_eq_mul]

theorem expect_send : (sch (F := F) X).expect (sendCell c li k) 0 = N := by
  unfold Schedule.expect Schedule.amountOf; rw [duties_send, Finset.sum_singleton, amount_send]

theorem expect_recv : (sch (F := F) X).expect (recvCell c li k) 0 = N := by
  unfold Schedule.expect Schedule.amountOf; rw [duties_recv, Finset.sum_singleton, amount_recv]

theorem payload_bar (d : Bool) : (sch (F := F) X).payload (barCell c) 0 d = barPay (F := F) d c := by
  dsimp only [sch]; rw [if_pos rfl]

theorem payload_send (d : Bool) : (sch (F := F) X).payload (sendCell c li k) 0 d = sendPay X c li k := by
  dsimp only [sch]; rw [if_neg (send_ne_bar li k), semKind_send]

theorem payload_recv (d : Bool) : (sch (F := F) X).payload (recvCell c li k) 0 d = recvPayFrom X (peer li k c) li k := by
  dsimp only [sch]; rw [if_neg (recv_ne_bar li k), semKind_recv]

theorem payload_recv_peer (d : Bool) : (sch (F := F) X).payload (recvCell (peer li k c) li k) 0 d = recvPayFrom X c li k := by
  rw [payload_recv, peer_peer]

theorem rest_bar : bigSep ((sch (F := F) X).duties (barCell c) 0 \ ∅) (fun d => (sch (F := F) X).payload (barCell c) 0 d)
    = iprop(barPay (F := F) false c ∗ barPay (F := F) true c) := by
  rw [Finset.sdiff_empty, duties_bar, bigSep_univ_eq_bigSepL [false, true] (by decide) (by decide), bigSepL_cons_cons, bigSepL_singleton,
    payload_bar, payload_bar]
  rfl

theorem rest_send : bigSep ((sch (F := F) X).duties (sendCell c li k) 0 \ ∅) (fun d => (sch (F := F) X).payload (sendCell c li k) 0 d)
    = sendPay X c li k := by
  rw [Finset.sdiff_empty, duties_send, bigSep_singleton, payload_send]

theorem rest_recv : bigSep ((sch (F := F) X).duties (recvCell c li k) 0 \ ∅) (fun d => (sch (F := F) X).payload (recvCell c li k) 0 d)
    = recvPayFrom X (peer li k c) li k := by
  rw [Finset.sdiff_empty, duties_recv, bigSep_singleton, payload_recv]

end Tables

end Cert.KernelIdeal.SchedTab

end
-- ==== Proof.Owes.lean ====
import proofs.«900880_g7700000000000881_dist_matmul_gelu_kshard_i_m1024_n1024_k512_v7x_i4_bf16_1_alg».proof.Proof.Ghost

noncomputable section

namespace Cert.KernelIdeal.Owes

open Cert.KernelIdeal Cert.KernelIdeal.Gen Cert.KernelIdeal.Tab Cert.KernelIdeal.Proto Cert.KernelIdeal.Cells Cert.KernelIdeal.Sched
open Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem L_of_ne (g : GSem nD τ sig) (h : g.1.2 ≠ .tc) : L g = ∅ := if_neg h
theorem L_tc (c : Dev nD) (sm : SemLoc sig) : L ((c : Thread nD τ), sm) = {()} := if_pos rfl

theorem unit_mem_L (c : Dev nD) (sm : SemLoc sig) (u : Unit) : u ∈ L ((c : Thread nD τ), sm) := by
  rw [L_tc]; exact Finset.mem_singleton_self _

theorem dma_ne_bar (q : DmaSem sig) : (SemLoc.dma q : SemLoc sig) ≠ .reg barS := fun h => by cases h

theorem lv_bar (c : Dev nD) : lv (barCell c) () = 1 := if_pos rfl

theorem lv_send (c : Dev nD) (li : Fin 8) (k : Fin 6) : lv (sendCell c li k) () = k.val + 2 := by
  unfold lv
  rw [if_neg (dma_ne_bar _), semKind_send]

theorem lv_recv (c : Dev nD) (li : Fin 8) (k : Fin 6) : lv (recvCell c li k) () = k.val + 2 := by
  unfold lv
  rw [if_neg (dma_ne_bar _), semKind_recv]

theorem lv_other (c : Dev nD) (q : DmaSem sig) (hq : semKind (.dma q) = none) : lv ((c : Thread nD τ), .dma q) () = 0 := by
  unfold lv
  rw [if_neg (dma_ne_bar _), hq]

theorem owedOf_pos {c : Dev nD} {S : Finset LK} {g : GSem nD τ sig} {u : Unit} (h : 0 < owedOf c S g u) :
    ∃ lk ∈ S, g = recvCell (peer lk.1 lk.2 c) lk.1 lk.2 := by
  obtain ⟨lk, hlk, hp⟩ := Pipeline.sum_pos_exists (D := Tc c) h
  exact ⟨lk, hlk, (Pipeline.tallyAt_pos hp).1⟩

theorem owedOf_erase (c : Dev nD) (S : Finset LK) {lk : LK} (h : lk ∈ S) :
    owedOf c S = owedOf c (S.erase lk) + tallyAt (recvCell (peer lk.1 lk.2 c) lk.1 lk.2) () N :=
  (Finset.sum_erase_add S (Tc c) h).symm

theorem O₀_pos {c : Dev nD} {g : GSem nD τ sig} {u : Unit} (h : 0 < O₀ c g u) :
    g = barCell (p1 c) ∨ g = barCell (p2 c) ∨ ∃ lk : LK, g = recvCell (peer lk.1 lk.2 c) lk.1 lk.2 := by
  rcases Pipeline.add_pos_cases (show 0 < (O₁ c + tallyAt (barCell (p1 c)) () 1) g u from h) with h | h
  · rcases Pipeline.add_pos_cases (show 0 < (owedOf c Finset.univ + tallyAt (barCell (p2 c)) () 1) g u from h) with h | h
    · obtain ⟨lk, _, hg⟩ := owedOf_pos h
      exact Or.inr (Or.inr ⟨lk, hg⟩)
    · exact Or.inr (Or.inl (Pipeline.tallyAt_pos h).1)
  · exact Or.inl (Pipeline.tallyAt_pos h).1

theorem mayWait_bar (c : Dev nD) (S : Finset LK) :
    (levAts L lv : sProp 𝕄) ⊢ MayWait (c : Thread nD τ) (.reg barS) () (owedOf c S) :=
  Pipeline.mayWait_of_levAts (unit_mem_L c _ _) fun g i hg => by
    obtain ⟨lk, _, rfl⟩ := owedOf_pos hg
    refine ⟨unit_mem_L _ _ _, ?_⟩
    rw [show lv ((c : Thread nD τ), .reg barS) () = 1 from lv_bar c, show lv (recvCell (peer lk.1 lk.2 c) lk.1 lk.2) i = lk.2.val + 2 from lv_recv _ _ _]
    omega

theorem mayWait_send (c : Dev nD) (li : Fin 8) (k : Fin 6) (S : Finset LK) (hS : ∀ lk ∈ S, k.val < lk.2.val) :
    (levAts L lv : sProp 𝕄) ⊢ MayWait (c : Thread nD τ) (.dma (sendSem li k)) () (owedOf c S) :=
  Pipeline.mayWait_of_levAts (unit_mem_L c _ _) fun g i hg => by
    obtain ⟨lk, hlk, rfl⟩ := owedOf_pos hg
    refine ⟨unit_mem_L _ _ _, ?_⟩
    rw [show lv ((c : Thread nD τ), .dma (sendSem li k)) () = k.val + 2 from lv_send c li k,
      show lv (recvCell (peer lk.1 lk.2 c) lk.1 lk.2) i = lk.2.val + 2 from lv_recv _ _ _]
    have := hS lk hlk
    omega

theorem mayWait_recv (c : Dev nD) (li : Fin 8) (k : Fin 6) (S : Finset LK) (hS : ∀ lk ∈ S, k.val < lk.2.val) :
    (levAts L lv : sProp 𝕄) ⊢ MayWait (c : Thread nD τ) (.dma (recvSem li k)) () (owedOf c S) :=
  Pipeline.mayWait_of_levAts (unit_mem_L c _ _) fun g i hg => by
    obtain ⟨lk, hlk, rfl⟩ := owedOf_pos hg
    refine ⟨unit_mem_L _ _ _, ?_⟩
    rw [show lv ((c : Thread nD τ), .dma (recvSem li k)) () = k.val + 2 from lv_recv c li k,
      show lv (recvCell (peer lk.1 lk.2 c) lk.1 lk.2) i = lk.2.val + 2 from lv_recv _ _ _]
    have := hS lk hlk
    omega

theorem mayWait_stage (c : Dev nD) (q : DmaSem sig) (hq : semKind (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (unit_mem_L c _ _) fun g i hg => ⟨?_, ?_⟩
    · rcases O₀_pos hg with rfl | rfl | ⟨lk, rfl⟩ <;> exact unit_mem_L _ _ _
    · rw [lv_other c q hq]
      rcases O₀_pos hg with rfl | rfl | ⟨lk, rfl⟩
      · rw [show lv (barCell (p1 c)) i = 1 from lv_bar _]; omega
      · rw [show lv (barCell (p2 c)) i = 1 from lv_bar _]; omega
      · rw [show lv (recvCell (peer lk.1 lk.2 c) lk.1 lk.2) i = lk.2.val + 2 from lv_recv _ _ _]; omega
  · rw [MayWait_zero]; iintro -; iempintro

variable (m : (ℓ : Loc nD τ sig) → Buf (Elt F) ℓ) (ρ : Dev nD → PrngReg) (X : Conts F)

theorem waits (c : Dev nD) : (levAts L lv : sProp 𝕄) ⊢ Pipeline.cellsWaits cfgs (dats m ρ X) () 0 c :=
  Pipeline.cellsWaits_intro cfgs (dats m ρ X) () 0 c fun w s t =>
    mayWait_stage c _ (by fin_cases w <;> fin_cases s <;> decide) _ (by
      rcases t with ⟨_ | _, ht⟩
      · exact Or.inl rfl
      · exact Or.inr rfl)

theorem creds (c : Dev nD) : (Pipeline.launchCred O₀ c : sProp 𝕄) ⊢ credits (F := F) c := by
  have hs : (bigSep Finset.univ fun lk : LK => Pipeline.launchCred (fun d => Tc d lk) c : sProp 𝕄)
      ⊢ bigSep Finset.univ fun lk : LK => cred (tallyAt (recvCell c lk.1 lk.2) () N) :=
    bigSep_mono fun lk _ => Pipeline.launchCred_tallyAt (.dma (recvSem lk.1 lk.2)) (peer lk.1 lk.2) (peer lk.1 lk.2)
      (peer_peer lk.1 lk.2) (peer_peer lk.1 lk.2) () N c
  rw [show (O₀ : Dev nD → CellTallies nD τ sig Unit) = fun d => O₁ d + tallyAt (barCell (p1 d)) () 1 from rfl, Pipeline.launchCred_add,
    show (O₁ : Dev nD → CellTallies nD τ sig Unit) = fun d => (∑ lk ∈ Finset.univ, Tc d lk) + tallyAt (barCell (p2 d)) () 1 from rfl,
    Pipeline.launchCred_add, Pipeline.launchCred_sum]
  unfold credits
  iintro ⟨⟨Hs, H2⟩, H1⟩
  isplitl [H1 H2]
  · ihave H1' := (Pipeline.launchCred_tallyAt (.reg barS) p1 p1 p1_p1 p1_p1 () 1 c) $$ H1
    ihave H2' := (Pipeline.launchCred_tallyAt (.reg barS) p2 p2 p2_p2 p2_p2 () 1 c) $$ H2
    rw [show (tallyAt (barCell c) () 2 : CellTallies nD τ sig Unit) = tallyAt (barCell c) () 1 + tallyAt (barCell c) () 1 from (tallyAt_add _ _ 1 1).symm]
    iapply (cred_add _ _).2
    isplitl [H1']
    · iexact H1'
    · iexact H2'
  · iapply hs
    iexact Hs

end Cert.KernelIdeal.Owes

end
-- ==== Proof.Launch.lean ====
import proofs.«900880_g7700000000000881_dist_matmul_gelu_kshard_i_m1024_n1024_k512_v7x_i4_bf16_1_alg».proof.Proof.Ghost
import proofs.«900880_g7700000000000881_dist_matmul_gelu_kshard_i_m1024_n1024_k512_v7x_i4_bf16_1_alg».proof.Proof.SchedTab
import proofs.«900880_g7700000000000881_dist_matmul_gelu_kshard_i_m1024_n1024_k512_v7x_i4_bf16_1_alg».proof.Proof.Owes

noncomputable section

namespace Cert.KernelIdeal.Launch

open Cert.KernelIdeal Cert.KernelIdeal.Gen Cert.KernelIdeal.Tab Cert.KernelIdeal.Proto Cert.KernelIdeal.Cells Cert.KernelIdeal.Sched
open Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (X : Conts F)

abbrev OK : Type := Bool × Fin 8 × Fin 6

abbrev osem : OK → SemLoc sig := fun j => csem (some j)

theorem ownSemFacts : Pipeline.OwnSemFacts cfg0.spec osem := by decide +kernel

omit [FloatOps F] in
theorem bigSep_option {α : Type} [Fintype α] (Φ : Option α → sProp 𝕄) :
    bigSep Finset.univ Φ = iprop(Φ none ∗ bigSep Finset.univ fun a => Φ (some a)) := by
  classical
  have h : (Finset.univ.erase none : Finset (Option α)) = Finset.univ.map Function.Embedding.some := by
    ext x; cases x <;> simp
  rw [bigSep_univ_at Φ none, h, bigSep_map]; rfl

omit [FloatOps F] in
theorem bigSep_bool (Φ : Bool → sProp 𝕄) : bigSep Finset.univ Φ = iprop(Φ false ∗ Φ true) :=
  bigSep_univ_eq_bigSepL [false, true] (by decide) (by decide) Φ

omit [FloatOps F] in

theorem bigSep_OK (Φ : OK → sProp 𝕄) :
    bigSep Finset.univ Φ = iprop((bigSep Finset.univ fun lk : LK => Φ (false, lk)) ∗ bigSep Finset.univ fun lk : LK => Φ (true, lk)) := by
  rw [bigSep_univ_prod, bigSep_bool]

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun lk : LK => semVal (sendCell c lk.1 lk.2) 0) ∗ bigSep Finset.univ fun lk : LK => semVal (recvCell c lk.1 lk.2) 0) := by
  unfold Pipeline.ownSems0; rw [bigSep_OK]

omit [FloatOps F] in

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem csem_injective : Function.Injective csem := by
  rintro (_ | j) (_ | j') h
  · rfl
  · obtain ⟨b, li, k⟩ := j'; cases b <;> cases h
  · obtain ⟨b, li, k⟩ := j; cases b <;> cases h
  · exact congrArg some (ownSemFacts.inj h)

theorem kcell_injective : Function.Injective (kcell : Dev nD × Ck → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def exCells : Finset (GSem nD τ sig) := Finset.univ.map ⟨kcell, kcell_injective⟩

abbrev TokIx : Type := Bool ⊕ OK
abbrev tokOf (cj : Dev nD × TokIx) : GSem nD τ sig × ℕ × Bool := match cj.2 with
  | .inl b => (barCell cj.1, 0, b)
  | .inr j => (kcell (cj.1, some j), 0, false)

theorem tokOf_injective : Function.Injective (tokOf : Dev nD × TokIx → GSem nD τ sig × ℕ × Bool) := by
  rintro ⟨c, t⟩ ⟨c', t'⟩ h
  have h1 : c = c' := by
    have := congrArg (fun x : GSem nD τ sig × ℕ × Bool => x.1.1.1) h
    rcases t with b | j <;> rcases t' with b' | j' <;> exact this
  subst h1
  rcases t with b | j <;> rcases t' with b' | j'
  · have : b = b' := congrArg (fun x : GSem nD τ sig × ℕ × Bool => x.2.2) h
    rw [this]
  · exact absurd (kcell_injective (a₁ := (c, none)) (a₂ := (c, some j')) (congrArg (fun x : GSem nD τ sig × ℕ × Bool => x.1) h)) (fun h' => by cases h')
  · exact absurd (kcell_injective (a₁ := (c, some j)) (a₂ := (c, none)) (congrArg (fun x : GSem nD τ sig × ℕ × Bool => x.1) h)) (fun h' => by cases h')
  · have := kcell_injective (a₁ := (c, some j)) (a₂ := (c, some j')) (congrArg (fun x : GSem nD τ sig × ℕ × Bool => x.1) h)
    cases this; rfl

def exToks : Finset (GSem nD τ sig × ℕ × Bool) := Finset.univ.map ⟨tokOf, tokOf_injective⟩

def u₀ : UU :=
  (initOf (Pipeline.cells cfgs cellOf_inj) (Pipeline.launchToks cfgs cellOf_inj), initOf exCells exToks)

def toks (c : Dev nD) : sProp 𝕄 :=
  iprop((dutyTok ER (barCell c) 0 false ∗ dutyTok ER (barCell c) 0 true)
    ∗ (bigSep Finset.univ fun lk : LK => dutyTok ER (sendCell c lk.1 lk.2) 0 false)
    ∗ bigSep Finset.univ fun lk : LK => dutyTok ER (recvCell c lk.1 lk.2) 0 false)

def G (c : Dev nD) : sProp 𝕄 :=
  iprop((bigSep Finset.univ fun k : Ck => roundState ER (sch X) (kcell (c, k)) 0)
    ∗ (bigSep Finset.univ fun k : Ck => iprop(atPos ER (kcell (c, k)) 0 ∅ 0 ∗ reached ER (kcell (c, k)) 0)) ∗ toks (F := F) c)

def G' (c : Dev nD) : sProp 𝕄 := iprop(∃ K, ghost X K c)

theorem fund_ex : BI.own (ER (initOf exCells exToks)) ⊢ (|==> bigSep Finset.univ (G X) : sProp 𝕄) := by
  have hX (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_bool, bigSep_OK]; rfl
  iintro HX
  imod (Rounds.fund ER (sch X) exCells exToks) $$ HX with ⟨Hst, Hr, Hat, Htok⟩
  imodintro
  ihave Hst' := (Entails.of_eq (hX fun g => roundState ER (sch X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  unfold Pipeline.ownSems0
  rw [unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Ck => iprop(∃ κ : ℕ, cellInv ER (sch X) κ (kcell (c, k))))
          ∗ (bigSep Finset.univ fun k : Ck => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (sch X) (kcell (c, k)) 0)
      ⊢ (|={Set.univ}=> bigSep Finset.univ fun k : Ck => iprop(∃ κ : ℕ, cellInv ER (sch X) κ (kcell (c, k))) : sProp 𝕄) from by
        rw [← bigSep_sep']
        exact (bigSep_mono fun k _ => (Rounds.body_intro ER (sch X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Ck → ℕ) : sProp 𝕄 :=
  iprop((bigSep Finset.univ fun ck : Dev nD × Ck => cellInv ER (sch X) (K ck) (kcell ck))
    ∗ bigSep Finset.univ fun ck : Dev nD × Ck => reached ER (kcell ck) 0)

instance records_persistent (K : Dev nD × Ck → ℕ) : BI.Persistent (records X K) := by unfold records; infer_instance

theorem inv_at (K : Dev nD × Ck → ℕ) (ck : Dev nD × Ck) :
    (bigSep Finset.univ fun ck : Dev nD × Ck => (cellInv ER (sch X) (K ck) (kcell ck) : sProp 𝕄)) ⊢ cellInv ER (sch X) (K ck) (kcell ck) :=
  bigSep_elim (Finset.mem_univ ck)
omit [FloatOps F] in
theorem reached_at (ck : Dev nD × Ck) :
    (bigSep Finset.univ fun ck : Dev nD × Ck => (reached ER (kcell ck) 0 : sProp 𝕄)) ⊢ reached ER (kcell ck) 0 :=
  bigSep_elim (Finset.mem_univ ck)

def linear (c : Dev nD) : sProp 𝕄 := iprop(positions (F := F) c ∗ payToks (F := F) c)

theorem ghost_intro (K : Dev nD × Ck → ℕ) (c : Dev nD) : iprop(records X K ∗ linear (F := F) c) ⊢ G' X c := by
  unfold records linear G' Ghost.ghost Ghost.invs Ghost.reach
  iintro ⟨⟨#HI, #HR⟩, Hpos, Htok⟩
  iexists K
  isplitr
  · isplitr
    · iapply (bigSep_intro_persistent (S := Finset.univ) fun (j : Ck) _ => inv_at X K (c, j)); iexact HI
    isplitr; · iapply (inv_at X K (p1 c, none)); iexact HI
    isplitr; · iapply (inv_at X K (p2 c, none)); iexact HI
    iapply (bigSep_intro_persistent (S := Finset.univ) fun (lk : LK) _ => inv_at X K (peer lk.1 lk.2 c, some (true, lk.1, lk.2))); iexact HI
  isplitr
  · isplitr; · iapply (reached_at (F := F) (p1 c, none)); iexact HR
    isplitr; · iapply (reached_at (F := F) (p2 c, none)); iexact HR
    isplitr
    · iapply (bigSep_intro_persistent (S := Finset.univ) fun (lk : LK) _ => reached_at (F := F) (peer lk.1 lk.2 c, some (true, lk.1, lk.2))); iexact HR
    iapply (bigSep_intro_persistent (S := Finset.univ) fun (lk : LK) _ => reached_at (F := F) (c, some (false, lk.1, lk.2))); iexact HR
  isplitl [Hpos]; · iexact Hpos
  iexact Htok

def p1E : Dev nD ≃ Dev nD := ⟨p1, p1, p1_p1, p1_p1⟩
def p2E : Dev nD ≃ Dev nD := ⟨p2, p2, p2_p2, p2_p2⟩
def peerE (li : Fin 8) (k : Fin 6) : Dev nD ≃ Dev nD := ⟨peer li k, peer li k, peer_peer li k, peer_peer li k⟩

omit [FloatOps F] in

theorem toks_around : (bigSep Finset.univ fun c : Dev nD => (toks c : sProp 𝕄)) ⊢ bigSep Finset.univ fun c : Dev nD => payToks c := by
  have hrecv : (bigSep Finset.univ fun c : Dev nD => bigSep Finset.univ fun lk : LK => (dutyTok ER (recvCell c lk.1 lk.2) 0 false : sProp 𝕄))
      = bigSep Finset.univ fun c : Dev nD => bigSep Finset.univ fun lk : LK => dutyTok ER (recvCell (peer lk.1 lk.2 c) lk.1 lk.2) 0 false := by
    rw [bigSep_univ_comm, bigSep_univ_comm (fun (c : Dev nD) (lk : LK) => (dutyTok ER (recvCell (peer lk.1 lk.2 c) lk.1 lk.2) 0 false : sProp 𝕄))]
    exact bigSep_congr fun lk _ => bigSep_univ_equiv (peerE lk.1 lk.2) (fun c : Dev nD => (dutyTok ER (recvCell c lk.1 lk.2) 0 false : sProp 𝕄))
  unfold toks payToks
  rw [bigSep_sep', bigSep_sep', bigSep_sep', bigSep_sep', bigSep_sep', bigSep_sep', hrecv,
    bigSep_univ_equiv p1E (fun c : Dev nD => (dutyTok ER (barCell c) 0 true : sProp 𝕄)),
    bigSep_univ_equiv p2E (fun c : Dev nD => (dutyTok ER (barCell c) 0 false : sProp 𝕄))]
  iintro ⟨⟨HF, HT⟩, HS, HV⟩
  isplitl [HT]; · iexact HT
  isplitl [HF]; · iexact HF
  isplitl [HV]; · iexact HV
  iexact HS

theorem regroup :
    (bigSep Finset.univ fun c : Dev nD => iprop((bigSep Finset.univ fun k : Ck => iprop(∃ κ : ℕ, cellInv ER (sch X) κ (kcell (c, k))))
          ∗ (bigSep Finset.univ fun k : Ck => iprop(atPos ER (kcell (c, k)) 0 ∅ 0 ∗ reached ER (kcell (c, k)) 0)) ∗ toks (F := F) c) : sProp 𝕄)
      ⊢ bigSep Finset.univ (G' X) := by
  rw [bigSep_sep', bigSep_sep', ← bigSep_univ_prod (fun ck : Dev nD × Ck => iprop(∃ κ : ℕ, cellInv ER (sch X) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (sch X) κ (kcell ck) : sProp 𝕄))) $$ HI
  icases HK with ⟨%K, #HI⟩
  ihave Htk := (toks_around (F := F)) $$ Htok
  iapply (bigSep_with_persistent (R := records X K) fun c _ => ghost_intro X K c)
  isplitr
  · unfold records; isplitl; · iexact HI
    iexact HR
  · iapply (Entails.of_eq (bigSep_sep' Finset.univ (fun c : Dev nD => positions (F := F) c) (payToks (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

theorem share_eq (c : Dev nD) (w : Fin cfg0.W) : (dats m ρ X 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' X c)
      ⊢ |={Set.univ}=> iprop(start X c ∗ emp) := by
  iintro ⟨-, Hlev, Hcr, -, HG⟩
  ihave Hc := (Owes.creds (F := F) c) $$ Hcr
  imodintro
  unfold start G'
  isplitl
  · isplitl [HG]; · iexact HG
    isplitl [Hc]; · iexact Hc
    iexact Hlev
  · iempintro

theorem phi0_intro (c : Dev nD) :
    iprop(start X c ∗ Pipeline.prefHeld Pipeline.Prefetch.none c (fun _ => fullShare.right) (fun k => k.elim0) ∗ Pipeline.scopedRest cfg0.spec c)
      ⊢ (dats m ρ X 0 c).Φ 0 := by
  rw [show (dats m ρ X 0 c).Φ 0 = Φ₀ X c from rfl, scopedRest0_eq]
  unfold Φ₀ scratch
  iintro ⟨Hs, -, Hr⟩
  isplitl [Hs]; · iexact Hs
  iexact Hr

theorem phi1_exit (c : Dev nD) :
    (dats m ρ X 0 c).Φ (Fin.last cfg0.N) ⊢ iprop(emp ∗ Pipeline.ownSems0 osem c ∗ Pipeline.scopedRest cfg0.spec c) := by
  rw [show (dats m ρ X 0 c).Φ (Fin.last cfg0.N) = Φ₁ (F := F) c from rfl, scopedRest0_eq, ownSems0_eq]
  unfold Φ₁ scratch
  iintro ⟨Hr, HzS, HzV⟩
  isplitr; · iempintro
  isplitl [HzS HzV]
  · isplitl [HzS] <;> iassumption
  iexact Hr

def finalA (c : Dev nD) (w : Fin cfg0.W) : Buf (Elt F) ((cfg0.win w).arr.view.loc (c : Thread nD τ)) := (dats m ρ X 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ X c w

set_option maxRecDepth 16384 in

theorem run_main (hbody : ∀ c, BodyObligation (dats (F := F) m ρ X 0 c) (defs₀ (F := F)) 𝒱₀ () Set.univ) :
    θ_run defs (onTc (τ := τ) (main (F := F))) (Ghost.s₀ m ρ) (QC m ρ X) :=
  Pipeline.θ_run_region_owing_glob_pf (fun p => (cfgs p).toPCfg) (fun p => (cfgs p).toPCfg_adm) (dats m ρ X) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ X)
    (hdistinct := winFacts0.arr_inj)
    (O₀ := O₀) (howed₀ := fun _ => rfl) (howedN := fun _ => rfl)
    (L := L) (lv := lv) (hL := Owes.L_of_ne) (hwaits := Owes.waits m ρ X)
    (G := G X) (G' := G' X) (u₀ := u₀)
    (hu₀ := by
      unfold u₀
      iintro Hu
      ihave H := (ownU_pair _ _) $$ Hu
      icases H with ⟨HP, HX⟩
      imod (fund_ex X) $$ HX with HG
      imodintro
      isplitl [HP] <;> iassumption)
    (hglob := glob X)
    (hA := fun _ _ => rfl) (hpf := fun _ k => k.elim0)
    (X := start X) (Y := fun _ => iprop(emp)) (Z := fun _ => iprop(emp))
    (hX := start_intro m ρ X) (hin := phi0_intro m ρ X) (hout := phi1_exit m ρ X)
    (QY := fun _ _ => True)
    (hY := fun c s' => by
      iintro ⟨-, -, HSI⟩
      imodintro
      isplitr; · ipureintro; trivial
      iexact HSI)
    (hQ := fun _ h c w => (h c).1 w)

theorem finalA_a (c : Dev nD) : finalA m ρ X c (0 : Fin 3) = (Ghost.s₀ m ρ).mem (win0_0.arr.view.loc (c : Thread nD τ)) :=
  (dats (F := F) m ρ X 0 c).arrAt_in (0 : Fin 3) rfl _
theorem finalA_b (c : Dev nD) : finalA m ρ X c (1 : Fin 3) = (Ghost.s₀ m ρ).mem (win0_1.arr.view.loc (c : Thread nD τ)) :=
  (dats (F := F) m ρ X 0 c).arrAt_in (1 : Fin 3) rfl _

end Cert.KernelIdeal.Launch

end
-- ==== Proof.Final.lean ====
import proofs.«900880_g7700000000000881_dist_matmul_gelu_kshard_i_m1024_n1024_k512_v7x_i4_bf16_1_alg».proof.Proof.Launch
import Idealize.ShloMosaic.Lib.Pipeline.Value

noncomputable section

namespace Cert.KernelIdeal.Final

open Cert.KernelIdeal Cert.KernelIdeal.Gen Cert.KernelIdeal.Tab Cert.KernelIdeal.Proto Cert.KernelIdeal.Cells Cert.KernelIdeal.Sched
open Cert.KernelIdeal.Ghost Cert.KernelIdeal.Launch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (X : Conts F)

def outArr (c : Dev nD) : Buf (Elt F) ((c : Thread nD τ).loc main_v1) := fun i => X.out c i

theorem flushed_out (c : Dev nD) (t : Fin cfg0.N) (hf : (cfg0.win (2 : Fin 3)).flush t = true) :
    (dats m ρ X 0 c).flushed (2 : Fin 3) t = ((cfg0.win (2 : Fin 3)).blk t).view.read (Elt F) (outArr X c) := by
  obtain rfl : t = t0_0 := fin_N0 t
  show (cfg0.win (2 : Fin 3)).cut (grid0.coords t0_0) (X.out c) = _
  have hz' : (fun a => win0_2.index t0_0 a * main_v1.ty.shape.size a) = fun _ => 0 := funext fun a => by fin_cases a <;> decide
  exact (Memref.read_access_unit_zero (Elt F) main_v1 hz' (fun a => by rw [congrFun hz' a]; simp) (outArr X c)).symm

theorem finalA_out (c : Dev nD) : finalA m ρ X c (2 : Fin 3) = outArr X c :=
  (dats m ρ X 0 c).arrAt_eq_of_cover (2 : Fin 3) (outArr X c) (flushed_out m ρ X c) fun i =>
    ⟨t0_0, rfl, by
      show i ∈ ((View.whole main_v1).slice (win0_2.rect t0_0)).set
      rw [View.set_slice_whole, Rect.mem_set_unit]
      intro a
      have h0 : (i 0 : Nat) < 1024 := (i 0).isLt
      have h1 : (i 1 : Nat) < 1024 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 1024 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 1024 from by decide +kernel]; omega⟩

theorem frame_KI (hbody : ∀ c, BodyObligation (dats (F := F) m ρ X 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (0 : Fin 3)).trans (finalA_a m ρ X c), (h c (1 : Fin 3)).trans (finalA_b m ρ X c)⟩)
    (run_main m ρ X hbody)

theorem run_value (hbody : ∀ c, BodyObligation (dats (F := F) m ρ X 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outArr X c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (finalA_out m ρ X c), (h c (0 : Fin 3)).trans (finalA_a m ρ X c),
      (h c (1 : Fin 3)).trans (finalA_b m ρ X c)⟩)
    (run_main m ρ X hbody)

end Cert.KernelIdeal.Final

end
-- ==== Proof.BodyPre.lean ====
import proofs.«900880_g7700000000000881_dist_matmul_gelu_kshard_i_m1024_n1024_k512_v7x_i4_bf16_1_alg».proof.Proof.Ghost

noncomputable section

namespace Cert.KernelIdeal.Body

open Cert.KernelIdeal Cert.KernelIdeal.Gen Cert.KernelIdeal.Tab Cert.KernelIdeal.Proto Cert.KernelIdeal.Cells Cert.KernelIdeal.Sched
open Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (X : Conts F)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

variable (K : Dev nD × Ck → ℕ)

def bodyPre (c : Dev nD) : sProp 𝕄 :=
  iprop((ghost X K c ∗ credits (F := F) c ∗ levAts L lv ∗ scratch (F := F) c)
    ∗ (dats m ρ X 0 c).owesAt () t₀.castSucc
    ∗ (∃ d, stg c cc0_stg0_0 ((dats m ρ X 0 c).before (0 : Fin 3) t₀ d))
    ∗ (∃ d, stg c cc0_stg1_0 ((dats m ρ X 0 c).before (1 : Fin 3) t₀ d))
    ∗ (∃ d, stg c cc0_stg2_0 ((dats m ρ X 0 c).before (2 : Fin 3) t₀ d)))

def bodyPost (c : Dev nD) : sProp 𝕄 :=
  iprop(Φ₁ (F := F) c ∗ (dats m ρ X 0 c).owesAt () t₀.succ ∗ stg c cc0_stg0_0 (astg m ρ c) ∗ stg c cc0_stg1_0 (bstg m ρ c) ∗ stg c cc0_stg2_0 (X.out c))

end Cert.KernelIdeal.Body

end
-- ==== Proof.Obligation.lean ====
import proofs.«900880_g7700000000000881_dist_matmul_gelu_kshard_i_m1024_n1024_k512_v7x_i4_bf16_1_alg».proof.Proof.BodyPre

noncomputable section

namespace Cert.KernelIdeal.Obligation

open Cert.KernelIdeal Cert.KernelIdeal.Gen Cert.KernelIdeal.Tab Cert.KernelIdeal.Proto Cert.KernelIdeal.Cells Cert.KernelIdeal.Sched
open Cert.KernelIdeal.Ghost Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (X : Conts F)

omit [FloatOps F] in

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

def bodyPre' (c : Dev nD) : sProp 𝕄 :=
  iprop(Φ₀ X c ∗ (dats m ρ X 0 c).owesAt () t₀.castSucc
    ∗ (∃ d, stg c cc0_stg0_0 ((dats m ρ X 0 c).before (0 : Fin 3) t₀ d))
    ∗ (∃ d, stg c cc0_stg1_0 ((dats m ρ X 0 c).before (1 : Fin 3) t₀ d))
    ∗ (∃ d, stg c cc0_stg2_0 ((dats m ρ X 0 c).before (2 : Fin 3) t₀ d)))

set_option maxRecDepth 16384 in

theorem body_obligation
    (hsound : ∀ (K : Dev nD × Ck → ℕ) (c : Dev nD) (Kt : PUnit → sProp 𝕄),
      iprop(bodyPre m ρ X K c ∗ (bodyPost m ρ X c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_stg2_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4 cc0_scratch5) Kt)
    (c : Dev nD) : BodyObligation (dats (F := F) m ρ X 0 c) (defs₀ (F := F)) 𝒱₀ () Set.univ := fun t => by
  rw [fin_N t]
  rw [bigSep_W, bigSep_W]
  simp only [owns_whole_eq]
  show bodyPre' m ρ X c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5)
    (fun _ => bodyPost m ρ X c)
  unfold bodyPre' Φ₀ start
  iintro ⟨⟨⟨⟨%K, Hg⟩, Hcr, Hlev⟩, Hscr⟩, Ho, Ha, Hb, Hout⟩
  iapply (hsound K c fun _ => bodyPost m ρ X c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Ha]; · iexact Ha
    isplitl [Hb] <;> iassumption
  · iintro H; iexact H

end Cert.KernelIdeal.Obligation

end
-- ==== Proof.BodyCtx.lean ====
import proofs.«900880_g7700000000000881_dist_matmul_gelu_kshard_i_m1024_n1024_k512_v7x_i4_bf16_1_alg».proof.Proof.Ghost
import proofs.«900880_g7700000000000881_dist_matmul_gelu_kshard_i_m1024_n1024_k512_v7x_i4_bf16_1_alg».proof.Proof.SchedTab
import proofs.«900880_g7700000000000881_dist_matmul_gelu_kshard_i_m1024_n1024_k512_v7x_i4_bf16_1_alg».proof.Proof.Owes

/-!
# The ghost state, conjunct by conjunct

The families over the 48 copies and over a device's 97 cells written out as chains, the two partners' loans written out
copy by copy, and each printed device chain identified with the partner it computes.
-/

set_option maxRecDepth 16384

noncomputable section

namespace Cert.KernelIdeal.BodyCtx

open Cert.KernelIdeal Cert.KernelIdeal.Gen Cert.KernelIdeal.Tab Cert.KernelIdeal.Proto Cert.KernelIdeal.Cells Cert.KernelIdeal.Sched Cert.KernelIdeal.Ghost Cert.KernelIdeal.SchedTab

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over the 48 copies, copy by copy, lanes outermost. -/
theorem bigSep_LK (Φ : LK → sProp 𝕄) : bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5) ∗ Φ (2, 0) ∗ Φ (2, 1) ∗ Φ (2, 2) ∗ Φ (2, 3) ∗ Φ (2, 4) ∗ Φ (2, 5) ∗ Φ (3, 0) ∗ Φ (3, 1) ∗ Φ (3, 2) ∗ Φ (3, 3) ∗ Φ (3, 4) ∗ Φ (3, 5) ∗ Φ (4, 0) ∗ Φ (4, 1) ∗ Φ (4, 2) ∗ Φ (4, 3) ∗ Φ (4, 4) ∗ Φ (4, 5) ∗ Φ (5, 0) ∗ Φ (5, 1) ∗ Φ (5, 2) ∗ Φ (5, 3) ∗ Φ (5, 4) ∗ Φ (5, 5) ∗ Φ (6, 0) ∗ Φ (6, 1) ∗ Φ (6, 2) ∗ Φ (6, 3) ∗ Φ (6, 4) ∗ Φ (6, 5) ∗ Φ (7, 0) ∗ Φ (7, 1) ∗ Φ (7, 2) ∗ Φ (7, 3) ∗ Φ (7, 4) ∗ Φ (7, 5)) := by
  rw [bigSep_univ_eq_bigSepL [(0, 0), (0, 1), (0, 2), (0, 3), (0, 4), (0, 5), (1, 0), (1, 1), (1, 2), (1, 3), (1, 4), (1, 5), (2, 0), (2, 1), (2, 2), (2, 3), (2, 4), (2, 5), (3, 0), (3, 1), (3, 2), (3, 3), (3, 4), (3, 5), (4, 0), (4, 1), (4, 2), (4, 3), (4, 4), (4, 5), (5, 0), (5, 1), (5, 2), (5, 3), (5, 4), (5, 5), (6, 0), (6, 1), (6, 2), (6, 3), (6, 4), (6, 5), (7, 0), (7, 1), (7, 2), (7, 3), (7, 4), (7, 5)] (by decide) (by decide) Φ]
  simp only [bigSepL_cons_cons, bigSepL_singleton]
  rfl

/-- A family over a device's cells: the barrier cell, the 48 departure cells, the 48 arrival cells. -/
theorem bigSep_Ck (Φ : Ck → sProp 𝕄) : bigSep Finset.univ Φ = iprop(Φ none ∗ Φ (some (false, 0, 0)) ∗ Φ (some (false, 0, 1)) ∗ Φ (some (false, 0, 2)) ∗ Φ (some (false, 0, 3)) ∗ Φ (some (false, 0, 4)) ∗ Φ (some (false, 0, 5)) ∗ Φ (some (false, 1, 0)) ∗ Φ (some (false, 1, 1)) ∗ Φ (some (false, 1, 2)) ∗ Φ (some (false, 1, 3)) ∗ Φ (some (false, 1, 4)) ∗ Φ (some (false, 1, 5)) ∗ Φ (some (false, 2, 0)) ∗ Φ (some (false, 2, 1)) ∗ Φ (some (false, 2, 2)) ∗ Φ (some (false, 2, 3)) ∗ Φ (some (false, 2, 4)) ∗ Φ (some (false, 2, 5)) ∗ Φ (some (false, 3, 0)) ∗ Φ (some (false, 3, 1)) ∗ Φ (some (false, 3, 2)) ∗ Φ (some (false, 3, 3)) ∗ Φ (some (false, 3, 4)) ∗ Φ (some (false, 3, 5)) ∗ Φ (some (false, 4, 0)) ∗ Φ (some (false, 4, 1)) ∗ Φ (some (false, 4, 2)) ∗ Φ (some (false, 4, 3)) ∗ Φ (some (false, 4, 4)) ∗ Φ (some (false, 4, 5)) ∗ Φ (some (false, 5, 0)) ∗ Φ (some (false, 5, 1)) ∗ Φ (some (false, 5, 2)) ∗ Φ (some (false, 5, 3)) ∗ Φ (some (false, 5, 4)) ∗ Φ (some (false, 5, 5)) ∗ Φ (some (false, 6, 0)) ∗ Φ (some (false, 6, 1)) ∗ Φ (some (false, 6, 2)) ∗ Φ (some (false, 6, 3)) ∗ Φ (some (false, 6, 4)) ∗ Φ (some (false, 6, 5)) ∗ Φ (some (false, 7, 0)) ∗ Φ (some (false, 7, 1)) ∗ Φ (some (false, 7, 2)) ∗ Φ (some (false, 7, 3)) ∗ Φ (some (false, 7, 4)) ∗ Φ (some (false, 7, 5)) ∗ Φ (some (true, 0, 0)) ∗ Φ (some (true, 0, 1)) ∗ Φ (some (true, 0, 2)) ∗ Φ (some (true, 0, 3)) ∗ Φ (some (true, 0, 4)) ∗ Φ (some (true, 0, 5)) ∗ Φ (some (true, 1, 0)) ∗ Φ (some (true, 1, 1)) ∗ Φ (some (true, 1, 2)) ∗ Φ (some (true, 1, 3)) ∗ Φ (some (true, 1, 4)) ∗ Φ (some (true, 1, 5)) ∗ Φ (some (true, 2, 0)) ∗ Φ (some (true, 2, 1)) ∗ Φ (some (true, 2, 2)) ∗ Φ (some (true, 2, 3)) ∗ Φ (some (true, 2, 4)) ∗ Φ (some (true, 2, 5)) ∗ Φ (some (true, 3, 0)) ∗ Φ (some (true, 3, 1)) ∗ Φ (some (true, 3, 2)) ∗ Φ (some (true, 3, 3)) ∗ Φ (some (true, 3, 4)) ∗ Φ (some (true, 3, 5)) ∗ Φ (some (true, 4, 0)) ∗ Φ (some (true, 4, 1)) ∗ Φ (some (true, 4, 2)) ∗ Φ (some (true, 4, 3)) ∗ Φ (some (true, 4, 4)) ∗ Φ (some (true, 4, 5)) ∗ Φ (some (true, 5, 0)) ∗ Φ (some (true, 5, 1)) ∗ Φ (some (true, 5, 2)) ∗ Φ (some (true, 5, 3)) ∗ Φ (some (true, 5, 4)) ∗ Φ (some (true, 5, 5)) ∗ Φ (some (true, 6, 0)) ∗ Φ (some (true, 6, 1)) ∗ Φ (some (true, 6, 2)) ∗ Φ (some (true, 6, 3)) ∗ Φ (some (true, 6, 4)) ∗ Φ (some (true, 6, 5)) ∗ Φ (some (true, 7, 0)) ∗ Φ (some (true, 7, 1)) ∗ Φ (some (true, 7, 2)) ∗ Φ (some (true, 7, 3)) ∗ Φ (some (true, 7, 4)) ∗ Φ (some (true, 7, 5))) := by
  rw [bigSep_univ_eq_bigSepL [none, some (false, 0, 0), some (false, 0, 1), some (false, 0, 2), some (false, 0, 3), some (false, 0, 4), some (false, 0, 5), some (false, 1, 0), some (false, 1, 1), some (false, 1, 2), some (false, 1, 3), some (false, 1, 4), some (false, 1, 5), some (false, 2, 0), some (false, 2, 1), some (false, 2, 2), some (false, 2, 3), some (false, 2, 4), some (false, 2, 5), some (false, 3, 0), some (false, 3, 1), some (false, 3, 2), some (false, 3, 3), some (false, 3, 4), some (false, 3, 5), some (false, 4, 0), some (false, 4, 1), some (false, 4, 2), some (false, 4, 3), some (false, 4, 4), some (false, 4, 5), some (false, 5, 0), some (false, 5, 1), some (false, 5, 2), some (false, 5, 3), some (false, 5, 4), some (false, 5, 5), some (false, 6, 0), some (false, 6, 1), some (false, 6, 2), some (false, 6, 3), some (false, 6, 4), some (false, 6, 5), some (false, 7, 0), some (false, 7, 1), some (false, 7, 2), some (false, 7, 3), some (false, 7, 4), some (false, 7, 5), some (true, 0, 0), some (true, 0, 1), some (true, 0, 2), some (true, 0, 3), some (true, 0, 4), some (true, 0, 5), some (true, 1, 0), some (true, 1, 1), some (true, 1, 2), some (true, 1, 3), some (true, 1, 4), some (true, 1, 5), some (true, 2, 0), some (true, 2, 1), some (true, 2, 2), some (true, 2, 3), some (true, 2, 4), some (true, 2, 5), some (true, 3, 0), some (true, 3, 1), some (true, 3, 2), some (true, 3, 3), some (true, 3, 4), some (true, 3, 5), some (true, 4, 0), some (true, 4, 1), some (true, 4, 2), some (true, 4, 3), some (true, 4, 4), some (true, 4, 5), some (true, 5, 0), some (true, 5, 1), some (true, 5, 2), some (true, 5, 3), some (true, 5, 4), some (true, 5, 5), some (true, 6, 0), some (true, 6, 1), some (true, 6, 2), some (true, 6, 3), some (true, 6, 4), some (true, 6, 5), some (true, 7, 0), some (true, 7, 1), some (true, 7, 2), some (true, 7, 3), some (true, 7, 4), some (true, 7, 5)] (by decide) (by decide) Φ]
  simp only [bigSepL_cons_cons, bigSepL_singleton]
  rfl

/-- What the partner `p1 c` lends `c`, copy by copy. -/
theorem barPay_true_eq (c : Dev nD) : barPay (F := F) true c = iprop(landFrom (F := F) c 0 0 ∗ landFrom (F := F) c 0 1 ∗ landFrom (F := F) c 0 4 ∗ landFrom (F := F) c 0 5 ∗ landFrom (F := F) c 1 2 ∗ landFrom (F := F) c 1 3 ∗ landFrom (F := F) c 2 0 ∗ landFrom (F := F) c 2 1 ∗ landFrom (F := F) c 2 4 ∗ landFrom (F := F) c 2 5 ∗ landFrom (F := F) c 3 2 ∗ landFrom (F := F) c 3 3 ∗ landFrom (F := F) c 4 0 ∗ landFrom (F := F) c 4 1 ∗ landFrom (F := F) c 4 4 ∗ landFrom (F := F) c 4 5 ∗ landFrom (F := F) c 5 2 ∗ landFrom (F := F) c 5 3 ∗ landFrom (F := F) c 6 0 ∗ landFrom (F := F) c 6 1 ∗ landFrom (F := F) c 6 4 ∗ landFrom (F := F) c 6 5 ∗ landFrom (F := F) c 7 2 ∗ landFrom (F := F) c 7 3) := by
  unfold barPay
  rw [bigSep_eq_bigSepL_of_eq [(0, 0), (0, 1), (0, 4), (0, 5), (1, 2), (1, 3), (2, 0), (2, 1), (2, 4), (2, 5), (3, 2), (3, 3), (4, 0), (4, 1), (4, 4), (4, 5), (5, 2), (5, 3), (6, 0), (6, 1), (6, 4), (6, 5), (7, 2), (7, 3)] (by decide) (by decide)]
  simp only [bigSepL_cons_cons, bigSepL_singleton]
  rfl
/-- What the partner `p2 c` lends `c`, copy by copy. -/
theorem barPay_false_eq (c : Dev nD) : barPay (F := F) false c = iprop(landFrom (F := F) c 0 2 ∗ landFrom (F := F) c 0 3 ∗ landFrom (F := F) c 1 0 ∗ landFrom (F := F) c 1 1 ∗ landFrom (F := F) c 1 4 ∗ landFrom (F := F) c 1 5 ∗ landFrom (F := F) c 2 2 ∗ landFrom (F := F) c 2 3 ∗ landFrom (F := F) c 3 0 ∗ landFrom (F := F) c 3 1 ∗ landFrom (F := F) c 3 4 ∗ landFrom (F := F) c 3 5 ∗ landFrom (F := F) c 4 2 ∗ landFrom (F := F) c 4 3 ∗ landFrom (F := F) c 5 0 ∗ landFrom (F := F) c 5 1 ∗ landFrom (F := F) c 5 4 ∗ landFrom (F := F) c 5 5 ∗ landFrom (F := F) c 6 2 ∗ landFrom (F := F) c 6 3 ∗ landFrom (F := F) c 7 0 ∗ landFrom (F := F) c 7 1 ∗ landFrom (F := F) c 7 4 ∗ landFrom (F := F) c 7 5) := by
  unfold barPay
  rw [bigSep_eq_bigSepL_of_eq [(0, 2), (0, 3), (1, 0), (1, 1), (1, 4), (1, 5), (2, 2), (2, 3), (3, 0), (3, 1), (3, 4), (3, 5), (4, 2), (4, 3), (5, 0), (5, 1), (5, 4), (5, 5), (6, 2), (6, 3), (7, 0), (7, 1), (7, 4), (7, 5)] (by decide) (by decide)]
  simp only [bigSepL_cons_cons, bigSepL_singleton]
  rfl

/-! The printed device chains: the two signals', then each copy's. -/
theorem dev_sig1 : ∀ c : Dev nD, (⟨k0_dev1 c, k0_dev1_lt c⟩ : Dev nD) = p1 c := by decide +kernel
theorem dev_sig2 : ∀ c : Dev nD, (⟨k0_dev2 c, k0_dev2_lt c⟩ : Dev nD) = p2 c := by decide +kernel
theorem dev_0_0 : ∀ c : Dev nD, (⟨k0_dev3 c, k0_dev3_lt c⟩ : Dev nD) = peer 0 0 c := fun c => Proto.dev_eq 0 0 c
theorem dev_0_1 : ∀ c : Dev nD, (⟨k0_dev4 c, k0_dev4_lt c⟩ : Dev nD) = peer 0 1 c := fun c => Proto.dev_eq 0 1 c
theorem dev_0_2 : ∀ c : Dev nD, (⟨k0_dev19 c, k0_dev19_lt c⟩ : Dev nD) = peer 0 2 c := fun c => Proto.dev_eq 0 2 c
theorem dev_0_3 : ∀ c : Dev nD, (⟨k0_dev27 c, k0_dev27_lt c⟩ : Dev nD) = peer 0 3 c := fun c => Proto.dev_eq 0 3 c
theorem dev_0_4 : ∀ c : Dev nD, (⟨k0_dev28 c, k0_dev28_lt c⟩ : Dev nD) = peer 0 4 c := fun c => Proto.dev_eq 0 4 c
theorem dev_0_5 : ∀ c : Dev nD, (⟨k0_dev43 c, k0_dev43_lt c⟩ : Dev nD) = peer 0 5 c := fun c => Proto.dev_eq 0 5 c
theorem dev_1_0 : ∀ c : Dev nD, (⟨k0_dev5 c, k0_dev5_lt c⟩ : Dev nD) = peer 1 0 c := fun c => Proto.dev_eq 1 0 c
theorem dev_1_1 : ∀ c : Dev nD, (⟨k0_dev6 c, k0_dev6_lt c⟩ : Dev nD) = peer 1 1 c := fun c => Proto.dev_eq 1 1 c
theorem dev_1_2 : ∀ c : Dev nD, (⟨k0_dev20 c, k0_dev20_lt c⟩ : Dev nD) = peer 1 2 c := fun c => Proto.dev_eq 1 2 c
theorem dev_1_3 : ∀ c : Dev nD, (⟨k0_dev29 c, k0_dev29_lt c⟩ : Dev nD) = peer 1 3 c := fun c => Proto.dev_eq 1 3 c
theorem dev_1_4 : ∀ c : Dev nD, (⟨k0_dev30 c, k0_dev30_lt c⟩ : Dev nD) = peer 1 4 c := fun c => Proto.dev_eq 1 4 c
theorem dev_1_5 : ∀ c : Dev nD, (⟨k0_dev44 c, k0_dev44_lt c⟩ : Dev nD) = peer 1 5 c := fun c => Proto.dev_eq 1 5 c
theorem dev_2_0 : ∀ c : Dev nD, (⟨k0_dev7 c, k0_dev7_lt c⟩ : Dev nD) = peer 2 0 c := fun c => Proto.dev_eq 2 0 c
theorem dev_2_1 : ∀ c : Dev nD, (⟨k0_dev8 c, k0_dev8_lt c⟩ : Dev nD) = peer 2 1 c := fun c => Proto.dev_eq 2 1 c
theorem dev_2_2 : ∀ c : Dev nD, (⟨k0_dev21 c, k0_dev21_lt c⟩ : Dev nD) = peer 2 2 c := fun c => Proto.dev_eq 2 2 c
theorem dev_2_3 : ∀ c : Dev nD, (⟨k0_dev31 c, k0_dev31_lt c⟩ : Dev nD) = peer 2 3 c := fun c => Proto.dev_eq 2 3 c
theorem dev_2_4 : ∀ c : Dev nD, (⟨k0_dev32 c, k0_dev32_lt c⟩ : Dev nD) = peer 2 4 c := fun c => Proto.dev_eq 2 4 c
theorem dev_2_5 : ∀ c : Dev nD, (⟨k0_dev45 c, k0_dev45_lt c⟩ : Dev nD) = peer 2 5 c := fun c => Proto.dev_eq 2 5 c
theorem dev_3_0 : ∀ c : Dev nD, (⟨k0_dev9 c, k0_dev9_lt c⟩ : Dev nD) = peer 3 0 c := fun c => Proto.dev_eq 3 0 c
theorem dev_3_1 : ∀ c : Dev nD, (⟨k0_dev10 c, k0_dev10_lt c⟩ : Dev nD) = peer 3 1 c := fun c => Proto.dev_eq 3 1 c
theorem dev_3_2 : ∀ c : Dev nD, (⟨k0_dev22 c, k0_dev22_lt c⟩ : Dev nD) = peer 3 2 c := fun c => Proto.dev_eq 3 2 c
theorem dev_3_3 : ∀ c : Dev nD, (⟨k0_dev33 c, k0_dev33_lt c⟩ : Dev nD) = peer 3 3 c := fun c => Proto.dev_eq 3 3 c
theorem dev_3_4 : ∀ c : Dev nD, (⟨k0_dev34 c, k0_dev34_lt c⟩ : Dev nD) = peer 3 4 c := fun c => Proto.dev_eq 3 4 c
theorem dev_3_5 : ∀ c : Dev nD, (⟨k0_dev46 c, k0_dev46_lt c⟩ : Dev nD) = peer 3 5 c := fun c => Proto.dev_eq 3 5 c
theorem dev_4_0 : ∀ c : Dev nD, (⟨k0_dev11 c, k0_dev11_lt c⟩ : Dev nD) = peer 4 0 c := fun c => Proto.dev_eq 4 0 c
theorem dev_4_1 : ∀ c : Dev nD, (⟨k0_dev12 c, k0_dev12_lt c⟩ : Dev nD) = peer 4 1 c := fun c => Proto.dev_eq 4 1 c
theorem dev_4_2 : ∀ c : Dev nD, (⟨k0_dev23 c, k0_dev23_lt c⟩ : Dev nD) = peer 4 2 c := fun c => Proto.dev_eq 4 2 c
theorem dev_4_3 : ∀ c : Dev nD, (⟨k0_dev35 c, k0_dev35_lt c⟩ : Dev nD) = peer 4 3 c := fun c => Proto.dev_eq 4 3 c
theorem dev_4_4 : ∀ c : Dev nD, (⟨k0_dev36 c, k0_dev36_lt c⟩ : Dev nD) = peer 4 4 c := fun c => Proto.dev_eq 4 4 c
theorem dev_4_5 : ∀ c : Dev nD, (⟨k0_dev47 c, k0_dev47_lt c⟩ : Dev nD) = peer 4 5 c := fun c => Proto.dev_eq 4 5 c
theorem dev_5_0 : ∀ c : Dev nD, (⟨k0_dev13 c, k0_dev13_lt c⟩ : Dev nD) = peer 5 0 c := fun c => Proto.dev_eq 5 0 c
theorem dev_5_1 : ∀ c : Dev nD, (⟨k0_dev14 c, k0_dev14_lt c⟩ : Dev nD) = peer 5 1 c := fun c => Proto.dev_eq 5 1 c
theorem dev_5_2 : ∀ c : Dev nD, (⟨k0_dev24 c, k0_dev24_lt c⟩ : Dev nD) = peer 5 2 c := fun c => Proto.dev_eq 5 2 c
theorem dev_5_3 : ∀ c : Dev nD, (⟨k0_dev37 c, k0_dev37_lt c⟩ : Dev nD) = peer 5 3 c := fun c => Proto.dev_eq 5 3 c
theorem dev_5_4 : ∀ c : Dev nD, (⟨k0_dev38 c, k0_dev38_lt c⟩ : Dev nD) = peer 5 4 c := fun c => Proto.dev_eq 5 4 c
theorem dev_5_5 : ∀ c : Dev nD, (⟨k0_dev48 c, k0_dev48_lt c⟩ : Dev nD) = peer 5 5 c := fun c => Proto.dev_eq 5 5 c
theorem dev_6_0 : ∀ c : Dev nD, (⟨k0_dev15 c, k0_dev15_lt c⟩ : Dev nD) = peer 6 0 c := fun c => Proto.dev_eq 6 0 c
theorem dev_6_1 : ∀ c : Dev nD, (⟨k0_dev16 c, k0_dev16_lt c⟩ : Dev nD) = peer 6 1 c := fun c => Proto.dev_eq 6 1 c
theorem dev_6_2 : ∀ c : Dev nD, (⟨k0_dev25 c, k0_dev25_lt c⟩ : Dev nD) = peer 6 2 c := fun c => Proto.dev_eq 6 2 c
theorem dev_6_3 : ∀ c : Dev nD, (⟨k0_dev39 c, k0_dev39_lt c⟩ : Dev nD) = peer 6 3 c := fun c => Proto.dev_eq 6 3 c
theorem dev_6_4 : ∀ c : Dev nD, (⟨k0_dev40 c, k0_dev40_lt c⟩ : Dev nD) = peer 6 4 c := fun c => Proto.dev_eq 6 4 c
theorem dev_6_5 : ∀ c : Dev nD, (⟨k0_dev49 c, k0_dev49_lt c⟩ : Dev nD) = peer 6 5 c := fun c => Proto.dev_eq 6 5 c
theorem dev_7_0 : ∀ c : Dev nD, (⟨k0_dev17 c, k0_dev17_lt c⟩ : Dev nD) = peer 7 0 c := fun c => Proto.dev_eq 7 0 c
theorem dev_7_1 : ∀ c : Dev nD, (⟨k0_dev18 c, k0_dev18_lt c⟩ : Dev nD) = peer 7 1 c := fun c => Proto.dev_eq 7 1 c
theorem dev_7_2 : ∀ c : Dev nD, (⟨k0_dev26 c, k0_dev26_lt c⟩ : Dev nD) = peer 7 2 c := fun c => Proto.dev_eq 7 2 c
theorem dev_7_3 : ∀ c : Dev nD, (⟨k0_dev41 c, k0_dev41_lt c⟩ : Dev nD) = peer 7 3 c := fun c => Proto.dev_eq 7 3 c
theorem dev_7_4 : ∀ c : Dev nD, (⟨k0_dev42 c, k0_dev42_lt c⟩ : Dev nD) = peer 7 4 c := fun c => Proto.dev_eq 7 4 c
theorem dev_7_5 : ∀ c : Dev nD, (⟨k0_dev50 c, k0_dev50_lt c⟩ : Dev nD) = peer 7 5 c := fun c => Proto.dev_eq 7 5 c

end Cert.KernelIdeal.BodyCtx

end
-- ==== Proof.Regions.lean ====
import proofs.«900880_g7700000000000881_dist_matmul_gelu_kshard_i_m1024_n1024_k512_v7x_i4_bf16_1_alg».proof.Proof.Ghost

noncomputable section

namespace Cert.KernelIdeal.Regions

open Cert.KernelIdeal Cert.KernelIdeal.Gen Cert.KernelIdeal.Tab Cert.KernelIdeal.Proto Cert.KernelIdeal.Cells Cert.KernelIdeal.Sched
open Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Conts F)

theorem mem_unit3 {d o z : Fin 3 → Nat} {inb : ∀ a, o a + z a ≤ (⟨3, d⟩ : Shape).size a} {i : (⟨3, d⟩ : Shape).Idx} :
    i ∈ (Rect.unit (s := ⟨3, d⟩) o z inb).set ↔
      (o 0 ≤ (i 0).val ∧ (i 0).val < o 0 + z 0) ∧ (o 1 ≤ (i 1).val ∧ (i 1).val < o 1 + z 1)
        ∧ (o 2 ≤ (i 2).val ∧ (i 2).val < o 2 + z 2) := by
  rw [Rect.mem_set_unit]
  constructor
  · intro h; exact ⟨h 0, h 1, h 2⟩
  · rintro ⟨h0, h1, h2⟩ a
    match a with
    | 0 => exact h0
    | 1 => exact h1
    | 2 => exact h2

theorem mem_unit2 {d o z : Fin 2 → Nat} {inb : ∀ a, o a + z a ≤ (⟨2, d⟩ : Shape).size a} {i : (⟨2, d⟩ : Shape).Idx} :
    i ∈ (Rect.unit (s := ⟨2, d⟩) o z inb).set ↔
      (o 0 ≤ (i 0).val ∧ (i 0).val < o 0 + z 0) ∧ (o 1 ≤ (i 1).val ∧ (i 1).val < o 1 + z 1) := by
  rw [Rect.mem_set_unit]
  constructor
  · intro h; exact ⟨h 0, h 1⟩
  · rintro ⟨h0, h1⟩ a
    match a with
    | 0 => exact h0
    | 1 => exact h1

abbrev laneRectH (li : Fin 8) : Rect S8x512x128 :=
  Rect.unit (s := S8x512x128) ![li.val, 0, 0] S1x512x128.size (by revert li; decide)

abbrev laneRectQ (li : Fin 8) : Rect S8x256x128 :=
  Rect.unit (s := S8x256x128) ![li.val, 0, 0] S1x256x128.size (by revert li; decide)

theorem offL1_inb : ∀ (li : Fin 8) (c : Dev nD) (a : Fin 3), offL1 li c a + S1x256x128.size a ≤ S8x512x128.size a := by decide +kernel
theorem offL2_inb : ∀ (li : Fin 8) (c : Dev nD) (a : Fin 3), offL2 li c a + S1x256x128.size a ≤ S8x512x128.size a := by decide +kernel
theorem offOst_inb : ∀ (li : Fin 8) (c : Dev nD) (a : Fin 2), offOst li c a + S256x128.size a ≤ S1024x1024.size a := by decide +kernel

theorem mem_laneH (li : Fin 8) (i : S8x512x128.Idx) : i ∈ (laneRectH li).set ↔ (i 0).val = li.val := by
  have h1 : (i 1).val < 512 := (i 1).isLt
  have h2 : (i 2).val < 128 := (i 2).isLt
  rw [mem_unit3]
  simp only [Matrix.cons_val_zero, Matrix.cons_val_one, Matrix.cons_val_two, Matrix.head_cons, Matrix.tail_cons]
  omega

theorem mem_laneQ (li : Fin 8) (i : S8x256x128.Idx) : i ∈ (laneRectQ li).set ↔ (i 0).val = li.val := by
  have h1 : (i 1).val < 256 := (i 1).isLt
  have h2 : (i 2).val < 128 := (i 2).isLt
  rw [mem_unit3]
  simp only [Matrix.cons_val_zero, Matrix.cons_val_one, Matrix.cons_val_two, Matrix.head_cons, Matrix.tail_cons]
  omega

theorem mem_half {off : Fin 3 → Nat} {l r : Nat} (ho : ∀ a, off a = (![l, r, 0] : Fin 3 → Nat) a)
    (h : ∀ a, off a + S1x256x128.size a ≤ S8x512x128.size a) (i : S8x512x128.Idx) :
    i ∈ (Rect.unit (s := S8x512x128) off S1x256x128.size h).set ↔ (i 0).val = l ∧ r ≤ (i 1).val ∧ (i 1).val < r + 256 := by
  have h2 : (i 2).val < 128 := (i 2).isLt
  rw [mem_unit3, ho 0, ho 1, ho 2]
  simp only [Matrix.cons_val_zero, Matrix.cons_val_one, Matrix.cons_val_two, Matrix.head_cons, Matrix.tail_cons]
  omega

theorem hs_access_set (r : Rect S8x512x128) : (hsM.access r).set = r.set := View.set_slice_whole _ _
theorem hr_access_set (r : Rect S8x512x128) : (hrM.access r).set = r.set := View.set_slice_whole _ _
theorem qs_access_set (r : Rect S8x256x128) : (qsM.access r).set = r.set := View.set_slice_whole _ _
theorem qr_access_set (r : Rect S8x256x128) : (qrM.access r).set = r.set := View.set_slice_whole _ _
theorem o_access_set (r : Rect S1024x1024) : (oM.access r).set = r.set := View.set_slice_whole _ _

theorem halfOf_hs_set (off : Fin 3 → Nat) (h : ∀ a, off a + S1x256x128.size a ≤ S8x512x128.size a) :
    (halfOf hsM off h).view.set = (Rect.unit (s := S8x512x128) off S1x256x128.size h).set := by
  rw [Memref.set_view_squeeze]; exact View.set_slice_whole _ _
theorem halfOf_hr_set (off : Fin 3 → Nat) (h : ∀ a, off a + S1x256x128.size a ≤ S8x512x128.size a) :
    (halfOf hrM off h).view.set = (Rect.unit (s := S8x512x128) off S1x256x128.size h).set := by
  rw [Memref.set_view_squeeze]; exact View.set_slice_whole _ _
theorem blockOf_set (off : Fin 2 → Nat) (h : ∀ a, off a + S256x128.size a ≤ S1024x1024.size a) :
    (blockOf oM off h).view.set = (Rect.unit (s := S1024x1024) off S256x128.size h).set := View.set_slice_whole _ _

theorem qs_lane_set (li : Fin 8) : (qsM.access (laneRectQ li)).set = (laneOf qsM li).view.set :=
  (Memref.set_view_squeeze _ _).symm
theorem qr_lane_set (li : Fin 8) : (qrM.access (laneRectQ li)).set = (laneOf qrM li).view.set :=
  (Memref.set_view_squeeze _ _).symm
theorem halfRow_cases : ∀ (li : Fin 8) (c : Dev nD),
    (halfRow li 0 c = 0 ∧ halfRow li 1 c = 256) ∨ (halfRow li 0 c = 256 ∧ halfRow li 1 c = 0) := by decide +kernel

theorem laneH_eq_halves (li : Fin 8) (c : Dev nD) :
    (laneRectH li).set = (Rect.unit (s := S8x512x128) (offH li 0 c) S1x256x128.size (offH_inb li 0 c)).set
      ∪ (Rect.unit (s := S8x512x128) (offH li 1 c) S1x256x128.size (offH_inb li 1 c)).set := by
  ext i
  have h1 : (i 1).val < 512 := (i 1).isLt
  rw [Finset.mem_union, mem_laneH, mem_half (offH_eq li 0 c), mem_half (offH_eq li 1 c)]
  rcases halfRow_cases li c with ⟨e0, e1⟩ | ⟨e0, e1⟩ <;> rw [e0, e1] <;> omega

theorem halves_disjoint (li : Fin 8) (c : Dev nD) :
    Disjoint (Rect.unit (s := S8x512x128) (offH li 0 c) S1x256x128.size (offH_inb li 0 c)).set
      (Rect.unit (s := S8x512x128) (offH li 1 c) S1x256x128.size (offH_inb li 1 c)).set := by
  rw [Finset.disjoint_left]
  intro i h0 h1
  rw [mem_half (offH_eq li 0 c)] at h0
  rw [mem_half (offH_eq li 1 c)] at h1
  rcases halfRow_cases li c with ⟨e0, e1⟩ | ⟨e0, e1⟩ <;> rw [e0] at h0 <;> rw [e1] at h1 <;> omega

theorem lanesH_cover : (Finset.univ : Finset S8x512x128.Idx) = Finset.univ.biUnion fun li : Fin 8 => (laneRectH li).set := by
  ext i
  simp only [Finset.mem_univ, Finset.mem_biUnion, true_and, true_iff]
  exact ⟨⟨(i 0).val, (i 0).isLt⟩, (mem_laneH _ i).mpr rfl⟩

theorem lanesH_disjoint (li li' : Fin 8) (h : li ≠ li') : Disjoint (laneRectH li).set (laneRectH li').set := by
  rw [Finset.disjoint_left]
  intro i h0 h1
  rw [mem_laneH] at h0 h1
  exact h (Fin.ext (h0.symm.trans h1))

theorem lanesQ_cover : (Finset.univ : Finset S8x256x128.Idx) = Finset.univ.biUnion fun li : Fin 8 => (laneRectQ li).set := by
  ext i
  simp only [Finset.mem_univ, Finset.mem_biUnion, true_and, true_iff]
  exact ⟨⟨(i 0).val, (i 0).isLt⟩, (mem_laneQ _ i).mpr rfl⟩

theorem lanesQ_disjoint (li li' : Fin 8) (h : li ≠ li') : Disjoint (laneRectQ li).set (laneRectQ li').set := by
  rw [Finset.disjoint_left]
  intro i h0 h1
  rw [mem_laneQ] at h0 h1
  exact h (Fin.ext (h0.symm.trans h1))

theorem hs_lanes (c : Dev nD) (f : Buf (Elt F) ((c : Thread nD τ).loc cc0_scratch0)) :
    ((((c : Thread nD τ).loc cc0_scratch0) ↦{fullShare} f) : sProp 𝕄) ⊣⊢
      bigSep Finset.univ fun li : Fin 8 => ((c : Thread nD τ).loc cc0_scratch0) ↦[(hsM.access (laneRectH li)).set]{fullShare} f := by
  have h : ((((c : Thread nD τ).loc cc0_scratch0) ↦[Finset.univ.biUnion fun li : Fin 8 => (hsM.access (laneRectH li)).set]{fullShare} f) : sProp 𝕄)
      = bigSep Finset.univ fun li : Fin 8 => ((c : Thread nD τ).loc cc0_scratch0) ↦[(hsM.access (laneRectH li)).set]{fullShare} f :=
    pointsTo_biUnion Finset.univ _
      (fun li _ li' _ hne => by rw [hs_access_set, hs_access_set]; exact lanesH_disjoint li li' hne)
  simp only [hs_access_set] at h ⊢
  rw [← lanesH_cover] at h
  exact .of_eq h

theorem qs_lanes (c : Dev nD) (f : Buf (Elt F) ((c : Thread nD τ).loc cc0_scratch2)) :
    ((((c : Thread nD τ).loc cc0_scratch2) ↦{fullShare} f) : sProp 𝕄) ⊣⊢
      bigSep Finset.univ fun li : Fin 8 => ((c : Thread nD τ).loc cc0_scratch2) ↦[(qsM.access (laneRectQ li)).set]{fullShare} f := by
  have h : ((((c : Thread nD τ).loc cc0_scratch2) ↦[Finset.univ.biUnion fun li : Fin 8 => (qsM.access (laneRectQ li)).set]{fullShare} f) : sProp 𝕄)
      = bigSep Finset.univ fun li : Fin 8 => ((c : Thread nD τ).loc cc0_scratch2) ↦[(qsM.access (laneRectQ li)).set]{fullShare} f :=
    pointsTo_biUnion Finset.univ _
      (fun li _ li' _ hne => by rw [qs_access_set, qs_access_set]; exact lanesQ_disjoint li li' hne)
  simp only [qs_access_set] at h ⊢
  rw [← lanesQ_cover] at h
  exact .of_eq h

theorem hs_halves (c : Dev nD) (li : Fin 8) (f : Buf (Elt F) ((c : Thread nD τ).loc cc0_scratch0)) :
    ((((c : Thread nD τ).loc cc0_scratch0) ↦[(hsM.access (laneRectH li)).set]{fullShare} f) : sProp 𝕄) ⊣⊢
      iprop(((halfOf hsM (offH li 0 c) (offH_inb li 0 c)).view.loc (c : Thread nD τ) ↦[(halfOf hsM (offH li 0 c) (offH_inb li 0 c)).view.set]{fullShare} f)
        ∗ ((halfOf hsM (offH li 1 c) (offH_inb li 1 c)).view.loc (c : Thread nD τ) ↦[(halfOf hsM (offH li 1 c) (offH_inb li 1 c)).view.set]{fullShare} f)) := by
  rw [hs_access_set, halfOf_hs_set, halfOf_hs_set, laneH_eq_halves li c]
  exact pointsTo_union (halves_disjoint li c)

theorem load1_set (c : Dev nD) (li : Fin 8) :
    (hrM.access (Rect.unit (s := S8x512x128) (offL1 li c) S1x256x128.size (offL1_inb li c))).set
      = (halfOf hrM (offH li 0 (peer li 0 c)) (offH_inb li 0 (peer li 0 c))).view.set := by
  have e : offL1 li c = offH li 0 (peer li 0 c) := funext fun a => (land1 li c a).symm
  rw [hr_access_set, halfOf_hr_set, Rect.unit_congr e (offL1_inb li c) (offH_inb li 0 (peer li 0 c))]

theorem load2_set (c : Dev nD) (li : Fin 8) :
    (hrM.access (Rect.unit (s := S8x512x128) (offL2 li c) S1x256x128.size (offL2_inb li c))).set
      = (halfOf hrM (offH li 1 (peer li 1 c)) (offH_inb li 1 (peer li 1 c))).view.set := by
  have e : offL2 li c = offH li 1 (peer li 1 c) := funext fun a => (land2 li c a).symm
  rw [hr_access_set, halfOf_hr_set, Rect.unit_congr e (offL2_inb li c) (offH_inb li 1 (peer li 1 c))]

theorem offOst_eq_offO (li : Fin 8) (c : Dev nD) : offOst li c = offO li c :=
  funext fun a => (offOst_eq li c a).trans (offO_eq li c a).symm

theorem store_out_set (c : Dev nD) (li : Fin 8) :
    (oM.access (Rect.unit (s := S1024x1024) (offOst li c) S256x128.size (offOst_inb li c))).set
      = (blockOf oM (offO li c) (offO_inb li c)).view.set := by
  rw [o_access_set, blockOf_set, Rect.unit_congr (offOst_eq_offO li c) (offOst_inb li c) (offO_inb li c)]

theorem offO_peer3 : ∀ (li : Fin 8) (c : Dev nD) (a : Fin 2), offO li (peer li 3 c) a = offO5 li c a := by decide +kernel

theorem fwd_set (c : Dev nD) (li : Fin 8) :
    (blockOf oM (offO li (peer li 3 c)) (offO_inb li (peer li 3 c))).view.set = (blockOf oM (offO5 li c) (offO5_inb li c)).view.set := by
  have e : offO li (peer li 3 c) = offO5 li c := funext (offO_peer3 li c)
  rw [blockOf_set, blockOf_set, Rect.unit_congr e (offO_inb li (peer li 3 c)) (offO5_inb li c)]

theorem own_halves (c : Dev nD) (li : Fin 8) (f : Buf (Elt F) ((c : Thread nD τ).loc cc0_stg2_0)) :
    (((blockOf oM (offO li c) (offO_inb li c)).view.loc (c : Thread nD τ) ↦[(blockOf oM (offO li c) (offO_inb li c)).view.set]{fullShare} f) : sProp 𝕄) ⊣⊢
      iprop(((blockOf oM (offO li c) (offO_inb li c)).view.loc (c : Thread nD τ) ↦[(blockOf oM (offO li c) (offO_inb li c)).view.set]{fullShare.left} f)
        ∗ ((blockOf oM (offO li c) (offO_inb li c)).view.loc (c : Thread nD τ) ↦[(blockOf oM (offO li c) (offO_inb li c)).view.set]{fullShare.right} f)) :=
  pointsTo_share (PosShare.mem_left_op_right _)

theorem sep_bigSep {I : Type} (s : Finset I) (Φ Ψ : I → sProp 𝕄) :
    (iprop(bigSep s Φ ∗ bigSep s Ψ) : sProp 𝕄) = bigSep s fun i => iprop(Φ i ∗ Ψ i) := (bigSep_sep s Φ Ψ).symm

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

theorem bigSep_fin_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

theorem lane_eq_halves (li : Fin 8) {o0 o1 : Fin 3 → Nat} {r0 r1 : Nat}
    (h0 : ∀ a, o0 a = (![li.val, r0, 0] : Fin 3 → Nat) a) (h1 : ∀ a, o1 a = (![li.val, r1, 0] : Fin 3 → Nat) a)
    (hr : (r0 = 0 ∧ r1 = 256) ∨ (r0 = 256 ∧ r1 = 0))
    (i0 : ∀ a, o0 a + S1x256x128.size a ≤ S8x512x128.size a) (i1 : ∀ a, o1 a + S1x256x128.size a ≤ S8x512x128.size a) :
    (laneRectH li).set = (Rect.unit (s := S8x512x128) o0 S1x256x128.size i0).set ∪ (Rect.unit (s := S8x512x128) o1 S1x256x128.size i1).set := by
  ext i
  have hi : (i 1).val < 512 := (i 1).isLt
  rw [Finset.mem_union, mem_laneH, mem_half h0, mem_half h1]
  rcases hr with ⟨e0, e1⟩ | ⟨e0, e1⟩ <;> rw [e0, e1] <;> omega

theorem halves_disj (li : Fin 8) {o0 o1 : Fin 3 → Nat} {r0 r1 : Nat}
    (h0 : ∀ a, o0 a = (![li.val, r0, 0] : Fin 3 → Nat) a) (h1 : ∀ a, o1 a = (![li.val, r1, 0] : Fin 3 → Nat) a)
    (hr : (r0 = 0 ∧ r1 = 256) ∨ (r0 = 256 ∧ r1 = 0))
    (i0 : ∀ a, o0 a + S1x256x128.size a ≤ S8x512x128.size a) (i1 : ∀ a, o1 a + S1x256x128.size a ≤ S8x512x128.size a) :
    Disjoint (Rect.unit (s := S8x512x128) o0 S1x256x128.size i0).set (Rect.unit (s := S8x512x128) o1 S1x256x128.size i1).set := by
  rw [Finset.disjoint_left]
  intro i m0 m1
  rw [mem_half h0] at m0
  rw [mem_half h1] at m1
  rcases hr with ⟨e0, e1⟩ | ⟨e0, e1⟩ <;> rw [e0] at m0 <;> rw [e1] at m1 <;> omega

theorem halfRow_peer_cases : ∀ (li : Fin 8) (c : Dev nD),
    (halfRow li 0 (peer li 0 c) = 0 ∧ halfRow li 1 (peer li 1 c) = 256)
      ∨ (halfRow li 0 (peer li 0 c) = 256 ∧ halfRow li 1 (peer li 1 c) = 0) := by decide +kernel

theorem hr_lanes (c : Dev nD) (f : Buf (Elt F) ((c : Thread nD τ).loc cc0_scratch1)) :
    ((((c : Thread nD τ).loc cc0_scratch1) ↦{fullShare} f) : sProp 𝕄) ⊣⊢
      bigSep Finset.univ fun li : Fin 8 => ((c : Thread nD τ).loc cc0_scratch1) ↦[(hrM.access (laneRectH li)).set]{fullShare} f := by
  have h : ((((c : Thread nD τ).loc cc0_scratch1) ↦[Finset.univ.biUnion fun li : Fin 8 => (hrM.access (laneRectH li)).set]{fullShare} f) : sProp 𝕄)
      = bigSep Finset.univ fun li : Fin 8 => ((c : Thread nD τ).loc cc0_scratch1) ↦[(hrM.access (laneRectH li)).set]{fullShare} f :=
    pointsTo_biUnion Finset.univ _
      (fun li _ li' _ hne => by rw [hr_access_set, hr_access_set]; exact lanesH_disjoint li li' hne)
  simp only [hr_access_set] at h ⊢
  rw [← lanesH_cover] at h
  exact .of_eq h

theorem qr_lanes (c : Dev nD) (f : Buf (Elt F) ((c : Thread nD τ).loc cc0_scratch3)) :
    ((((c : Thread nD τ).loc cc0_scratch3) ↦{fullShare} f) : sProp 𝕄) ⊣⊢
      bigSep Finset.univ fun li : Fin 8 => ((c : Thread nD τ).loc cc0_scratch3) ↦[(qrM.access (laneRectQ li)).set]{fullShare} f := by
  have h : ((((c : Thread nD τ).loc cc0_scratch3) ↦[Finset.univ.biUnion fun li : Fin 8 => (qrM.access (laneRectQ li)).set]{fullShare} f) : sProp 𝕄)
      = bigSep Finset.univ fun li : Fin 8 => ((c : Thread nD τ).loc cc0_scratch3) ↦[(qrM.access (laneRectQ li)).set]{fullShare} f :=
    pointsTo_biUnion Finset.univ _
      (fun li _ li' _ hne => by rw [qr_access_set, qr_access_set]; exact lanesQ_disjoint li li' hne)
  simp only [qr_access_set] at h ⊢
  rw [← lanesQ_cover] at h
  exact .of_eq h

theorem hr_halves (c : Dev nD) (li : Fin 8) (f : Buf (Elt F) ((c : Thread nD τ).loc cc0_scratch1)) :
    ((((c : Thread nD τ).loc cc0_scratch1) ↦[(hrM.access (laneRectH li)).set]{fullShare} f) : sProp 𝕄) ⊣⊢
      iprop(((halfOf hrM (offH li 0 (peer li 0 c)) (offH_inb li 0 (peer li 0 c))).view.loc (c : Thread nD τ) ↦[(halfOf hrM (offH li 0 (peer li 0 c)) (offH_inb li 0 (peer li 0 c))).view.set]{fullShare} f)
        ∗ ((halfOf hrM (offH li 1 (peer li 1 c)) (offH_inb li 1 (peer li 1 c))).view.loc (c : Thread nD τ) ↦[(halfOf hrM (offH li 1 (peer li 1 c)) (offH_inb li 1 (peer li 1 c))).view.set]{fullShare} f)) := by
  rw [hr_access_set, halfOf_hr_set, halfOf_hr_set,
    lane_eq_halves li (offH_eq li 0 (peer li 0 c)) (offH_eq li 1 (peer li 1 c)) (halfRow_peer_cases li c)
      (offH_inb li 0 (peer li 0 c)) (offH_inb li 1 (peer li 1 c))]
  exact pointsTo_union (halves_disj li (offH_eq li 0 (peer li 0 c)) (offH_eq li 1 (peer li 1 c)) (halfRow_peer_cases li c) _ _)

def outOff (li : Fin 8) (c : Dev nD) : Fin 4 → Fin 2 → Nat
  | 0 => offO li c
  | 1 => offO li (peer li 3 c)
  | 2 => offO li (peer li 4 c)
  | 3 => offO5 li (peer li 5 c)
def outRow (li : Fin 8) (c : Dev nD) : Fin 4 → Nat :=
  ![qiRow li c, qiRow li (peer li 3 c), qiRow li (peer li 4 c), qoRow li (peer li 5 c)]

theorem outOff_eq : ∀ (li : Fin 8) (c : Dev nD) (j : Fin 4) (a : Fin 2), outOff li c j a = (![outRow li c j, col li] : Fin 2 → Nat) a := by decide +kernel
theorem outOff_inb : ∀ (li : Fin 8) (c : Dev nD) (j : Fin 4) (a : Fin 2), outOff li c j a + S256x128.size a ≤ S1024x1024.size a := by decide +kernel

theorem outRow_onto : ∀ (li : Fin 8) (c : Dev nD) (q : Fin 4), ∃ j, outRow li c j = q.val * 256 := by decide +kernel
theorem outRow_sep : ∀ (li : Fin 8) (c : Dev nD) (j j' : Fin 4), j ≠ j' →
    outRow li c j + 256 ≤ outRow li c j' ∨ outRow li c j' + 256 ≤ outRow li c j := by decide +kernel

theorem col_onto : ∀ q : Fin 8, ∃ li, col li = q.val * 128 := by decide
theorem col_sep : ∀ li li' : Fin 8, li ≠ li' → col li + 128 ≤ col li' ∨ col li' + 128 ≤ col li := by decide

theorem mem_block {off : Fin 2 → Nat} {r cc : Nat} (ho : ∀ a, off a = (![r, cc] : Fin 2 → Nat) a)
    (h : ∀ a, off a + S256x128.size a ≤ S1024x1024.size a) (i : S1024x1024.Idx) :
    i ∈ (Rect.unit (s := S1024x1024) off S256x128.size h).set ↔ (r ≤ (i 0).val ∧ (i 0).val < r + 256) ∧ (cc ≤ (i 1).val ∧ (i 1).val < cc + 128) := by
  rw [mem_unit2, ho 0, ho 1]
  simp only [Matrix.cons_val_zero, Matrix.cons_val_one, Matrix.head_cons]

abbrev outRect (c : Dev nD) (lj : Fin 8 × Fin 4) : Rect S1024x1024 :=
  Rect.unit (s := S1024x1024) (outOff lj.1 c lj.2) S256x128.size (outOff_inb lj.1 c lj.2)

theorem out_cover (c : Dev nD) : (Finset.univ : Finset S1024x1024.Idx) = Finset.univ.biUnion fun lj : Fin 8 × Fin 4 => (outRect c lj).set := by
  ext i
  simp only [Finset.mem_univ, Finset.mem_biUnion, true_and, true_iff]
  have h0 : (i 0).val < 1024 := (i 0).isLt
  have h1 : (i 1).val < 1024 := (i 1).isLt
  obtain ⟨li, hli⟩ := col_onto ⟨(i 1).val / 128, by omega⟩
  obtain ⟨j, hj⟩ := outRow_onto li c ⟨(i 0).val / 256, by omega⟩
  refine ⟨(li, j), ?_⟩
  rw [mem_block (outOff_eq li c j)]
  simp only at hli hj
  omega

theorem out_disjoint (c : Dev nD) (lj lj' : Fin 8 × Fin 4) (h : lj ≠ lj') : Disjoint (outRect c lj).set (outRect c lj').set := by
  rw [Finset.disjoint_left]
  intro i m0 m1
  rw [mem_block (outOff_eq lj.1 c lj.2)] at m0
  rw [mem_block (outOff_eq lj'.1 c lj'.2)] at m1
  by_cases hl : lj.1 = lj'.1
  · have hj : lj.2 ≠ lj'.2 := fun e => h (Prod.ext hl e)
    rw [← hl] at m1
    have := outRow_sep lj.1 c lj.2 lj'.2 hj
    omega
  · have := col_sep lj.1 lj'.1 hl
    omega

theorem out_split (c : Dev nD) (f : Buf (Elt F) ((c : Thread nD τ).loc cc0_stg2_0)) :
    ((((c : Thread nD τ).loc cc0_stg2_0) ↦{fullShare} f) : sProp 𝕄) =
      bigSep Finset.univ fun li : Fin 8 => bigSep Finset.univ fun j : Fin 4 =>
        (blockOf oM (outOff li c j) (outOff_inb li c j)).view.loc (c : Thread nD τ) ↦[(blockOf oM (outOff li c j) (outOff_inb li c j)).view.set]{fullShare} f := by
  have h : ((((c : Thread nD τ).loc cc0_stg2_0) ↦[Finset.univ.biUnion fun lj : Fin 8 × Fin 4 => (outRect c lj).set]{fullShare} f) : sProp 𝕄)
      = bigSep Finset.univ fun lj : Fin 8 × Fin 4 => ((c : Thread nD τ).loc cc0_stg2_0) ↦[(outRect c lj).set]{fullShare} f :=
    pointsTo_biUnion Finset.univ _ (fun lj _ lj' _ hne => out_disjoint c lj lj' hne)
  rw [← out_cover] at h
  rw [h, bigSep_univ_prod]
  refine bigSep_congr fun li _ => bigSep_congr fun j _ => ?_
  rw [blockOf_set]

theorem hs_split (c : Dev nD) (f : Buf (Elt F) ((c : Thread nD τ).loc cc0_scratch0)) :
    ((((c : Thread nD τ).loc cc0_scratch0) ↦{fullShare} f) : sProp 𝕄) =
      bigSep Finset.univ fun li : Fin 8 =>
        iprop(((halfOf hsM (offH li 0 c) (offH_inb li 0 c)).view.loc (c : Thread nD τ) ↦[(halfOf hsM (offH li 0 c) (offH_inb li 0 c)).view.set]{fullShare} f)
          ∗ ((halfOf hsM (offH li 1 c) (offH_inb li 1 c)).view.loc (c : Thread nD τ) ↦[(halfOf hsM (offH li 1 c) (offH_inb li 1 c)).view.set]{fullShare} f)) := by
  rw [BI.equiv_iff.mp ⟨(hs_lanes c f).1, (hs_lanes c f).2⟩]
  exact bigSep_congr fun li _ => BI.equiv_iff.mp ⟨(hs_halves c li f).1, (hs_halves c li f).2⟩

theorem hr_split (c : Dev nD) (f : Buf (Elt F) ((c : Thread nD τ).loc cc0_scratch1)) :
    ((((c : Thread nD τ).loc cc0_scratch1) ↦{fullShare} f) : sProp 𝕄) =
      bigSep Finset.univ fun li : Fin 8 =>
        iprop(((halfOf hrM (offH li 0 (peer li 0 c)) (offH_inb li 0 (peer li 0 c))).view.loc (c : Thread nD τ) ↦[(halfOf hrM (offH li 0 (peer li 0 c)) (offH_inb li 0 (peer li 0 c))).view.set]{fullShare} f)
          ∗ ((halfOf hrM (offH li 1 (peer li 1 c)) (offH_inb li 1 (peer li 1 c))).view.loc (c : Thread nD τ) ↦[(halfOf hrM (offH li 1 (peer li 1 c)) (offH_inb li 1 (peer li 1 c))).view.set]{fullShare} f)) := by
  rw [BI.equiv_iff.mp ⟨(hr_lanes c f).1, (hr_lanes c f).2⟩]
  exact bigSep_congr fun li _ => BI.equiv_iff.mp ⟨(hr_halves c li f).1, (hr_halves c li f).2⟩

theorem qs_split (c : Dev nD) (f : Buf (Elt F) ((c : Thread nD τ).loc cc0_scratch2)) :
    ((((c : Thread nD τ).loc cc0_scratch2) ↦{fullShare} f) : sProp 𝕄) =
      bigSep Finset.univ fun li : Fin 8 => (laneOf qsM li).view.loc (c : Thread nD τ) ↦[(laneOf qsM li).view.set]{fullShare} f := by
  rw [BI.equiv_iff.mp ⟨(qs_lanes c f).1, (qs_lanes c f).2⟩]
  exact bigSep_congr fun li _ => by rw [qs_lane_set]

theorem qr_split (c : Dev nD) (f : Buf (Elt F) ((c : Thread nD τ).loc cc0_scratch3)) :
    ((((c : Thread nD τ).loc cc0_scratch3) ↦{fullShare} f) : sProp 𝕄) =
      bigSep Finset.univ fun li : Fin 8 => (laneOf qrM li).view.loc (c : Thread nD τ) ↦[(laneOf qrM li).view.set]{fullShare} f := by
  rw [BI.equiv_iff.mp ⟨(qr_lanes c f).1, (qr_lanes c f).2⟩]
  exact bigSep_congr fun li _ => by rw [qr_lane_set]

def landAt (d e : Dev nD) (li : Fin 8) : Fin 6 → sProp 𝕄
  | 0 => iprop(∃ f, (halfOf hrM (offH li 0 e) (offH_inb li 0 e)).view.loc (d : Thread nD τ) ↦[(halfOf hrM (offH li 0 e) (offH_inb li 0 e)).view.set]{fullShare} f)
  | 1 => iprop(∃ f, (halfOf hrM (offH li 1 e) (offH_inb li 1 e)).view.loc (d : Thread nD τ) ↦[(halfOf hrM (offH li 1 e) (offH_inb li 1 e)).view.set]{fullShare} f)
  | 2 => iprop(∃ f, (laneOf qrM li).view.loc (d : Thread nD τ) ↦[(laneOf qrM li).view.set]{fullShare} f)
  | 3 => iprop(∃ f, (blockOf oM (offO li e) (offO_inb li e)).view.loc (d : Thread nD τ) ↦[(blockOf oM (offO li e) (offO_inb li e)).view.set]{fullShare} f)
  | 4 => iprop(∃ f, (blockOf oM (offO li e) (offO_inb li e)).view.loc (d : Thread nD τ) ↦[(blockOf oM (offO li e) (offO_inb li e)).view.set]{fullShare} f)
  | 5 => iprop(∃ f, (blockOf oM (offO5 li e) (offO5_inb li e)).view.loc (d : Thread nD τ) ↦[(blockOf oM (offO5 li e) (offO5_inb li e)).view.set]{fullShare} f)

theorem landFrom_eq (e : Dev nD) (li : Fin 8) (k : Fin 6) : landFrom (F := F) e li k = landAt (F := F) (peer li k e) e li k := by
  match k with
  | 0 => rfl
  | 1 => rfl
  | 2 => rfl
  | 3 => rfl
  | 4 => rfl
  | 5 => rfl

theorem barPays_eq (c : Dev nD) :
    (iprop(barPay (F := F) true (p1 c) ∗ barPay (F := F) false (p2 c)) : sProp 𝕄)
      = bigSep Finset.univ fun lk : LK => landAt (F := F) c (peer lk.1 lk.2 c) lk.1 lk.2 := by
  rw [bigSep_filter_split Finset.univ (fun lk : LK => toP1 lk.1 lk.2 = true)]
  have hf : (Finset.univ.filter fun lk : LK => ¬ toP1 lk.1 lk.2 = true) = copiesTo false :=
    Finset.filter_congr fun lk _ => by simp
  rw [hf]
  unfold barPay
  congr 1
  · refine bigSep_congr fun lk hlk => ?_
    have ht : toP1 lk.1 lk.2 = true := (Finset.mem_filter.mp hlk).2
    have hp : peer lk.1 lk.2 c = p1 c := by unfold peer; rw [if_pos ht]
    have hq : peer lk.1 lk.2 (p1 c) = c := by unfold peer; rw [if_pos ht]; exact p1_p1 c
    rw [landFrom_eq, hp, hq]
  · refine bigSep_congr fun lk hlk => ?_
    have ht : toP1 lk.1 lk.2 = false := (Finset.mem_filter.mp hlk).2
    have hp : peer lk.1 lk.2 c = p2 c := by unfold peer; rw [if_neg (by rw [ht]; decide)]
    have hq : peer lk.1 lk.2 (p2 c) = c := by unfold peer; rw [if_neg (by rw [ht]; decide)]; exact p2_p2 c
    rw [landFrom_eq, hp, hq]

theorem give_at (c : Dev nD) (fr : Buf (Elt F) ((c : Thread nD τ).loc cc0_scratch1))
    (fq : Buf (Elt F) ((c : Thread nD τ).loc cc0_scratch3)) (fo : Buf (Elt F) ((c : Thread nD τ).loc cc0_stg2_0)) :
    iprop((((c : Thread nD τ).loc cc0_scratch1) ↦{fullShare} fr) ∗ (((c : Thread nD τ).loc cc0_scratch3) ↦{fullShare} fq)
        ∗ (((c : Thread nD τ).loc cc0_stg2_0) ↦{fullShare} fo))
      ⊢ (iprop((bigSep Finset.univ fun lk : LK => landAt (F := F) c (peer lk.1 lk.2 c) lk.1 lk.2)
          ∗ bigSep Finset.univ fun li : Fin 8 => iprop(∃ f, (blockOf oM (offO li c) (offO_inb li c)).view.loc (c : Thread nD τ) ↦[(blockOf oM (offO li c) (offO_inb li c)).view.set]{fullShare} f)) : sProp 𝕄) := by
  rw [hr_split c fr, qr_split c fq, out_split c fo, bigSep_univ_prod, sep_bigSep, sep_bigSep, sep_bigSep]
  refine bigSep_mono fun li _ => ?_
  rw [bigSep_fin_four, bigSep_fin_six]
  dsimp only [landAt, outOff]
  refine (show BIBase.Entails (PROP := sProp 𝕄) _ _ from ?_)
  iintro ⟨⟨H0, H1⟩, Q, O0, O1, O2, O3⟩
  isplitr [O0]
  · isplitl [H0]; · iexists fr; iexact H0
    isplitl [H1]; · iexists fr; iexact H1
    isplitl [Q]; · iexists fq; iexact Q
    isplitl [O1]; · iexists fo; iexact O1
    isplitl [O2]; · iexists fo; iexact O2
    iexists fo; iexact O3
  · iexists fo; iexact O0

theorem barPays_back (c : Dev nD) :
    (bigSep Finset.univ fun lk : LK => landAt (F := F) c (peer lk.1 lk.2 c) lk.1 lk.2)
      ⊢ (iprop(barPay (F := F) true (p1 c) ∗ barPay (F := F) false (p2 c)) : sProp 𝕄) := by
  rw [barPays_eq c]

theorem give (c : Dev nD) :
    iprop((∃ f : Buf (Elt F) ((c : Thread nD τ).loc cc0_scratch1), ((c : Thread nD τ).loc cc0_scratch1) ↦{fullShare} f)
        ∗ (∃ f : Buf (Elt F) ((c : Thread nD τ).loc cc0_scratch3), ((c : Thread nD τ).loc cc0_scratch3) ↦{fullShare} f)
        ∗ (∃ f : Buf (Elt F) ((c : Thread nD τ).loc cc0_stg2_0), ((c : Thread nD τ).loc cc0_stg2_0) ↦{fullShare} f))
      ⊢ (iprop(barPay (F := F) true (p1 c) ∗ barPay (F := F) false (p2 c)
          ∗ bigSep Finset.univ fun li : Fin 8 => iprop(∃ f, (blockOf oM (offO li c) (offO_inb li c)).view.loc (c : Thread nD τ) ↦[(blockOf oM (offO li c) (offO_inb li c)).view.set]{fullShare} f)) : sProp 𝕄) := by
  iintro ⟨⟨%fr, Hr⟩, ⟨%fq, Hq⟩, ⟨%fo, Ho⟩⟩
  ihave H := (give_at c fr fq fo) $$ [Hr Hq Ho]
  · isplitl [Hr]; · iexact Hr
    isplitl [Hq]; · iexact Hq
    iexact Ho
  icases H with ⟨Hl, Hown⟩
  ihave Hl' := (barPays_back (F := F) c) $$ Hl
  icases Hl' with ⟨Ht, Hf⟩
  isplitl [Ht]; · iexact Ht
  isplitl [Hf]; · iexact Hf
  iexact Hown

def recvAt (d e : Dev nD) (li : Fin 8) : Fin 6 → sProp 𝕄
  | 0 => (halfOf hrM (offH li 0 e) (offH_inb li 0 e)).view.loc (d : Thread nD τ) ↦[(halfOf hrM (offH li 0 e) (offH_inb li 0 e)).view.set]{fullShare} X.hr d
  | 1 => (halfOf hrM (offH li 1 e) (offH_inb li 1 e)).view.loc (d : Thread nD τ) ↦[(halfOf hrM (offH li 1 e) (offH_inb li 1 e)).view.set]{fullShare} X.hr d
  | 2 => (laneOf qrM li).view.loc (d : Thread nD τ) ↦[(laneOf qrM li).view.set]{fullShare} X.qr d
  | 3 => (blockOf oM (offO li e) (offO_inb li e)).view.loc (d : Thread nD τ) ↦[(blockOf oM (offO li e) (offO_inb li e)).view.set]{fullShare} X.out d
  | 4 => (blockOf oM (offO li e) (offO_inb li e)).view.loc (d : Thread nD τ) ↦[(blockOf oM (offO li e) (offO_inb li e)).view.set]{fullShare} X.out d
  | 5 => (blockOf oM (offO5 li e) (offO5_inb li e)).view.loc (d : Thread nD τ) ↦[(blockOf oM (offO5 li e) (offO5_inb li e)).view.set]{fullShare} X.out d

theorem recvPayFrom_eq (e : Dev nD) (li : Fin 8) (k : Fin 6) : recvPayFrom X e li k = recvAt X (peer li k e) e li k := by
  match k with
  | 0 => rfl
  | 1 => rfl
  | 2 => rfl
  | 3 => rfl
  | 4 => rfl
  | 5 => rfl

theorem fwd_pt (c : Dev nD) (li : Fin 8) (f : Buf (Elt F) ((c : Thread nD τ).loc cc0_stg2_0)) :
    (((blockOf oM (offO5 li c) (offO5_inb li c)).view.loc (c : Thread nD τ) ↦[(blockOf oM (offO5 li c) (offO5_inb li c)).view.set]{fullShare} f) : sProp 𝕄)
      ⊢ ((blockOf oM (offO li (peer li 3 c)) (offO_inb li (peer li 3 c))).view.loc (c : Thread nD τ) ↦[(blockOf oM (offO li (peer li 3 c)) (offO_inb li (peer li 3 c))).view.set]{fullShare} f) := by
  rw [fwd_set]

theorem take (c : Dev nD) :
    iprop((bigSep (Finset.univ.filter fun lk : LK => lk.2 ≠ 3) fun lk => recvPayFrom X (peer lk.1 lk.2 c) lk.1 lk.2)
        ∗ bigSep Finset.univ fun lk : LK => sendPay X c lk.1 lk.2)
      ⊢ (iprop((((c : Thread nD τ).loc cc0_scratch0) ↦{fullShare} X.hs c) ∗ (((c : Thread nD τ).loc cc0_scratch1) ↦{fullShare} X.hr c)
          ∗ (((c : Thread nD τ).loc cc0_scratch2) ↦{fullShare} X.qs c) ∗ (((c : Thread nD τ).loc cc0_scratch3) ↦{fullShare} X.qr c)
          ∗ (((c : Thread nD τ).loc cc0_stg2_0) ↦{fullShare} X.out c)) : sProp 𝕄) := by
  have hrecv : (bigSep (Finset.univ.filter fun lk : LK => lk.2 ≠ 3) fun lk => recvPayFrom X (peer lk.1 lk.2 c) lk.1 lk.2)
      = bigSep (Finset.univ.filter fun lk : LK => lk.2 ≠ 3) fun lk => recvAt X c (peer lk.1 lk.2 c) lk.1 lk.2 :=
    bigSep_congr fun lk _ => by rw [recvPayFrom_eq, peer_peer]
  rw [hrecv, bigSep_filter, bigSep_univ_prod, bigSep_univ_prod, sep_bigSep,
    hs_split c (X.hs c), hr_split c (X.hr c), qs_split c (X.qs c), qr_split c (X.qr c), out_split c (X.out c),
    sep_bigSep, sep_bigSep, sep_bigSep, sep_bigSep]
  refine bigSep_mono fun li _ => ?_
  rw [bigSep_fin_four, bigSep_fin_six, bigSep_fin_six]
  dsimp only [recvAt, sendPay, outOff]
  simp only [ne_eq, Fin.reduceEq, not_false_eq_true, not_true_eq_false, ↓reduceIte]
  refine (show BIBase.Entails (PROP := sProp 𝕄) _ _ from ?_)
  iintro ⟨⟨R0, R1, R2, -, R4, R5⟩, S0, S1, S2, S3, S4, S5⟩
  isplitl [S0 S1]
  · isplitl [S0]; · iexact S0
    iexact S1
  isplitl [R0 R1]
  · isplitl [R0]; · iexact R0
    iexact R1
  isplitl [S2]; · iexact S2
  isplitl [R2]; · iexact R2
  isplitl [S3 S4]
  · iapply (own_halves (F := F) c li (X.out c)).2
    isplitl [S3]; · iexact S3
    iexact S4
  isplitl [S5]; · iapply (fwd_pt (F := F) c li (X.out c)); iexact S5
  isplitl [R4]; · iexact R4
  iexact R5

end Cert.KernelIdeal.Regions

end
-- ==== Proof.Close.lean ====
import proofs.«900880_g7700000000000881_dist_matmul_gelu_kshard_i_m1024_n1024_k512_v7x_i4_bf16_1_alg».proof.Proof.Ghost
import proofs.«900880_g7700000000000881_dist_matmul_gelu_kshard_i_m1024_n1024_k512_v7x_i4_bf16_1_alg».proof.Proof.SchedTab

noncomputable section

namespace Cert.KernelIdeal.Close

open Cert.KernelIdeal Cert.KernelIdeal.Gen Cert.KernelIdeal.Tab Cert.KernelIdeal.Proto Cert.KernelIdeal.Cells Cert.KernelIdeal.Sched
open Cert.KernelIdeal.SchedTab Cert.KernelIdeal.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Conts F)

theorem close_one (κ : ℕ) (g : GSem nD τ sig) :
    iprop(cellInv ER (sch X) κ g ∗ atPos ER g 1 ∅ 0) ⊢ (|={Set.univ}=> semVal g 0 : sProp 𝕄) :=
  Rounds.cell_close ER (sch X) (Set.mem_univ κ) (fun h => h) (R := 0 + 1) (duties_later X g)

theorem close_sends (K : Dev nD × Ck → ℕ) (c : Dev nD) :
    iprop((bigSep Finset.univ fun j : Ck => cellInv ER (sch X) (K (c, j)) (kcell (c, j)))
        ∗ bigSep Finset.univ fun lk : LK => atPos ER (sendCell c lk.1 lk.2) 1 ∅ 0)
      ⊢ (|={Set.univ}=> bigSep Finset.univ fun lk : LK => semVal (sendCell c lk.1 lk.2) 0 : sProp 𝕄) := by
  have h1 : (bigSep Finset.univ fun j : Ck => cellInv ER (sch X) (K (c, j)) (kcell (c, j)) : sProp 𝕄)
      ⊢ bigSep Finset.univ fun lk : LK => cellInv ER (sch X) (K (c, some (false, lk.1, lk.2))) (sendCell c lk.1 lk.2) :=
    bigSep_intro_persistent fun lk _ => bigSep_elim (Finset.mem_univ (some (false, lk.1, lk.2) : Ck))
  refine (sep_mono_left h1).trans ?_
  rw [← bigSep_sep']
  exact (bigSep_mono fun lk _ => close_one X _ _).trans (bigSep_fupd _ _)

theorem close_recvs (K : Dev nD × Ck → ℕ) (c : Dev nD) :
    iprop((bigSep Finset.univ fun j : Ck => cellInv ER (sch X) (K (c, j)) (kcell (c, j)))
        ∗ bigSep Finset.univ fun lk : LK => atPos ER (recvCell c lk.1 lk.2) 1 ∅ 0)
      ⊢ (|={Set.univ}=> bigSep Finset.univ fun lk : LK => semVal (recvCell c lk.1 lk.2) 0 : sProp 𝕄) := by
  have h1 : (bigSep Finset.univ fun j : Ck => cellInv ER (sch X) (K (c, j)) (kcell (c, j)) : sProp 𝕄)
      ⊢ bigSep Finset.univ fun lk : LK => cellInv ER (sch X) (K (c, some (true, lk.1, lk.2))) (recvCell c lk.1 lk.2) :=
    bigSep_intro_persistent fun lk _ => bigSep_elim (Finset.mem_univ (some (true, lk.1, lk.2) : Ck))
  refine (sep_mono_left h1).trans ?_
  rw [← bigSep_sep']
  exact (bigSep_mono fun lk _ => close_one X _ _).trans (bigSep_fupd _ _)

theorem close_all (K : Dev nD × Ck → ℕ) (c : Dev nD) :
    iprop((bigSep Finset.univ fun j : Ck => cellInv ER (sch X) (K (c, j)) (kcell (c, j)))
        ∗ (bigSep Finset.univ fun lk : LK => atPos ER (sendCell c lk.1 lk.2) 1 ∅ 0) ∗ (bigSep Finset.univ fun lk : LK => atPos ER (recvCell c lk.1 lk.2) 1 ∅ 0))
      ⊢ (|={Set.univ}=> iprop((bigSep Finset.univ fun lk : LK => semVal (sendCell c lk.1 lk.2) 0) ∗ bigSep Finset.univ fun lk : LK => semVal (recvCell c lk.1 lk.2) 0) : sProp 𝕄) := by
  iintro ⟨#HI, HAs, HAr⟩
  imod (close_sends X K c) $$ [HAs] with HZs
  · isplitr
    · iexact HI
    · iexact HAs
  imod (close_recvs X K c) $$ [HAr] with HZr
  · isplitr
    · iexact HI
    · iexact HAr
  imodintro
  isplitl [HZs]
  · iexact HZs
  · iexact HZr

end Cert.KernelIdeal.Close

end
-- ==== Proof.Finish.lean ====
import proofs.«900880_g7700000000000881_dist_matmul_gelu_kshard_i_m1024_n1024_k512_v7x_i4_bf16_1_alg».proof.Proof.BodyPre
import proofs.«900880_g7700000000000881_dist_matmul_gelu_kshard_i_m1024_n1024_k512_v7x_i4_bf16_1_alg».proof.Proof.Regions
import proofs.«900880_g7700000000000881_dist_matmul_gelu_kshard_i_m1024_n1024_k512_v7x_i4_bf16_1_alg».proof.Proof.Close

noncomputable section

namespace Cert.KernelIdeal.Finish

open Cert.KernelIdeal Cert.KernelIdeal.Gen Cert.KernelIdeal.Tab Cert.KernelIdeal.Proto Cert.KernelIdeal.Cells Cert.KernelIdeal.Sched
open Cert.KernelIdeal.SchedTab Cert.KernelIdeal.Ghost Cert.KernelIdeal.Body Cert.KernelIdeal.Regions Cert.KernelIdeal.Close

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (X : Conts F)

theorem bigSep_recv_no3 (Φ : LK → sProp 𝕄) : bigSep (Finset.univ.filter fun lk : LK => lk.2 ≠ 3) Φ
    = iprop(Φ (0, 0) ∗ Φ (0, 1) ∗ Φ (0, 2) ∗ Φ (0, 4) ∗ Φ (0, 5) ∗ Φ (1, 0) ∗ Φ (1, 1) ∗ Φ (1, 2) ∗ Φ (1, 4) ∗ Φ (1, 5) ∗ Φ (2, 0) ∗ Φ (2, 1) ∗ Φ (2, 2) ∗ Φ (2, 4) ∗ Φ (2, 5) ∗ Φ (3, 0) ∗ Φ (3, 1) ∗ Φ (3, 2) ∗ Φ (3, 4) ∗ Φ (3, 5) ∗ Φ (4, 0) ∗ Φ (4, 1) ∗ Φ (4, 2) ∗ Φ (4, 4) ∗ Φ (4, 5) ∗ Φ (5, 0) ∗ Φ (5, 1) ∗ Φ (5, 2) ∗ Φ (5, 4) ∗ Φ (5, 5) ∗ Φ (6, 0) ∗ Φ (6, 1) ∗ Φ (6, 2) ∗ Φ (6, 4) ∗ Φ (6, 5) ∗ Φ (7, 0) ∗ Φ (7, 1) ∗ Φ (7, 2) ∗ Φ (7, 4) ∗ Φ (7, 5)) := by
  rw [bigSep_eq_bigSepL_of_eq [(0, 0), (0, 1), (0, 2), (0, 4), (0, 5), (1, 0), (1, 1), (1, 2), (1, 4), (1, 5), (2, 0), (2, 1), (2, 2), (2, 4), (2, 5), (3, 0), (3, 1), (3, 2), (3, 4), (3, 5), (4, 0), (4, 1), (4, 2), (4, 4), (4, 5), (5, 0), (5, 1), (5, 2), (5, 4), (5, 5), (6, 0), (6, 1), (6, 2), (6, 4), (6, 5), (7, 0), (7, 1), (7, 2), (7, 4), (7, 5)] (by decide) (by decide) Φ]
  simp only [bigSepL_cons_cons, bigSepL_singleton]
  rfl

theorem finish_of
    (htake : ∀ c : Dev nD, iprop((bigSep (Finset.univ.filter fun lk : LK => lk.2 ≠ 3) fun lk => recvPayFrom X (peer lk.1 lk.2 c) lk.1 lk.2)
        ∗ bigSep Finset.univ fun lk : LK => sendPay X c lk.1 lk.2)
      ⊢ (iprop((((c : Thread nD τ).loc cc0_scratch0) ↦{fullShare} X.hs c) ∗ (((c : Thread nD τ).loc cc0_scratch1) ↦{fullShare} X.hr c)
          ∗ (((c : Thread nD τ).loc cc0_scratch2) ↦{fullShare} X.qs c) ∗ (((c : Thread nD τ).loc cc0_scratch3) ↦{fullShare} X.qr c)
          ∗ (((c : Thread nD τ).loc cc0_stg2_0) ↦{fullShare} X.out c)) : sProp 𝕄))
    (K : Dev nD × Ck → ℕ) (c : Dev nD) (W : Waits sig Unit) :
    iprop((bigSep Finset.univ fun j : Ck => cellInv ER (sch X) (K (c, j)) (kcell (c, j)))
        ∗ (bigSep Finset.univ fun lk : LK => atPos ER (sendCell c lk.1 lk.2) 1 ∅ 0) ∗ (bigSep Finset.univ fun lk : LK => atPos ER (recvCell c lk.1 lk.2) 1 ∅ 0)
        ∗ (bigSep (Finset.univ.filter fun lk : LK => lk.2 ≠ 3) fun lk => recvPayFrom X (peer lk.1 lk.2 c) lk.1 lk.2) ∗ (bigSep Finset.univ fun lk : LK => sendPay X c lk.1 lk.2)
        ∗ owes (c : Thread nD τ) 0 W
        ∗ (((c : Thread nD τ).loc cc0_stg0_0) ↦{fullShare} astg m ρ c) ∗ (((c : Thread nD τ).loc cc0_stg1_0) ↦{fullShare} bstg m ρ c))
      ⊢ (|={Set.univ}=> bodyPost m ρ X c : sProp 𝕄) := by
  iintro ⟨HI, HAs, HAr, HR, HS, HO, HA, HB⟩
  imod (close_all X K c) $$ [HI HAs HAr] with HZ
  · isplitl [HI]
    · iexact HI
    isplitl [HAs]
    · iexact HAs
    · iexact HAr
  icases HZ with ⟨HZs, HZr⟩
  ihave Hbuf := (htake c) $$ [HR HS]
  · isplitl [HR]
    · iexact HR
    · iexact HS
  icases Hbuf with ⟨Hhs, Hhr, Hqs, Hqr, Hout⟩
  imodintro
  unfold bodyPost Φ₁ scratch Dat.owesAt Pipeline.owesWithin
  rw [show (dats m ρ X 0 c).owed t₀.succ = 0 from rfl]
  isplitl [Hhs Hhr Hqs Hqr HZs HZr]
  · isplitl [Hhs Hhr Hqs Hqr]
    · isplitl [Hhs]
      · iexists _; iexact Hhs
      isplitl [Hhr]
      · iexists _; iexact Hhr
      isplitl [Hqs]
      · iexists _; iexact Hqs
      · iexists _; iexact Hqr
    · isplitl [HZs]
      · iexact HZs
      · iexact HZr
  isplitl [HO]
  · iexists W
    isplitr
    · ipureintro; exact fun _ _ => Or.inl trivial
    · iexact HO
  isplitl [HA]
  · iexists _
    isplitr
    · ipureintro; rfl
    · iexact HA
  isplitl [HB]
  · iexists _
    isplitr
    · ipureintro; rfl
    · iexact HB
  iexists _
  isplitr
  · ipureintro; rfl
  · iexact Hout

theorem finish (K : Dev nD × Ck → ℕ) (c : Dev nD) (W : Waits sig Unit) :
    iprop((bigSep Finset.univ fun j : Ck => cellInv ER (sch X) (K (c, j)) (kcell (c, j)))
        ∗ (bigSep Finset.univ fun lk : LK => atPos ER (sendCell c lk.1 lk.2) 1 ∅ 0) ∗ (bigSep Finset.univ fun lk : LK => atPos ER (recvCell c lk.1 lk.2) 1 ∅ 0)
        ∗ (bigSep (Finset.univ.filter fun lk : LK => lk.2 ≠ 3) fun lk => recvPayFrom X (peer lk.1 lk.2 c) lk.1 lk.2) ∗ (bigSep Finset.univ fun lk : LK => sendPay X c lk.1 lk.2)
        ∗ owes (c : Thread nD τ) 0 W
        ∗ (((c : Thread nD τ).loc cc0_stg0_0) ↦{fullShare} astg m ρ c) ∗ (((c : Thread nD τ).loc cc0_stg1_0) ↦{fullShare} bstg m ρ c))
      ⊢ (|={Set.univ}=> bodyPost m ρ X c : sProp 𝕄) :=
  finish_of m ρ X (take X) K c W

end Cert.KernelIdeal.Finish

end
-- ==== Proof.Sends.lean ====
import proofs.«900880_g7700000000000881_dist_matmul_gelu_kshard_i_m1024_n1024_k512_v7x_i4_bf16_1_alg».proof.Proof.SchedTab
import proofs.«900880_g7700000000000881_dist_matmul_gelu_kshard_i_m1024_n1024_k512_v7x_i4_bf16_1_alg».proof.Proof.Owes

noncomputable section

namespace Cert.KernelIdeal.Sends

open Cert.KernelIdeal Cert.KernelIdeal.Gen Cert.KernelIdeal.Tab Cert.KernelIdeal.Proto Cert.KernelIdeal.Cells Cert.KernelIdeal.Sched
open Cert.KernelIdeal.SchedTab Cert.KernelIdeal.Ghost Cert.KernelIdeal.Owes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Conts F)

theorem wp_send (c : Dev nD) (li : Fin 8) (kk : Fin 6) (n : Dev nD) (hn : n = peer li kk c)
    {src dst : Memref sig .tc .vmem S256x128 .bf16} {q : PosShare TreeShare}
    {fs : Buf (Elt F) (src.view.loc (c : Thread nD τ))} {fr : Buf (Elt F) (dst.view.loc (peer li kk c : Thread nD τ))}
    (hps : sendPay X c li kk = (src.view.loc (c : Thread nD τ) ↦[src.view.set]{q} fs))
    (hpr : recvPayFrom X c li kk = (dst.view.loc (peer li kk c : Thread nD τ) ↦[dst.view.set]{fullShare} fr))
    (hN : dst.view.amount (.dma (recvSem li kk)) = N)
    {hsc : (dst : Memref sig (Dev.tc n : Thread nD τ).2.kind .vmem S256x128 .bf16).view.ref.isScScratch = false}
    {hsrc : src.view.WordExact} {hdst : dst.view.WordExact}
    {hsem : DmaTarget.Typed .vmem (.dma (recvSem li kk)) (.remote (Dev.tc n : Thread nD τ) dst (.dma (sendSem li kk)) hsc)}
    {α : Type} {Q : α → sProp 𝕄} {k : PUnit → Prog (TpuEff nD τ sig (Elt F) Λ₀ .tc) α}
    (κ₁ κ₂ : ℕ) (fd : Buf (Elt F) (dst.view.loc (peer li kk c : Thread nD τ))) (S : Finset LK) (hS : (li, kk) ∈ S) (W : Waits sig Unit)
    (hland : ∀ i ∈ dst.view.set, (dst.view.write (Elt F) fd (src.view.read (Elt F) fs) Finset.univ) i = fr i) :
    iprop(cellInv ER (sch X) κ₁ (sendCell c li kk) ∗ cellInv ER (sch X) κ₂ (recvCell (peer li kk c) li kk)
        ∗ (src.view.loc (c : Thread nD τ) ↦[src.view.set]{q} fs)
        ∗ (dst.view.loc (peer li kk c : Thread nD τ) ↦[dst.view.set]{fullShare} fd)
        ∗ owes (c : Thread nD τ) (owedOf c S) W
        ∗ dutyTok ER (sendCell c li kk) 0 false ∗ reached ER (sendCell c li kk) 0
        ∗ dutyTok ER (recvCell (peer li kk c) li kk) 0 false ∗ reached ER (recvCell (peer li kk c) li kk) 0)
      ⊢ iprop(((cred (tallyAt (sendCell c li kk) () N) ∗ owes (c : Thread nD τ) (owedOf c (S.erase (li, kk))) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendSem li kk)) hsc) (.dma (recvSem li kk)) hsrc hdst hsem) k) Q) := by
  subst hn
  exact Rounds.wp_send_pointsTo 𝒱₀ ER (sch X) (c : Thread nD τ) none (κ₁ := κ₁) (κ₂ := κ₂)
    (c' := (peer li kk c : Thread nD τ)) (src := src) (dst := dst) (q := q) (fs := fs)
    (r₁ := 0) (r₂ := 0) (d₁ := false) (d₂ := false) (fd := fd)
    (by rw [duties_send]; exact Finset.mem_singleton_self _) (by rw [duties_recv]; exact Finset.mem_singleton_self _)
    () () N hN (amount_send X c li kk false) (amount_recv X (peer li kk c) li kk false)
    (owedOf c (S.erase (li, kk))) (owedOf_erase c S hS) (W := W)
    (by rw [payload_send, hps])
    (by rw [payload_recv_peer, hpr, pointsTo_congr hland])

end Cert.KernelIdeal.Sends

end
-- ==== Proof.PayEq.lean ====
import proofs.«900880_g7700000000000881_dist_matmul_gelu_kshard_i_m1024_n1024_k512_v7x_i4_bf16_1_alg».proof.Proof.Gen.KernelIdeal.Skeleton

noncomputable section

namespace Cert.KernelIdeal.PayEq

open Cert.KernelIdeal Cert.KernelIdeal.Gen Idealize.ShloMosaic

variable {F : FTy → Type} [FloatOps F]

section Half
variable (a : Vec F S512x512 .f32) (b : Vec F S512x128 .f32)
theorem h1 : k0_pay2 a b = k0_pay1 a b := rfl
theorem h2 : k0_pay3 a b = k0_pay1 a b := rfl
end Half

section Quarter
variable (a : Vec F S256x512 .f32) (b : Vec F S512x128 .f32) (w : Vec F S1x256x128 .bf16)
end Quarter

section Block
variable (a : Vec F S256x512 .f32) (b : Vec F S512x128 .f32) (w u : Vec F S1x256x128 .bf16)
theorem o1 : k0_pay43 (k0_pay42 (k0_pay20 a b) w) u = k0_pay41 (k0_pay40 (k0_pay19 a b) w) u := rfl
theorem o2 : k0_pay45 (k0_pay44 (k0_pay23 (k0_pay21 a) (k0_pay22 b)) w) u = k0_pay41 (k0_pay40 (k0_pay19 a b) w) u := rfl
theorem o3 : k0_pay47 (k0_pay46 (k0_pay24 a b) w) u = k0_pay41 (k0_pay40 (k0_pay19 a b) w) u := rfl
theorem o4 : k0_pay51 (k0_pay49 (k0_pay25 a b) w u) (k0_pay50 (k0_pay25 a b) w u) = k0_pay41 (k0_pay40 (k0_pay19 a b) w) u := rfl
theorem o5 : k0_pay53 (k0_pay52 (k0_pay26 a b) w) u = k0_pay41 (k0_pay40 (k0_pay19 a b) w) u := rfl
theorem o6 : k0_pay55 (k0_pay54 (k0_pay27 a b) w) u = k0_pay41 (k0_pay40 (k0_pay19 a b) w) u := rfl
theorem o7 : k0_pay57 (k0_pay56 (k0_pay30 (k0_pay28 a) (k0_pay29 b)) w) u = k0_pay41 (k0_pay40 (k0_pay19 a b) w) u := rfl
end Block

end Cert.KernelIdeal.PayEq

end
-- ==== Proof.Steps.lean ====
import proofs.«900880_g7700000000000881_dist_matmul_gelu_kshard_i_m1024_n1024_k512_v7x_i4_bf16_1_alg».proof.Proof.Sends
import proofs.«900880_g7700000000000881_dist_matmul_gelu_kshard_i_m1024_n1024_k512_v7x_i4_bf16_1_alg».proof.Proof.Contents
import proofs.«900880_g7700000000000881_dist_matmul_gelu_kshard_i_m1024_n1024_k512_v7x_i4_bf16_1_alg».proof.Proof.Regions
import proofs.«900880_g7700000000000881_dist_matmul_gelu_kshard_i_m1024_n1024_k512_v7x_i4_bf16_1_alg».proof.Proof.PayEq

noncomputable section

namespace Cert.KernelIdeal.Steps

open Cert.KernelIdeal Cert.KernelIdeal.Gen Cert.KernelIdeal.Tab Cert.KernelIdeal.Proto Cert.KernelIdeal.Cells Cert.KernelIdeal.Sched
open Cert.KernelIdeal.SchedTab Cert.KernelIdeal.Ghost Cert.KernelIdeal.Owes
open Cert.KernelIdeal.Contents (conts)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem send_c (K : Dev nD × Ck → ℕ) (c : Dev nD) (li : Fin 8) (kk : Fin 6) (n : Dev nD) (hn : n = peer li kk c)
    {src dst : Memref sig .tc .vmem S256x128 .bf16} {q : PosShare TreeShare}
    {fs : Buf (Elt F) (src.view.loc (c : Thread nD τ))} {fr : Buf (Elt F) (dst.view.loc (peer li kk c : Thread nD τ))}
    (hps : sendPay (conts m ρ) c li kk = (src.view.loc (c : Thread nD τ) ↦[src.view.set]{q} fs))
    (hlf : landFrom (F := F) c li kk = iprop(∃ f, dst.view.loc (peer li kk c : Thread nD τ) ↦[dst.view.set]{fullShare} f))
    (hpr : recvPayFrom (conts m ρ) c li kk = (dst.view.loc (peer li kk c : Thread nD τ) ↦[dst.view.set]{fullShare} fr))
    (hN : dst.view.amount (.dma (recvSem li kk)) = N)
    (hland : ∀ fd, ∀ i ∈ dst.view.set, (dst.view.write (Elt F) fd (src.view.read (Elt F) fs) Finset.univ) i = fr i)
    {hsc : (dst : Memref sig (Dev.tc n : Thread nD τ).2.kind .vmem S256x128 .bf16).view.ref.isScScratch = false}
    {hsrc : src.view.WordExact} {hdst : dst.view.WordExact}
    {hsem : DmaTarget.Typed .vmem (.dma (recvSem li kk)) (.remote (Dev.tc n : Thread nD τ) dst (.dma (sendSem li kk)) hsc)}
    {α : Type} {Q : α → sProp 𝕄} {k : PUnit → Prog (TpuEff nD τ sig (Elt F) Λ₀ .tc) α}
    (S : Finset LK) (hS : (li, kk) ∈ S) (W : Waits sig Unit) :
    (bigSep Finset.univ fun j : Ck => cellInv ER (sch (conts m ρ)) (K (c, j)) (kcell (c, j)) : sProp 𝕄)
      ⊢ iprop((bigSep Finset.univ fun lk : LK => cellInv ER (sch (conts m ρ)) (K (peer lk.1 lk.2 c, some (true, lk.1, lk.2))) (recvCell (peer lk.1 lk.2 c) lk.1 lk.2))
          -∗ sendPay (conts m ρ) c li kk -∗ landFrom (F := F) c li kk -∗ owes (c : Thread nD τ) (owedOf c S) W
          -∗ dutyTok ER (sendCell c li kk) 0 false -∗ reached ER (sendCell c li kk) 0
          -∗ dutyTok ER (recvCell (peer li kk c) li kk) 0 false -∗ reached ER (recvCell (peer li kk c) li kk) 0
          -∗ ((cred (tallyAt (sendCell c li kk) () N) ∗ owes (c : Thread nD τ) (owedOf c (S.erase (li, kk))) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendSem li kk)) hsc) (.dma (recvSem li kk)) hsrc hdst hsem) k) Q) := by
  have hI2 : (bigSep Finset.univ fun lk : LK => cellInv ER (sch (conts m ρ)) (K (peer lk.1 lk.2 c, some (true, lk.1, lk.2))) (recvCell (peer lk.1 lk.2 c) lk.1 lk.2) : sProp 𝕄)
      ⊢ cellInv ER (sch (conts m ρ)) (K (peer li kk c, some (true, li, kk))) (recvCell (peer li kk c) li kk) :=
    bigSep_elim (Finset.mem_univ ((li, kk) : LK))
  have hI1 : (bigSep Finset.univ fun j : Ck => cellInv ER (sch (conts m ρ)) (K (c, j)) (kcell (c, j)) : sProp 𝕄)
      ⊢ cellInv ER (sch (conts m ρ)) (K (c, some (false, li, kk))) (sendCell c li kk) := bigSep_elim (Finset.mem_univ (some (false, li, kk) : Ck))
  rw [hps, hlf]
  iintro HI HIs Hsrc ⟨%fd, Hd⟩ Ho Ht1 Hr1 Ht2 Hr2
  ihave HI1 := hI1 $$ HI
  ihave HI2 := hI2 $$ HIs
  iapply (Sends.wp_send (conts m ρ) c li kk n hn hps hpr hN (K (c, some (false, li, kk))) (K (peer li kk c, some (true, li, kk))) fd S hS W (hland fd))
  isplitl [HI1]; · iexact HI1
  isplitl [HI2]; · iexact HI2
  isplitl [Hsrc]; · iexact Hsrc
  isplitl [Hd]; · iexact Hd
  isplitl [Ho]; · iexact Ho
  isplitl [Ht1]; · iexact Ht1
  isplitl [Hr1]; · iexact Hr1
  isplitl [Ht2]; · iexact Ht2
  iexact Hr2

theorem carve_hs (c : Dev nD) (li : Fin 8) (g : Buf (Elt F) ((c : Thread nD τ).loc cc0_scratch0))
    (hg : ∀ i ∈ (hsM.access (Regions.laneRectH li)).set, g i = (conts m ρ).hs c i) :
    ((((c : Thread nD τ).loc cc0_scratch0) ↦[(hsM.access (Regions.laneRectH li)).set]{fullShare} g) : sProp 𝕄)
      ⊢ iprop(sendPay (conts m ρ) c li 0 ∗ sendPay (conts m ρ) c li 1) := by
  rw [pointsTo_congr hg]
  exact (Regions.hs_halves c li ((conts m ρ).hs c)).1

theorem carve_qs (c : Dev nD) (li : Fin 8) (g : Buf (Elt F) ((c : Thread nD τ).loc cc0_scratch2))
    (hg : ∀ i ∈ (qsM.access (Regions.laneRectQ li)).set, g i = (conts m ρ).qs c i) :
    ((((c : Thread nD τ).loc cc0_scratch2) ↦[(qsM.access (Regions.laneRectQ li)).set]{fullShare} g) : sProp 𝕄)
      ⊢ sendPay (conts m ρ) c li 2 := by
  rw [pointsTo_congr hg, Regions.qs_lane_set]
  exact BI.Entails.refl _

theorem carve_out (c : Dev nD) (li : Fin 8) (g : Buf (Elt F) ((c : Thread nD τ).loc cc0_stg2_0))
    (hg : ∀ i ∈ (blockOf oM (offO li c) (offO_inb li c)).view.set, g i = (conts m ρ).out c i) :
    (((blockOf oM (offO li c) (offO_inb li c)).view.loc (c : Thread nD τ) ↦[(blockOf oM (offO li c) (offO_inb li c)).view.set]{fullShare} g) : sProp 𝕄)
      ⊢ iprop(sendPay (conts m ρ) c li 3 ∗ sendPay (conts m ρ) c li 4) := by
  rw [pointsTo_congr hg]
  exact (Regions.own_halves c li ((conts m ρ).out c)).1

theorem fwd5 (c : Dev nD) (li : Fin 8) : recvPayFrom (conts m ρ) (peer li 3 c) li 3 ⊢ sendPay (conts m ρ) c li 5 := by
  rw [Regions.recvPayFrom_eq, peer_peer]
  dsimp only [Regions.recvAt, sendPay]
  rw [Regions.fwd_set]

theorem recv0_load (c : Dev nD) (li : Fin 8) :
    recvPayFrom (conts m ρ) (peer li 0 c) li 0 ⊣⊢
      (((hrM.slice (Rect.unit (s := S8x512x128) (offL1 li c) S1x256x128.size (Regions.offL1_inb li c)) (fun _ => rfl)).view.loc (c : Thread nD τ)
        ↦[(hrM.slice (Rect.unit (s := S8x512x128) (offL1 li c) S1x256x128.size (Regions.offL1_inb li c)) (fun _ => rfl)).view.set]{fullShare} (conts m ρ).hr c) : sProp 𝕄) := by
  refine BIBase.BiEntails.of_eq ?_
  rw [Regions.recvPayFrom_eq, peer_peer]
  dsimp only [Regions.recvAt]
  show _ = ((hrM.access (Rect.unit (s := S8x512x128) (offL1 li c) S1x256x128.size (Regions.offL1_inb li c))).loc (c : Thread nD τ)
    ↦[(hrM.access (Rect.unit (s := S8x512x128) (offL1 li c) S1x256x128.size (Regions.offL1_inb li c))).set]{fullShare} (conts m ρ).hr c)
  rw [Regions.load1_set]

theorem recv1_load (c : Dev nD) (li : Fin 8) :
    recvPayFrom (conts m ρ) (peer li 1 c) li 1 ⊣⊢
      (((hrM.slice (Rect.unit (s := S8x512x128) (offL2 li c) S1x256x128.size (Regions.offL2_inb li c)) (fun _ => rfl)).view.loc (c : Thread nD τ)
        ↦[(hrM.slice (Rect.unit (s := S8x512x128) (offL2 li c) S1x256x128.size (Regions.offL2_inb li c)) (fun _ => rfl)).view.set]{fullShare} (conts m ρ).hr c) : sProp 𝕄) := by
  refine BIBase.BiEntails.of_eq ?_
  rw [Regions.recvPayFrom_eq, peer_peer]
  dsimp only [Regions.recvAt]
  show _ = ((hrM.access (Rect.unit (s := S8x512x128) (offL2 li c) S1x256x128.size (Regions.offL2_inb li c))).loc (c : Thread nD τ)
    ↦[(hrM.access (Rect.unit (s := S8x512x128) (offL2 li c) S1x256x128.size (Regions.offL2_inb li c))).set]{fullShare} (conts m ρ).hr c)
  rw [Regions.load2_set]

theorem recv2_load (c : Dev nD) (li : Fin 8) :
    recvPayFrom (conts m ρ) (peer li 2 c) li 2 ⊣⊢
      (((qrM.slice (Regions.laneRectQ li) (fun _ => rfl)).view.loc (c : Thread nD τ)
        ↦[(qrM.slice (Regions.laneRectQ li) (fun _ => rfl)).view.set]{fullShare} (conts m ρ).qr c) : sProp 𝕄) := by
  refine BIBase.BiEntails.of_eq ?_
  rw [Regions.recvPayFrom_eq, peer_peer]
  dsimp only [Regions.recvAt]
  show _ = ((qrM.access (Regions.laneRectQ li)).loc (c : Thread nD τ) ↦[(qrM.access (Regions.laneRectQ li)).set]{fullShare} (conts m ρ).qr c)
  rw [Regions.qr_lane_set]

theorem own_store (c : Dev nD) (li : Fin 8) (g : Buf (Elt F) ((c : Thread nD τ).loc cc0_stg2_0)) :
    (((blockOf oM (offO li c) (offO_inb li c)).view.loc (c : Thread nD τ) ↦[(blockOf oM (offO li c) (offO_inb li c)).view.set]{fullShare} g) : sProp 𝕄) ⊣⊢
      ((oM.slice (Rect.unit (s := S1024x1024) (offOst li c) S256x128.size (Regions.offOst_inb li c)) (fun _ => rfl)).view.loc (c : Thread nD τ)
        ↦[(oM.slice (Rect.unit (s := S1024x1024) (offOst li c) S256x128.size (Regions.offOst_inb li c)) (fun _ => rfl)).view.set]{fullShare} g) := by
  refine BIBase.BiEntails.of_eq ?_
  show _ = ((oM.access (Rect.unit (s := S1024x1024) (offOst li c) S256x128.size (Regions.offOst_inb li c))).loc (c : Thread nD τ)
    ↦[(oM.access (Rect.unit (s := S1024x1024) (offOst li c) S256x128.size (Regions.offOst_inb li c))).set]{fullShare} g)
  rw [Regions.store_out_set]

theorem lane_hs (c : Dev nD) (li : Fin 8) (g : Buf (Elt F) ((c : Thread nD τ).loc cc0_scratch0)) :
    ((((c : Thread nD τ).loc cc0_scratch0) ↦[(hsM.access (Regions.laneRectH li)).set]{fullShare} g) : sProp 𝕄) ⊣⊢
      ((hsM.slice (Regions.laneRectH li) (fun _ => rfl)).view.loc (c : Thread nD τ) ↦[(hsM.slice (Regions.laneRectH li) (fun _ => rfl)).view.set]{fullShare} g) :=
  BIBase.BiEntails.rfl
theorem lane_qs (c : Dev nD) (li : Fin 8) (g : Buf (Elt F) ((c : Thread nD τ).loc cc0_scratch2)) :
    ((((c : Thread nD τ).loc cc0_scratch2) ↦[(qsM.access (Regions.laneRectQ li)).set]{fullShare} g) : sProp 𝕄) ⊣⊢
      ((qsM.slice (Regions.laneRectQ li) (fun _ => rfl)).view.loc (c : Thread nD τ) ↦[(qsM.slice (Regions.laneRectQ li) (fun _ => rfl)).view.set]{fullShare} g) :=
  BIBase.BiEntails.rfl

end Cert.KernelIdeal.Steps

end
-- ==== Proof.Waits.lean ====
import proofs.«900880_g7700000000000881_dist_matmul_gelu_kshard_i_m1024_n1024_k512_v7x_i4_bf16_1_alg».proof.Proof.SchedTab
import proofs.«900880_g7700000000000881_dist_matmul_gelu_kshard_i_m1024_n1024_k512_v7x_i4_bf16_1_alg».proof.Proof.Owes
import proofs.«900880_g7700000000000881_dist_matmul_gelu_kshard_i_m1024_n1024_k512_v7x_i4_bf16_1_alg».proof.Proof.Ghost

noncomputable section

namespace Cert.KernelIdeal.Waits

open Cert.KernelIdeal Cert.KernelIdeal.Gen Cert.KernelIdeal.Tab Cert.KernelIdeal.Proto Cert.KernelIdeal.Cells Cert.KernelIdeal.Sched
open Cert.KernelIdeal.SchedTab Cert.KernelIdeal.Ghost Cert.KernelIdeal.Owes

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Conts F)

theorem signal1_c (K : Dev nD × Ck → ℕ) (c : Dev nD) (O : CellTallies nD τ sig Unit) (W : Waits sig Unit) {n : Dev nD} (hn : n = p1 c)
    {α : Type} {Q : α → sProp 𝕄} {k : PUnit → Prog (TpuEff nD τ sig (Elt F) Λ₀ .tc) α} {amt : ℕ} (hamt : amt = 1) :
    (cellInv ER (sch X) (K (p1 c, none)) (barCell (p1 c)) : sProp 𝕄)
      ⊢ iprop(owes (c : Thread nD τ) (O + tallyAt (barCell (p1 c)) () 1) W -∗ dutyTok ER (barCell (p1 c)) 0 true -∗ barPay (F := F) true (p1 c)
          -∗ reached ER (barCell (p1 c)) 0
          -∗ (owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS amt) k) Q) := by
  subst hn; subst hamt
  have h := Rounds.wp_signal 𝒱₀ ER (sch X) (c : Thread nD τ) none (defs := defs₀ (F := F)) (Γ := .empty) (Q := Q)
    (dst := (p1 c : Thread nD τ)) (sem := barS) (r := 0) (d := true) (k := k) (κ := K (p1 c, none))
    (by rw [duties_bar]; exact Finset.mem_univ _) (amount_bar X (p1 c) true) () O rfl (W := W) (Es := Set.univ)
  rw [payload_bar] at h
  iintro HI HO Htok Hpay Hr
  iapply h $$ [HI HO Htok Hpay Hr]
  isplitl [HI]; · iexact HI
  isplitl [HO]; · iexact HO
  isplitl [Htok]; · iexact Htok
  isplitl [Hpay] <;> iassumption

theorem signal2_c (K : Dev nD × Ck → ℕ) (c : Dev nD) (O : CellTallies nD τ sig Unit) (W : Waits sig Unit) {n : Dev nD} (hn : n = p2 c)
    {α : Type} {Q : α → sProp 𝕄} {k : PUnit → Prog (TpuEff nD τ sig (Elt F) Λ₀ .tc) α} {amt : ℕ} (hamt : amt = 1) :
    (cellInv ER (sch X) (K (p2 c, none)) (barCell (p2 c)) : sProp 𝕄)
      ⊢ iprop(owes (c : Thread nD τ) (O + tallyAt (barCell (p2 c)) () 1) W -∗ dutyTok ER (barCell (p2 c)) 0 false -∗ barPay (F := F) false (p2 c)
          -∗ reached ER (barCell (p2 c)) 0
          -∗ (owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS amt) k) Q) := by
  subst hn; subst hamt
  have h := Rounds.wp_signal 𝒱₀ ER (sch X) (c : Thread nD τ) none (defs := defs₀ (F := F)) (Γ := .empty) (Q := Q)
    (dst := (p2 c : Thread nD τ)) (sem := barS) (r := 0) (d := false) (k := k) (κ := K (p2 c, none))
    (by rw [duties_bar]; exact Finset.mem_univ _) (amount_bar X (p2 c) false) () O rfl (W := W) (Es := Set.univ)
  rw [payload_bar] at h
  iintro HI HO Htok Hpay Hr
  iapply h $$ [HI HO Htok Hpay Hr]
  isplitl [HI]; · iexact HI
  isplitl [HO]; · iexact HO
  isplitl [Htok]; · iexact Htok
  isplitl [Hpay] <;> iassumption

theorem wait_bar_c (K : Dev nD × Ck → ℕ) (c : Dev nD) (S : Finset LK) (W : Waits sig Unit)
    {α : Type} {Q : α → sProp 𝕄} {k : PUnit → Prog (TpuEff nD τ sig (Elt F) Λ₀ .tc) α} {amt : ℕ} (hamt : amt = 2) :
    (cellInv ER (sch X) (K (c, none)) (barCell c) : sProp 𝕄)
      ⊢ iprop(levAts L lv -∗ cred (tallyAt (barCell c) () 2) -∗ owes (c : Thread nD τ) (owedOf c S) W -∗ atPos ER (barCell c) 0 ∅ 0
          -∗ ((owes (c : Thread nD τ) (owedOf c S) (insert (.reg barS, ()) W) ∗ atPos ER (barCell c) 1 ∅ 0
                ∗ barPay (F := F) false c ∗ barPay (F := F) true c)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS amt) k) Q) := by
  subst hamt
  have h := Rounds.wp_wait_rest_token 𝒱₀ ER (sch X) (c : Thread nD τ) none (defs := defs₀ (F := F)) (Γ := .empty) (Q := Q)
    (w := .semWait barS 2) (sm := .reg barS) (k' := 2) (Es := Set.univ) (κ := K (c, none))
    (fun K' => wpE_semWait_eq 𝒱₀ (c : Thread nD τ) none Set.univ K') (Set.mem_univ _) (k := k) () (O := owedOf c S) (W := W)
    (R := 0) (m := 0) (T := ∅) (by rw [expect_bar])
  rw [rest_bar] at h
  iintro HI Hlev Hcr HO Hat Hk
  iapply h $$ [HI Hlev Hcr HO Hat]
  · isplitl [HI]; · iexact HI
    isplitl [Hcr]; · iexact Hcr
    isplitl [HO]; · iexact HO
    isplitl [Hlev]; · iapply (mayWait_bar (F := F) c S); iexact Hlev
    iexact Hat
  iintro ⟨HO, Hat, -, Hpay⟩
  iapply Hk
  isplitl [HO]; · iexact HO
  isplitl [Hat]; · iexact Hat
  iexact Hpay

theorem wait_send_c (K : Dev nD × Ck → ℕ) (c : Dev nD) (li : Fin 8) (kk : Fin 6) (S : Finset LK) (hS : ∀ lk ∈ S, kk.val < lk.2.val) (W : Waits sig Unit)
    {src dst : Memref sig .tc .vmem S256x128 .bf16} {h1 : src.view.WordExact} {h2 : dst.view.WordExact}
    {α : Type} {Q : α → sProp 𝕄} {k : PUnit → Prog (TpuEff nD τ sig (Elt F) Λ₀ .tc) α} :
    (bigSep Finset.univ fun j : Ck => cellInv ER (sch X) (K (c, j)) (kcell (c, j)) : sProp 𝕄)
      ⊢ iprop(levAts L lv -∗ cred (tallyAt (sendCell c li kk) () N) -∗ owes (c : Thread nD τ) (owedOf c S) W -∗ atPos ER (sendCell c li kk) 0 ∅ 0
          -∗ ((owes (c : Thread nD τ) (owedOf c S) (insert (.dma (sendSem li kk), ()) W) ∗ atPos ER (sendCell c li kk) 1 ∅ 0 ∗ sendPay X c li kk)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem li kk) src dst h1 h2) k) Q) := by
  have h := Rounds.wp_wait_rest_token 𝒱₀ ER (sch X) (c : Thread nD τ) none (defs := defs₀ (F := F)) (Γ := .empty) (Q := Q)
    (w := .waitDma2 (sendSem li kk) src dst h1 h2) (sm := .dma (sendSem li kk)) (k' := N) (Es := Set.univ) (κ := K (c, some (false, li, kk)))
    (fun K' => wpE_waitDma2_eq 𝒱₀ (c : Thread nD τ) none Set.univ K') (Set.mem_univ _) (k := k) () (O := owedOf c S) (W := W)
    (R := 0) (m := 0) (T := ∅) (by rw [expect_send, Nat.zero_add])
  rw [rest_send] at h
  have hpick : (bigSep Finset.univ fun j : Ck => cellInv ER (sch X) (K (c, j)) (kcell (c, j)) : sProp 𝕄)
      ⊢ cellInv ER (sch X) (K (c, some (false, li, kk))) (sendCell c li kk) := bigSep_elim (Finset.mem_univ (some (false, li, kk) : Ck))
  iintro HI Hlev Hcr HO Hat Hk
  iapply h $$ [HI Hlev Hcr HO Hat]
  · isplitl [HI]; · iapply hpick; iexact HI
    isplitl [Hcr]; · iexact Hcr
    isplitl [HO]; · iexact HO
    isplitl [Hlev]; · iapply (mayWait_send (F := F) c li kk S hS); iexact Hlev
    iexact Hat
  iintro ⟨HO, Hat, -, Hpay⟩
  iapply Hk
  isplitl [HO]; · iexact HO
  isplitl [Hat]; · iexact Hat
  iexact Hpay

theorem wait_recv_c (K : Dev nD × Ck → ℕ) (c : Dev nD) (li : Fin 8) (kk : Fin 6) (S : Finset LK) (hS : ∀ lk ∈ S, kk.val < lk.2.val) (W : Waits sig Unit)
    {src dst : Memref sig .tc .vmem S256x128 .bf16} {h1 : src.view.WordExact} {h2 : dst.view.WordExact}
    {α : Type} {Q : α → sProp 𝕄} {k : PUnit → Prog (TpuEff nD τ sig (Elt F) Λ₀ .tc) α} :
    (bigSep Finset.univ fun j : Ck => cellInv ER (sch X) (K (c, j)) (kcell (c, j)) : sProp 𝕄)
      ⊢ iprop(levAts L lv -∗ cred (tallyAt (recvCell c li kk) () N) -∗ owes (c : Thread nD τ) (owedOf c S) W -∗ atPos ER (recvCell c li kk) 0 ∅ 0
          -∗ ((owes (c : Thread nD τ) (owedOf c S) (insert (.dma (recvSem li kk), ()) W) ∗ atPos ER (recvCell c li kk) 1 ∅ 0
                ∗ recvPayFrom X (peer li kk c) li kk)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem li kk) src dst h1 h2) k) Q) := by
  have h := Rounds.wp_wait_rest_token 𝒱₀ ER (sch X) (c : Thread nD τ) none (defs := defs₀ (F := F)) (Γ := .empty) (Q := Q)
    (w := .waitDma2 (recvSem li kk) src dst h1 h2) (sm := .dma (recvSem li kk)) (k' := N) (Es := Set.univ) (κ := K (c, some (true, li, kk)))
    (fun K' => wpE_waitDma2_eq 𝒱₀ (c : Thread nD τ) none Set.univ K') (Set.mem_univ _) (k := k) () (O := owedOf c S) (W := W)
    (R := 0) (m := 0) (T := ∅) (by rw [expect_recv, Nat.zero_add])
  rw [rest_recv] at h
  have hpick : (bigSep Finset.univ fun j : Ck => cellInv ER (sch X) (K (c, j)) (kcell (c, j)) : sProp 𝕄)
      ⊢ cellInv ER (sch X) (K (c, some (true, li, kk))) (recvCell c li kk) := bigSep_elim (Finset.mem_univ (some (true, li, kk) : Ck))
  iintro HI Hlev Hcr HO Hat Hk
  iapply h $$ [HI Hlev Hcr HO Hat]
  · isplitl [HI]; · iapply hpick; iexact HI
    isplitl [Hcr]; · iexact Hcr
    isplitl [HO]; · iexact HO
    isplitl [Hlev]; · iapply (mayWait_recv (F := F) c li kk S hS); iexact Hlev
    iexact Hat
  iintro ⟨HO, Hat, -, Hpay⟩
  iapply Hk
  isplitl [HO]; · iexact HO
  isplitl [Hat]; · iexact Hat
  iexact Hpay

end Cert.KernelIdeal.Waits

end
-- ==== Proof.EndBlock.lean ====
import proofs.«900880_g7700000000000881_dist_matmul_gelu_kshard_i_m1024_n1024_k512_v7x_i4_bf16_1_alg».proof.Proof.Finish
import proofs.«900880_g7700000000000881_dist_matmul_gelu_kshard_i_m1024_n1024_k512_v7x_i4_bf16_1_alg».proof.Proof.Steps
import proofs.«900880_g7700000000000881_dist_matmul_gelu_kshard_i_m1024_n1024_k512_v7x_i4_bf16_1_alg».proof.Proof.BodyCtx

set_option maxRecDepth 16384

noncomputable section

namespace Cert.KernelIdeal.EndBlock

open Cert.KernelIdeal Cert.KernelIdeal.Gen Cert.KernelIdeal.Tab Cert.KernelIdeal.Proto Cert.KernelIdeal.Cells Cert.KernelIdeal.Sched
open Cert.KernelIdeal.SchedTab Cert.KernelIdeal.Ghost Cert.KernelIdeal.Body
open Cert.KernelIdeal.Contents (conts)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem recv0_eq (c : Dev nD) (li : Fin 8) :
    recvPayFrom (conts m ρ) (peer li 0 c) li 0 = (((hrM.slice (Rect.unit (s := S8x512x128) (offL1 li c) S1x256x128.size (Regions.offL1_inb li c)) (fun _ => rfl)).view.loc (c : Thread nD τ) ↦[(hrM.slice (Rect.unit (s := S8x512x128) (offL1 li c) S1x256x128.size (Regions.offL1_inb li c)) (fun _ => rfl)).view.set]{fullShare} (conts m ρ).hr c) : sProp 𝕄) := by
  rw [Regions.recvPayFrom_eq, peer_peer]
  dsimp only [Regions.recvAt]
  show _ = ((hrM.access (Rect.unit (s := S8x512x128) (offL1 li c) S1x256x128.size (Regions.offL1_inb li c))).loc (c : Thread nD τ)
    ↦[(hrM.access (Rect.unit (s := S8x512x128) (offL1 li c) S1x256x128.size (Regions.offL1_inb li c))).set]{fullShare} (conts m ρ).hr c)
  rw [Regions.load1_set]
theorem recv1_eq (c : Dev nD) (li : Fin 8) :
    recvPayFrom (conts m ρ) (peer li 1 c) li 1 = (((hrM.slice (Rect.unit (s := S8x512x128) (offL2 li c) S1x256x128.size (Regions.offL2_inb li c)) (fun _ => rfl)).view.loc (c : Thread nD τ) ↦[(hrM.slice (Rect.unit (s := S8x512x128) (offL2 li c) S1x256x128.size (Regions.offL2_inb li c)) (fun _ => rfl)).view.set]{fullShare} (conts m ρ).hr c) : sProp 𝕄) := by
  rw [Regions.recvPayFrom_eq, peer_peer]
  dsimp only [Regions.recvAt]
  show _ = ((hrM.access (Rect.unit (s := S8x512x128) (offL2 li c) S1x256x128.size (Regions.offL2_inb li c))).loc (c : Thread nD τ)
    ↦[(hrM.access (Rect.unit (s := S8x512x128) (offL2 li c) S1x256x128.size (Regions.offL2_inb li c))).set]{fullShare} (conts m ρ).hr c)
  rw [Regions.load2_set]
theorem recv2_eq (c : Dev nD) (li : Fin 8) :
    recvPayFrom (conts m ρ) (peer li 2 c) li 2 = (((qrM.slice (Regions.laneRectQ li) (fun _ => rfl)).view.loc (c : Thread nD τ) ↦[(qrM.slice (Regions.laneRectQ li) (fun _ => rfl)).view.set]{fullShare} (conts m ρ).qr c) : sProp 𝕄) := by
  rw [Regions.recvPayFrom_eq, peer_peer]
  dsimp only [Regions.recvAt]
  show _ = ((qrM.access (Regions.laneRectQ li)).loc (c : Thread nD τ) ↦[(qrM.access (Regions.laneRectQ li)).set]{fullShare} (conts m ρ).qr c)
  rw [Regions.qr_lane_set]

theorem finish_S (K : Dev nD × Ck → ℕ) (c : Dev nD) (W : Waits sig Unit) (S : Finset LK) (hS : S = ∅) :
    iprop((bigSep Finset.univ fun j : Ck => cellInv ER (sch (conts m ρ)) (K (c, j)) (kcell (c, j)))
        ∗ (bigSep Finset.univ fun lk : LK => atPos ER (sendCell c lk.1 lk.2) 1 ∅ 0) ∗ (bigSep Finset.univ fun lk : LK => atPos ER (recvCell c lk.1 lk.2) 1 ∅ 0)
        ∗ (bigSep (Finset.univ.filter fun lk : LK => lk.2 ≠ 3) fun lk => recvPayFrom (conts m ρ) (peer lk.1 lk.2 c) lk.1 lk.2) ∗ (bigSep Finset.univ fun lk : LK => sendPay (conts m ρ) c lk.1 lk.2)
        ∗ owes (c : Thread nD τ) (owedOf c S) W
        ∗ (((c : Thread nD τ).loc cc0_stg0_0) ↦{fullShare} astg m ρ c) ∗ (((c : Thread nD τ).loc cc0_stg1_0) ↦{fullShare} bstg m ρ c))
      ⊢ (|={Set.univ}=> bodyPost m ρ (conts m ρ) c : sProp 𝕄) := by
  subst hS
  rw [show owedOf c ∅ = 0 from Finset.sum_empty]
  exact Finish.finish m ρ (conts m ρ) K c W

end Cert.KernelIdeal.EndBlock

end
-- ==== Proof.Body.lean ====
import proofs.«900880_g7700000000000881_dist_matmul_gelu_kshard_i_m1024_n1024_k512_v7x_i4_bf16_1_alg».proof.Proof.BodyCtx
import proofs.«900880_g7700000000000881_dist_matmul_gelu_kshard_i_m1024_n1024_k512_v7x_i4_bf16_1_alg».proof.Proof.BodyPre
import proofs.«900880_g7700000000000881_dist_matmul_gelu_kshard_i_m1024_n1024_k512_v7x_i4_bf16_1_alg».proof.Proof.Contents
import proofs.«900880_g7700000000000881_dist_matmul_gelu_kshard_i_m1024_n1024_k512_v7x_i4_bf16_1_alg».proof.Proof.Regions
import proofs.«900880_g7700000000000881_dist_matmul_gelu_kshard_i_m1024_n1024_k512_v7x_i4_bf16_1_alg».proof.Proof.Finish
import proofs.«900880_g7700000000000881_dist_matmul_gelu_kshard_i_m1024_n1024_k512_v7x_i4_bf16_1_alg».proof.Proof.Steps
import proofs.«900880_g7700000000000881_dist_matmul_gelu_kshard_i_m1024_n1024_k512_v7x_i4_bf16_1_alg».proof.Proof.Waits
import proofs.«900880_g7700000000000881_dist_matmul_gelu_kshard_i_m1024_n1024_k512_v7x_i4_bf16_1_alg».proof.Proof.EndBlock
import proofs.«900880_g7700000000000881_dist_matmul_gelu_kshard_i_m1024_n1024_k512_v7x_i4_bf16_1_alg».proof.Proof.Gen.KernelIdeal.Skeleton

set_option maxRecDepth 16384

noncomputable section

namespace Cert.KernelIdeal.Body

open Cert.KernelIdeal Cert.KernelIdeal.Gen Cert.KernelIdeal.Tab Cert.KernelIdeal.Proto Cert.KernelIdeal.Cells Cert.KernelIdeal.Sched Cert.KernelIdeal.Ghost Cert.KernelIdeal.SchedTab Cert.KernelIdeal.BodyCtx Cert.KernelIdeal.Regions Cert.KernelIdeal.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Ck → ℕ)

set_option maxHeartbeats 8000000 in
theorem sound_body (c : Dev nD) (Kt : PUnit → sProp 𝕄) :
    iprop(bodyPre m ρ (conts m ρ) K c ∗ (bodyPost m ρ (conts m ρ) c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  unfold bodyPre ghost reach positions payToks credits scratch
  simp only [bigSep_LK, bigSep_Ck]
  unfold Ghost.invs
  iintro ⟨⟨⟨⟨⟨#HIown, #HIb1, #HIb2, #HIpAll⟩, ⟨#Hrb1, #Hrb2, ⟨#Hrp_0_0, #Hrp_0_1, #Hrp_0_2, #Hrp_0_3, #Hrp_0_4, #Hrp_0_5, #Hrp_1_0, #Hrp_1_1, #Hrp_1_2, #Hrp_1_3, #Hrp_1_4, #Hrp_1_5, #Hrp_2_0, #Hrp_2_1, #Hrp_2_2, #Hrp_2_3, #Hrp_2_4, #Hrp_2_5, #Hrp_3_0, #Hrp_3_1, #Hrp_3_2, #Hrp_3_3, #Hrp_3_4, #Hrp_3_5, #Hrp_4_0, #Hrp_4_1, #Hrp_4_2, #Hrp_4_3, #Hrp_4_4, #Hrp_4_5, #Hrp_5_0, #Hrp_5_1, #Hrp_5_2, #Hrp_5_3, #Hrp_5_4, #Hrp_5_5, #Hrp_6_0, #Hrp_6_1, #Hrp_6_2, #Hrp_6_3, #Hrp_6_4, #Hrp_6_5, #Hrp_7_0, #Hrp_7_1, #Hrp_7_2, #Hrp_7_3, #Hrp_7_4, #Hrp_7_5⟩, ⟨#Hrs_0_0, #Hrs_0_1, #Hrs_0_2, #Hrs_0_3, #Hrs_0_4, #Hrs_0_5, #Hrs_1_0, #Hrs_1_1, #Hrs_1_2, #Hrs_1_3, #Hrs_1_4, #Hrs_1_5, #Hrs_2_0, #Hrs_2_1, #Hrs_2_2, #Hrs_2_3, #Hrs_2_4, #Hrs_2_5, #Hrs_3_0, #Hrs_3_1, #Hrs_3_2, #Hrs_3_3, #Hrs_3_4, #Hrs_3_5, #Hrs_4_0, #Hrs_4_1, #Hrs_4_2, #Hrs_4_3, #Hrs_4_4, #Hrs_4_5, #Hrs_5_0, #Hrs_5_1, #Hrs_5_2, #Hrs_5_3, #Hrs_5_4, #Hrs_5_5, #Hrs_6_0, #Hrs_6_1, #Hrs_6_2, #Hrs_6_3, #Hrs_6_4, #Hrs_6_5, #Hrs_7_0, #Hrs_7_1, #Hrs_7_2, #Hrs_7_3, #Hrs_7_4, #Hrs_7_5⟩⟩, ⟨Hab, Has_0_0, Has_0_1, Has_0_2, Has_0_3, Has_0_4, Has_0_5, Has_1_0, Has_1_1, Has_1_2, Has_1_3, Has_1_4, Has_1_5, Has_2_0, Has_2_1, Has_2_2, Has_2_3, Has_2_4, Has_2_5, Has_3_0, Has_3_1, Has_3_2, Has_3_3, Has_3_4, Has_3_5, Has_4_0, Has_4_1, Has_4_2, Has_4_3, Has_4_4, Has_4_5, Has_5_0, Has_5_1, Has_5_2, Has_5_3, Has_5_4, Has_5_5, Has_6_0, Has_6_1, Has_6_2, Has_6_3, Has_6_4, Has_6_5, Has_7_0, Has_7_1, Has_7_2, Has_7_3, Has_7_4, Has_7_5, Har_0_0, Har_0_1, Har_0_2, Har_0_3, Har_0_4, Har_0_5, Har_1_0, Har_1_1, Har_1_2, Har_1_3, Har_1_4, Har_1_5, Har_2_0, Har_2_1, Har_2_2, Har_2_3, Har_2_4, Har_2_5, Har_3_0, Har_3_1, Har_3_2, Har_3_3, Har_3_4, Har_3_5, Har_4_0, Har_4_1, Har_4_2, Har_4_3, Har_4_4, Har_4_5, Har_5_0, Har_5_1, Har_5_2, Har_5_3, Har_5_4, Har_5_5, Har_6_0, Har_6_1, Har_6_2, Har_6_3, Har_6_4, Har_6_5, Har_7_0, Har_7_1, Har_7_2, Har_7_3, Har_7_4, Har_7_5⟩, ⟨Htb1, Htb2, ⟨Htp_0_0, Htp_0_1, Htp_0_2, Htp_0_3, Htp_0_4, Htp_0_5, Htp_1_0, Htp_1_1, Htp_1_2, Htp_1_3, Htp_1_4, Htp_1_5, Htp_2_0, Htp_2_1, Htp_2_2, Htp_2_3, Htp_2_4, Htp_2_5, Htp_3_0, Htp_3_1, Htp_3_2, Htp_3_3, Htp_3_4, Htp_3_5, Htp_4_0, Htp_4_1, Htp_4_2, Htp_4_3, Htp_4_4, Htp_4_5, Htp_5_0, Htp_5_1, Htp_5_2, Htp_5_3, Htp_5_4, Htp_5_5, Htp_6_0, Htp_6_1, Htp_6_2, Htp_6_3, Htp_6_4, Htp_6_5, Htp_7_0, Htp_7_1, Htp_7_2, Htp_7_3, Htp_7_4, Htp_7_5⟩, ⟨Hts_0_0, Hts_0_1, Hts_0_2, Hts_0_3, Hts_0_4, Hts_0_5, Hts_1_0, Hts_1_1, Hts_1_2, Hts_1_3, Hts_1_4, Hts_1_5, Hts_2_0, Hts_2_1, Hts_2_2, Hts_2_3, Hts_2_4, Hts_2_5, Hts_3_0, Hts_3_1, Hts_3_2, Hts_3_3, Hts_3_4, Hts_3_5, Hts_4_0, Hts_4_1, Hts_4_2, Hts_4_3, Hts_4_4, Hts_4_5, Hts_5_0, Hts_5_1, Hts_5_2, Hts_5_3, Hts_5_4, Hts_5_5, Hts_6_0, Hts_6_1, Hts_6_2, Hts_6_3, Hts_6_4, Hts_6_5, Hts_7_0, Hts_7_1, Hts_7_2, Hts_7_3, Hts_7_4, Hts_7_5⟩⟩⟩, ⟨Hcb, Hcr_0_0, Hcr_0_1, Hcr_0_2, Hcr_0_3, Hcr_0_4, Hcr_0_5, Hcr_1_0, Hcr_1_1, Hcr_1_2, Hcr_1_3, Hcr_1_4, Hcr_1_5, Hcr_2_0, Hcr_2_1, Hcr_2_2, Hcr_2_3, Hcr_2_4, Hcr_2_5, Hcr_3_0, Hcr_3_1, Hcr_3_2, Hcr_3_3, Hcr_3_4, Hcr_3_5, Hcr_4_0, Hcr_4_1, Hcr_4_2, Hcr_4_3, Hcr_4_4, Hcr_4_5, Hcr_5_0, Hcr_5_1, Hcr_5_2, Hcr_5_3, Hcr_5_4, Hcr_5_5, Hcr_6_0, Hcr_6_1, Hcr_6_2, Hcr_6_3, Hcr_6_4, Hcr_6_5, Hcr_7_0, Hcr_7_1, Hcr_7_2, Hcr_7_3, Hcr_7_4, Hcr_7_5⟩, #Hlev, ⟨⟨%f0, Hhs⟩, ⟨%f1, Hhr⟩, ⟨%f2, Hqs⟩, ⟨%f3, Hqr⟩⟩⟩,
    Ho, ⟨%d0, %g0, %hg0, Ha⟩, ⟨%d1, %g1, %hg1, Hb⟩, ⟨%d2, %g2, %hg2, Hout⟩⟩, Hk⟩
  have hF8 : ∀ Φ : Fin 8 → sProp 𝕄, bigSep Finset.univ Φ = iprop(Φ 0 ∗ Φ 1 ∗ Φ 2 ∗ Φ 3 ∗ Φ 4 ∗ Φ 5 ∗ Φ 6 ∗ Φ 7) := fun Φ => by
    rw [bigSep_univ_eq_bigSepL [0, 1, 2, 3, 4, 5, 6, 7] (by decide) (by decide) Φ]
    simp only [bigSepL_cons_cons, bigSepL_singleton]
    rfl
  have hx0 : g0 = astg m ρ c := by rw [hg0]; rfl
  have hx1 : g1 = bstg m ρ c := by rw [hg1]; rfl
  subst hx0 hx1
  unfold Dat.owesAt Pipeline.owesWithin
  icases Ho with ⟨%W, %hW, HO⟩
  rw [show (dats m ρ (conts m ρ) 0 c).owed t₀.castSucc = O₀ c from rfl]
  unfold O₀ O₁

  ihave Hg := (Regions.give (F := F) c) $$ [Hhr Hqr Hout]
  · isplitl [Hhr]; · iexists f1; iexact Hhr
    isplitl [Hqr]; · iexists f3; iexact Hqr
    iexists g2; iexact Hout
  icases Hg with ⟨Hp1, Hp2, Hown⟩
  ihave Hown := (Entails.of_eq (hF8 _)) $$ Hown
  icases Hown with ⟨⟨%o0, Hown_0⟩, ⟨%o1, Hown_1⟩, ⟨%o2, Hown_2⟩, ⟨%o3, Hown_3⟩, ⟨%o4, Hown_4⟩, ⟨%o5, Hown_5⟩, ⟨%o6, Hown_6⟩, ⟨%o7, Hown_7⟩⟩
  ihave Ha := (show (((c : Thread nD τ).loc cc0_stg0_0 ↦{fullShare} astg m ρ c : sProp 𝕄)) ⊢ ((Memref.whole cc0_stg0_0).view.loc (c : Thread nD τ) ↦{fullShare} astg m ρ c) from BI.Entails.refl _) $$ Ha
  ihave Hb := (show (((c : Thread nD τ).loc cc0_stg1_0 ↦{fullShare} bstg m ρ c : sProp 𝕄)) ⊢ ((Memref.whole cc0_stg1_0).view.loc (c : Thread nD τ) ↦{fullShare} bstg m ρ c) from BI.Entails.refl _) $$ Hb
  ihave Hqs := (Regions.qs_lanes (F := F) c f2).1 $$ Hqs
  ihave Hqs := (Entails.of_eq (hF8 _)) $$ Hqs
  icases Hqs with ⟨Hqs_0, Hqs_1, Hqs_2, Hqs_3, Hqs_4, Hqs_5, Hqs_6, Hqs_7⟩
  ihave Hqs_0 := (Steps.lane_qs c 0 f2).mp $$ Hqs_0
  ihave Hqs_1 := (Steps.lane_qs c 1 f2).mp $$ Hqs_1
  ihave Hqs_2 := (Steps.lane_qs c 2 f2).mp $$ Hqs_2
  ihave Hqs_3 := (Steps.lane_qs c 3 f2).mp $$ Hqs_3
  ihave Hqs_4 := (Steps.lane_qs c 4 f2).mp $$ Hqs_4
  ihave Hqs_5 := (Steps.lane_qs c 5 f2).mp $$ Hqs_5
  ihave Hqs_6 := (Steps.lane_qs c 6 f2).mp $$ Hqs_6
  ihave Hqs_7 := (Steps.lane_qs c 7 f2).mp $$ Hqs_7

  ihave Hhs := (Regions.hs_lanes (F := F) c f0).1 $$ Hhs
  ihave Hhs := (Entails.of_eq (hF8 _)) $$ Hhs
  icases Hhs with ⟨Hhs_0, Hhs_1, Hhs_2, Hhs_3, Hhs_4, Hhs_5, Hhs_6, Hhs_7⟩
  ihave Hhs_0 := (Steps.lane_hs c 0 f0).mp $$ Hhs_0
  ihave Hhs_1 := (Steps.lane_hs c 1 f0).mp $$ Hhs_1
  ihave Hhs_2 := (Steps.lane_hs c 2 f0).mp $$ Hhs_2
  ihave Hhs_3 := (Steps.lane_hs c 3 f0).mp $$ Hhs_3
  ihave Hhs_4 := (Steps.lane_hs c 4 f0).mp $$ Hhs_4
  ihave Hhs_5 := (Steps.lane_hs c 5 f0).mp $$ Hhs_5
  ihave Hhs_6 := (Steps.lane_hs c 6 f0).mp $$ Hhs_6
  ihave Hhs_7 := (Steps.lane_hs c 7 f0).mp $$ Hhs_7
  have pick : ∀ j : Ck, ((bigSep Finset.univ fun j : Ck => cellInv ER (sch (conts m ρ)) (K (c, j)) (kcell (c, j))) : sProp 𝕄) ⊢ cellInv ER (sch (conts m ρ)) (K (c, j)) (kcell (c, j)) :=
    fun j => bigSep_elim (Finset.mem_univ j)
  sl_exec_parts

  iapply (Waits.signal1_c (conts m ρ) K c _ W (dev_sig1 c) rfl) $$ HIb1 HO Htb1 Hp1 Hrb1
  iintro HO
  sl_exec_parts
  iapply (Waits.signal2_c (conts m ρ) K c _ W (dev_sig2 c) rfl) $$ HIb2 HO Htb2 Hp2 Hrb2
  iintro HO
  sl_exec_parts

  ihave HIb := (pick none) $$ HIown
  iapply (Waits.wait_bar_c (conts m ρ) K c Finset.univ W rfl) $$ HIb Hlev Hcb HO Hab
  iintro ⟨HO, Hab, Hl0, Hl1⟩
  ihave Hl1 := (Entails.of_eq (barPay_true_eq (F := F) c)) $$ Hl1
  icases Hl1 with ⟨Hl_0_0, Hl_0_1, Hl_0_4, Hl_0_5, Hl_1_2, Hl_1_3, Hl_2_0, Hl_2_1, Hl_2_4, Hl_2_5, Hl_3_2, Hl_3_3, Hl_4_0, Hl_4_1, Hl_4_4, Hl_4_5, Hl_5_2, Hl_5_3, Hl_6_0, Hl_6_1, Hl_6_4, Hl_6_5, Hl_7_2, Hl_7_3⟩
  ihave Hl0 := (Entails.of_eq (barPay_false_eq (F := F) c)) $$ Hl0
  icases Hl0 with ⟨Hl_0_2, Hl_0_3, Hl_1_0, Hl_1_1, Hl_1_4, Hl_1_5, Hl_2_2, Hl_2_3, Hl_3_0, Hl_3_1, Hl_3_4, Hl_3_5, Hl_4_2, Hl_4_3, Hl_5_0, Hl_5_1, Hl_5_4, Hl_5_5, Hl_6_2, Hl_6_3, Hl_7_0, Hl_7_1, Hl_7_4, Hl_7_5⟩
  sl_exec_parts

  ihave Hhs_0 := (Steps.lane_hs c 0 (sound_body.sl.Hhs_0_w1 m ρ c f0)).mpr $$ Hhs_0
  ihave Hs := (Steps.carve_hs m ρ c 0 (sound_body.sl.Hhs_0_w1 m ρ c f0) (fun i hi => Contents.hs_store m ρ c 0 f0 i hi)) $$ Hhs_0
  icases Hs with ⟨Hs_0_0, Hs_0_1⟩
  iapply (Steps.send_c m ρ K c 0 0 _ (dev_0_0 c) rfl rfl rfl rfl (Contents.hr_land m ρ c 0 0) _ ?_ _) $$ HIown HIpAll Hs_0_0 Hl_0_0 HO Hts_0_0 Hrs_0_0 Htp_0_0 Hrp_0_0
  · decide
  iintro ⟨Hcs_0_0, HO⟩
  sl_exec_parts
  iapply (Steps.send_c m ρ K c 0 1 _ (dev_0_1 c) rfl rfl rfl rfl (Contents.hr_land m ρ c 0 1) _ ?_ _) $$ HIown HIpAll Hs_0_1 Hl_0_1 HO Hts_0_1 Hrs_0_1 Htp_0_1 Hrp_0_1
  · decide
  iintro ⟨Hcs_0_1, HO⟩
  sl_exec_parts

  ihave Hhs_1 := (Steps.lane_hs c 1 (sound_body.sl.Hhs_1_w1 m ρ c f0)).mpr $$ Hhs_1
  ihave Hs := (Steps.carve_hs m ρ c 1 (sound_body.sl.Hhs_1_w1 m ρ c f0) (fun i hi => Contents.hs_store m ρ c 1 f0 i hi)) $$ Hhs_1
  icases Hs with ⟨Hs_1_0, Hs_1_1⟩
  iapply (Steps.send_c m ρ K c 1 0 _ (dev_1_0 c) rfl rfl rfl rfl (Contents.hr_land m ρ c 1 0) _ ?_ _) $$ HIown HIpAll Hs_1_0 Hl_1_0 HO Hts_1_0 Hrs_1_0 Htp_1_0 Hrp_1_0
  · decide
  iintro ⟨Hcs_1_0, HO⟩
  sl_exec_parts
  iapply (Steps.send_c m ρ K c 1 1 _ (dev_1_1 c) rfl rfl rfl rfl (Contents.hr_land m ρ c 1 1) _ ?_ _) $$ HIown HIpAll Hs_1_1 Hl_1_1 HO Hts_1_1 Hrs_1_1 Htp_1_1 Hrp_1_1
  · decide
  iintro ⟨Hcs_1_1, HO⟩
  sl_exec_parts

  ihave Hhs_2 := (Steps.lane_hs c 2 (sound_body.sl.Hhs_2_w1 m ρ c f0)).mpr $$ Hhs_2
  ihave Hs := (Steps.carve_hs m ρ c 2 (sound_body.sl.Hhs_2_w1 m ρ c f0) (fun i hi => Contents.hs_store m ρ c 2 f0 i hi)) $$ Hhs_2
  icases Hs with ⟨Hs_2_0, Hs_2_1⟩
  iapply (Steps.send_c m ρ K c 2 0 _ (dev_2_0 c) rfl rfl rfl rfl (Contents.hr_land m ρ c 2 0) _ ?_ _) $$ HIown HIpAll Hs_2_0 Hl_2_0 HO Hts_2_0 Hrs_2_0 Htp_2_0 Hrp_2_0
  · decide
  iintro ⟨Hcs_2_0, HO⟩
  sl_exec_parts
  iapply (Steps.send_c m ρ K c 2 1 _ (dev_2_1 c) rfl rfl rfl rfl (Contents.hr_land m ρ c 2 1) _ ?_ _) $$ HIown HIpAll Hs_2_1 Hl_2_1 HO Hts_2_1 Hrs_2_1 Htp_2_1 Hrp_2_1
  · decide
  iintro ⟨Hcs_2_1, HO⟩
  sl_exec_parts

  ihave Hhs_3 := (Steps.lane_hs c 3 (sound_body.sl.Hhs_3_w1 m ρ c f0)).mpr $$ Hhs_3
  ihave Hs := (Steps.carve_hs m ρ c 3 (sound_body.sl.Hhs_3_w1 m ρ c f0) (fun i hi => Contents.hs_store m ρ c 3 f0 i hi)) $$ Hhs_3
  icases Hs with ⟨Hs_3_0, Hs_3_1⟩
  iapply (Steps.send_c m ρ K c 3 0 _ (dev_3_0 c) rfl rfl rfl rfl (Contents.hr_land m ρ c 3 0) _ ?_ _) $$ HIown HIpAll Hs_3_0 Hl_3_0 HO Hts_3_0 Hrs_3_0 Htp_3_0 Hrp_3_0
  · decide
  iintro ⟨Hcs_3_0, HO⟩
  sl_exec_parts
  iapply (Steps.send_c m ρ K c 3 1 _ (dev_3_1 c) rfl rfl rfl rfl (Contents.hr_land m ρ c 3 1) _ ?_ _) $$ HIown HIpAll Hs_3_1 Hl_3_1 HO Hts_3_1 Hrs_3_1 Htp_3_1 Hrp_3_1
  · decide
  iintro ⟨Hcs_3_1, HO⟩
  sl_exec_parts

  ihave Hhs_4 := (Steps.lane_hs c 4 (sound_body.sl.Hhs_4_w1 m ρ c f0)).mpr $$ Hhs_4
  ihave Hs := (Steps.carve_hs m ρ c 4 (sound_body.sl.Hhs_4_w1 m ρ c f0) (fun i hi => Contents.hs_store m ρ c 4 f0 i hi)) $$ Hhs_4
  icases Hs with ⟨Hs_4_0, Hs_4_1⟩
  iapply (Steps.send_c m ρ K c 4 0 _ (dev_4_0 c) rfl rfl rfl rfl (Contents.hr_land m ρ c 4 0) _ ?_ _) $$ HIown HIpAll Hs_4_0 Hl_4_0 HO Hts_4_0 Hrs_4_0 Htp_4_0 Hrp_4_0
  · decide
  iintro ⟨Hcs_4_0, HO⟩
  sl_exec_parts
  iapply (Steps.send_c m ρ K c 4 1 _ (dev_4_1 c) rfl rfl rfl rfl (Contents.hr_land m ρ c 4 1) _ ?_ _) $$ HIown HIpAll Hs_4_1 Hl_4_1 HO Hts_4_1 Hrs_4_1 Htp_4_1 Hrp_4_1
  · decide
  iintro ⟨Hcs_4_1, HO⟩
  sl_exec_parts

  ihave Hhs_5 := (Steps.lane_hs c 5 (sound_body.sl.Hhs_5_w1 m ρ c f0)).mpr $$ Hhs_5
  ihave Hs := (Steps.carve_hs m ρ c 5 (sound_body.sl.Hhs_5_w1 m ρ c f0) (fun i hi => Contents.hs_store m ρ c 5 f0 i hi)) $$ Hhs_5
  icases Hs with ⟨Hs_5_0, Hs_5_1⟩
  iapply (Steps.send_c m ρ K c 5 0 _ (dev_5_0 c) rfl rfl rfl rfl (Contents.hr_land m ρ c 5 0) _ ?_ _) $$ HIown HIpAll Hs_5_0 Hl_5_0 HO Hts_5_0 Hrs_5_0 Htp_5_0 Hrp_5_0
  · decide
  iintro ⟨Hcs_5_0, HO⟩
  sl_exec_parts
  iapply (Steps.send_c m ρ K c 5 1 _ (dev_5_1 c) rfl rfl rfl rfl (Contents.hr_land m ρ c 5 1) _ ?_ _) $$ HIown HIpAll Hs_5_1 Hl_5_1 HO Hts_5_1 Hrs_5_1 Htp_5_1 Hrp_5_1
  · decide
  iintro ⟨Hcs_5_1, HO⟩
  sl_exec_parts

  ihave Hhs_6 := (Steps.lane_hs c 6 (sound_body.sl.Hhs_6_w1 m ρ c f0)).mpr $$ Hhs_6
  ihave Hs := (Steps.carve_hs m ρ c 6 (sound_body.sl.Hhs_6_w1 m ρ c f0) (fun i hi => Contents.hs_store m ρ c 6 f0 i hi)) $$ Hhs_6
  icases Hs with ⟨Hs_6_0, Hs_6_1⟩
  iapply (Steps.send_c m ρ K c 6 0 _ (dev_6_0 c) rfl rfl rfl rfl (Contents.hr_land m ρ c 6 0) _ ?_ _) $$ HIown HIpAll Hs_6_0 Hl_6_0 HO Hts_6_0 Hrs_6_0 Htp_6_0 Hrp_6_0
  · decide
  iintro ⟨Hcs_6_0, HO⟩
  sl_exec_parts
  iapply (Steps.send_c m ρ K c 6 1 _ (dev_6_1 c) rfl rfl rfl rfl (Contents.hr_land m ρ c 6 1) _ ?_ _) $$ HIown HIpAll Hs_6_1 Hl_6_1 HO Hts_6_1 Hrs_6_1 Htp_6_1 Hrp_6_1
  · decide
  iintro ⟨Hcs_6_1, HO⟩
  sl_exec_parts

  ihave Hhs_7 := (Steps.lane_hs c 7 (sound_body.sl.Hhs_7_w1 m ρ c f0)).mpr $$ Hhs_7
  ihave Hs := (Steps.carve_hs m ρ c 7 (sound_body.sl.Hhs_7_w1 m ρ c f0) (fun i hi => Contents.hs_store m ρ c 7 f0 i hi)) $$ Hhs_7
  icases Hs with ⟨Hs_7_0, Hs_7_1⟩
  iapply (Steps.send_c m ρ K c 7 0 _ (dev_7_0 c) rfl rfl rfl rfl (Contents.hr_land m ρ c 7 0) _ ?_ _) $$ HIown HIpAll Hs_7_0 Hl_7_0 HO Hts_7_0 Hrs_7_0 Htp_7_0 Hrp_7_0
  · decide
  iintro ⟨Hcs_7_0, HO⟩
  sl_exec_parts
  iapply (Steps.send_c m ρ K c 7 1 _ (dev_7_1 c) rfl rfl rfl rfl (Contents.hr_land m ρ c 7 1) _ ?_ _) $$ HIown HIpAll Hs_7_1 Hl_7_1 HO Hts_7_1 Hrs_7_1 Htp_7_1 Hrp_7_1
  · decide
  iintro ⟨Hcs_7_1, HO⟩
  sl_exec_parts

  iapply (Waits.wait_send_c (conts m ρ) K c 0 0 _ ?_ _) $$ HIown Hlev Hcs_0_0 HO Has_0_0
  · decide
  iintro ⟨HO, Has_0_0, Hs_0_0⟩
  sl_exec_parts
  iapply (Waits.wait_recv_c (conts m ρ) K c 0 0 _ ?_ _) $$ HIown Hlev Hcr_0_0 HO Har_0_0
  · decide
  iintro ⟨HO, Har_0_0, Hr_0_0⟩
  ihave Hr_0_0 := (Steps.recv0_load m ρ c 0).mp $$ Hr_0_0
  have hin : ((Memref.whole cc0_scratch1).access (Rect.unit (s := S8x512x128) (k0_off23 c) S1x256x128.size (k0_off23_inb c))).set ⊆ (hrM.slice (Rect.unit (s := S8x512x128) (offL1 0 c) S1x256x128.size (Regions.offL1_inb 0 c)) (fun _ => rfl)).view.set := Finset.Subset.refl _
  sl_exec_parts
  clear hin
  ihave Hqs_0 := (Steps.lane_qs c 0 (sound_body.sl.Hqs_0_w1 m ρ c f2)).mpr $$ Hqs_0
  ihave Hs_0_2 := (Steps.carve_qs m ρ c 0 (sound_body.sl.Hqs_0_w1 m ρ c f2) (fun i hi => Contents.qs_store m ρ c 0 f2 i hi)) $$ Hqs_0
  iapply (Steps.send_c m ρ K c 0 2 _ (dev_0_2 c) rfl rfl rfl rfl (Contents.qr_land m ρ c 0) _ ?_ _) $$ HIown HIpAll Hs_0_2 Hl_0_2 HO Hts_0_2 Hrs_0_2 Htp_0_2 Hrp_0_2
  · decide
  iintro ⟨Hcs_0_2, HO⟩
  sl_exec_parts

  iapply (Waits.wait_send_c (conts m ρ) K c 1 0 _ ?_ _) $$ HIown Hlev Hcs_1_0 HO Has_1_0
  · decide
  iintro ⟨HO, Has_1_0, Hs_1_0⟩
  sl_exec_parts
  iapply (Waits.wait_recv_c (conts m ρ) K c 1 0 _ ?_ _) $$ HIown Hlev Hcr_1_0 HO Har_1_0
  · decide
  iintro ⟨HO, Har_1_0, Hr_1_0⟩
  ihave Hr_1_0 := (Steps.recv0_load m ρ c 1).mp $$ Hr_1_0
  have hin : ((Memref.whole cc0_scratch1).access (Rect.unit (s := S8x512x128) (k0_off24 c) S1x256x128.size (k0_off24_inb c))).set ⊆ (hrM.slice (Rect.unit (s := S8x512x128) (offL1 1 c) S1x256x128.size (Regions.offL1_inb 1 c)) (fun _ => rfl)).view.set := Finset.Subset.refl _
  sl_exec_parts
  clear hin
  ihave Hqs_1 := (Steps.lane_qs c 1 (sound_body.sl.Hqs_1_w1 m ρ c f2)).mpr $$ Hqs_1
  ihave Hs_1_2 := (Steps.carve_qs m ρ c 1 (sound_body.sl.Hqs_1_w1 m ρ c f2) (fun i hi => Contents.qs_store m ρ c 1 f2 i hi)) $$ Hqs_1
  iapply (Steps.send_c m ρ K c 1 2 _ (dev_1_2 c) rfl rfl rfl rfl (Contents.qr_land m ρ c 1) _ ?_ _) $$ HIown HIpAll Hs_1_2 Hl_1_2 HO Hts_1_2 Hrs_1_2 Htp_1_2 Hrp_1_2
  · decide
  iintro ⟨Hcs_1_2, HO⟩
  sl_exec_parts

  iapply (Waits.wait_send_c (conts m ρ) K c 2 0 _ ?_ _) $$ HIown Hlev Hcs_2_0 HO Has_2_0
  · decide
  iintro ⟨HO, Has_2_0, Hs_2_0⟩
  sl_exec_parts
  iapply (Waits.wait_recv_c (conts m ρ) K c 2 0 _ ?_ _) $$ HIown Hlev Hcr_2_0 HO Har_2_0
  · decide
  iintro ⟨HO, Har_2_0, Hr_2_0⟩
  ihave Hr_2_0 := (Steps.recv0_load m ρ c 2).mp $$ Hr_2_0
  have hin : ((Memref.whole cc0_scratch1).access (Rect.unit (s := S8x512x128) (k0_off25 c) S1x256x128.size (k0_off25_inb c))).set ⊆ (hrM.slice (Rect.unit (s := S8x512x128) (offL1 2 c) S1x256x128.size (Regions.offL1_inb 2 c)) (fun _ => rfl)).view.set := Finset.Subset.refl _
  sl_exec_parts
  clear hin
  ihave Hqs_2 := (Steps.lane_qs c 2 (sound_body.sl.Hqs_2_w1 m ρ c f2)).mpr $$ Hqs_2
  ihave Hs_2_2 := (Steps.carve_qs m ρ c 2 (sound_body.sl.Hqs_2_w1 m ρ c f2) (fun i hi => Contents.qs_store m ρ c 2 f2 i hi)) $$ Hqs_2
  iapply (Steps.send_c m ρ K c 2 2 _ (dev_2_2 c) rfl rfl rfl rfl (Contents.qr_land m ρ c 2) _ ?_ _) $$ HIown HIpAll Hs_2_2 Hl_2_2 HO Hts_2_2 Hrs_2_2 Htp_2_2 Hrp_2_2
  · decide
  iintro ⟨Hcs_2_2, HO⟩
  sl_exec_parts

  iapply (Waits.wait_send_c (conts m ρ) K c 3 0 _ ?_ _) $$ HIown Hlev Hcs_3_0 HO Has_3_0
  · decide
  iintro ⟨HO, Has_3_0, Hs_3_0⟩
  sl_exec_parts
  iapply (Waits.wait_recv_c (conts m ρ) K c 3 0 _ ?_ _) $$ HIown Hlev Hcr_3_0 HO Har_3_0
  · decide
  iintro ⟨HO, Har_3_0, Hr_3_0⟩
  ihave Hr_3_0 := (Steps.recv0_load m ρ c 3).mp $$ Hr_3_0
  have hin : ((Memref.whole cc0_scratch1).access (Rect.unit (s := S8x512x128) (k0_off26 c) S1x256x128.size (k0_off26_inb c))).set ⊆ (hrM.slice (Rect.unit (s := S8x512x128) (offL1 3 c) S1x256x128.size (Regions.offL1_inb 3 c)) (fun _ => rfl)).view.set := Finset.Subset.refl _
  sl_exec_parts
  clear hin
  ihave Hqs_3 := (Steps.lane_qs c 3 (sound_body.sl.Hqs_3_w1 m ρ c f2)).mpr $$ Hqs_3
  ihave Hs_3_2 := (Steps.carve_qs m ρ c 3 (sound_body.sl.Hqs_3_w1 m ρ c f2) (fun i hi => Contents.qs_store m ρ c 3 f2 i hi)) $$ Hqs_3
  iapply (Steps.send_c m ρ K c 3 2 _ (dev_3_2 c) rfl rfl rfl rfl (Contents.qr_land m ρ c 3) _ ?_ _) $$ HIown HIpAll Hs_3_2 Hl_3_2 HO Hts_3_2 Hrs_3_2 Htp_3_2 Hrp_3_2
  · decide
  iintro ⟨Hcs_3_2, HO⟩
  sl_exec_parts

  iapply (Waits.wait_send_c (conts m ρ) K c 4 0 _ ?_ _) $$ HIown Hlev Hcs_4_0 HO Has_4_0
  · decide
  iintro ⟨HO, Has_4_0, Hs_4_0⟩
  sl_exec_parts
  iapply (Waits.wait_recv_c (conts m ρ) K c 4 0 _ ?_ _) $$ HIown Hlev Hcr_4_0 HO Har_4_0
  · decide
  iintro ⟨HO, Har_4_0, Hr_4_0⟩
  ihave Hr_4_0 := (Steps.recv0_load m ρ c 4).mp $$ Hr_4_0
  have hin : ((Memref.whole cc0_scratch1).access (Rect.unit (s := S8x512x128) (k0_off27 c) S1x256x128.size (k0_off27_inb c))).set ⊆ (hrM.slice (Rect.unit (s := S8x512x128) (offL1 4 c) S1x256x128.size (Regions.offL1_inb 4 c)) (fun _ => rfl)).view.set := Finset.Subset.refl _
  sl_exec_parts
  clear hin
  ihave Hqs_4 := (Steps.lane_qs c 4 (sound_body.sl.Hqs_4_w1 m ρ c f2)).mpr $$ Hqs_4
  ihave Hs_4_2 := (Steps.carve_qs m ρ c 4 (sound_body.sl.Hqs_4_w1 m ρ c f2) (fun i hi => Contents.qs_store m ρ c 4 f2 i hi)) $$ Hqs_4
  iapply (Steps.send_c m ρ K c 4 2 _ (dev_4_2 c) rfl rfl rfl rfl (Contents.qr_land m ρ c 4) _ ?_ _) $$ HIown HIpAll Hs_4_2 Hl_4_2 HO Hts_4_2 Hrs_4_2 Htp_4_2 Hrp_4_2
  · decide
  iintro ⟨Hcs_4_2, HO⟩
  sl_exec_parts

  iapply (Waits.wait_send_c (conts m ρ) K c 5 0 _ ?_ _) $$ HIown Hlev Hcs_5_0 HO Has_5_0
  · decide
  iintro ⟨HO, Has_5_0, Hs_5_0⟩
  sl_exec_parts
  iapply (Waits.wait_recv_c (conts m ρ) K c 5 0 _ ?_ _) $$ HIown Hlev Hcr_5_0 HO Har_5_0
  · decide
  iintro ⟨HO, Har_5_0, Hr_5_0⟩
  ihave Hr_5_0 := (Steps.recv0_load m ρ c 5).mp $$ Hr_5_0
  have hin : ((Memref.whole cc0_scratch1).access (Rect.unit (s := S8x512x128) (k0_off28 c) S1x256x128.size (k0_off28_inb c))).set ⊆ (hrM.slice (Rect.unit (s := S8x512x128) (offL1 5 c) S1x256x128.size (Regions.offL1_inb 5 c)) (fun _ => rfl)).view.set := Finset.Subset.refl _
  sl_exec_parts
  clear hin
  ihave Hqs_5 := (Steps.lane_qs c 5 (sound_body.sl.Hqs_5_w1 m ρ c f2)).mpr $$ Hqs_5
  ihave Hs_5_2 := (Steps.carve_qs m ρ c 5 (sound_body.sl.Hqs_5_w1 m ρ c f2) (fun i hi => Contents.qs_store m ρ c 5 f2 i hi)) $$ Hqs_5
  iapply (Steps.send_c m ρ K c 5 2 _ (dev_5_2 c) rfl rfl rfl rfl (Contents.qr_land m ρ c 5) _ ?_ _) $$ HIown HIpAll Hs_5_2 Hl_5_2 HO Hts_5_2 Hrs_5_2 Htp_5_2 Hrp_5_2
  · decide
  iintro ⟨Hcs_5_2, HO⟩
  sl_exec_parts

  iapply (Waits.wait_send_c (conts m ρ) K c 6 0 _ ?_ _) $$ HIown Hlev Hcs_6_0 HO Has_6_0
  · decide
  iintro ⟨HO, Has_6_0, Hs_6_0⟩
  sl_exec_parts
  iapply (Waits.wait_recv_c (conts m ρ) K c 6 0 _ ?_ _) $$ HIown Hlev Hcr_6_0 HO Har_6_0
  · decide
  iintro ⟨HO, Har_6_0, Hr_6_0⟩
  ihave Hr_6_0 := (Steps.recv0_load m ρ c 6).mp $$ Hr_6_0
  have hin : ((Memref.whole cc0_scratch1).access (Rect.unit (s := S8x512x128) (k0_off29 c) S1x256x128.size (k0_off29_inb c))).set ⊆ (hrM.slice (Rect.unit (s := S8x512x128) (offL1 6 c) S1x256x128.size (Regions.offL1_inb 6 c)) (fun _ => rfl)).view.set := Finset.Subset.refl _
  sl_exec_parts
  clear hin
  ihave Hqs_6 := (Steps.lane_qs c 6 (sound_body.sl.Hqs_6_w1 m ρ c f2)).mpr $$ Hqs_6
  ihave Hs_6_2 := (Steps.carve_qs m ρ c 6 (sound_body.sl.Hqs_6_w1 m ρ c f2) (fun i hi => Contents.qs_store m ρ c 6 f2 i hi)) $$ Hqs_6
  iapply (Steps.send_c m ρ K c 6 2 _ (dev_6_2 c) rfl rfl rfl rfl (Contents.qr_land m ρ c 6) _ ?_ _) $$ HIown HIpAll Hs_6_2 Hl_6_2 HO Hts_6_2 Hrs_6_2 Htp_6_2 Hrp_6_2
  · decide
  iintro ⟨Hcs_6_2, HO⟩
  sl_exec_parts

  iapply (Waits.wait_send_c (conts m ρ) K c 7 0 _ ?_ _) $$ HIown Hlev Hcs_7_0 HO Has_7_0
  · decide
  iintro ⟨HO, Has_7_0, Hs_7_0⟩
  sl_exec_parts
  iapply (Waits.wait_recv_c (conts m ρ) K c 7 0 _ ?_ _) $$ HIown Hlev Hcr_7_0 HO Har_7_0
  · decide
  iintro ⟨HO, Har_7_0, Hr_7_0⟩
  ihave Hr_7_0 := (Steps.recv0_load m ρ c 7).mp $$ Hr_7_0
  have hin : ((Memref.whole cc0_scratch1).access (Rect.unit (s := S8x512x128) (k0_off30 c) S1x256x128.size (k0_off30_inb c))).set ⊆ (hrM.slice (Rect.unit (s := S8x512x128) (offL1 7 c) S1x256x128.size (Regions.offL1_inb 7 c)) (fun _ => rfl)).view.set := Finset.Subset.refl _
  sl_exec_parts
  clear hin
  ihave Hqs_7 := (Steps.lane_qs c 7 (sound_body.sl.Hqs_7_w1 m ρ c f2)).mpr $$ Hqs_7
  ihave Hs_7_2 := (Steps.carve_qs m ρ c 7 (sound_body.sl.Hqs_7_w1 m ρ c f2) (fun i hi => Contents.qs_store m ρ c 7 f2 i hi)) $$ Hqs_7
  iapply (Steps.send_c m ρ K c 7 2 _ (dev_7_2 c) rfl rfl rfl rfl (Contents.qr_land m ρ c 7) _ ?_ _) $$ HIown HIpAll Hs_7_2 Hl_7_2 HO Hts_7_2 Hrs_7_2 Htp_7_2 Hrp_7_2
  · decide
  iintro ⟨Hcs_7_2, HO⟩
  sl_exec_parts

  iapply (Waits.wait_send_c (conts m ρ) K c 0 1 _ ?_ _) $$ HIown Hlev Hcs_0_1 HO Has_0_1
  · decide
  iintro ⟨HO, Has_0_1, Hs_0_1⟩
  sl_exec_parts
  iapply (Waits.wait_recv_c (conts m ρ) K c 0 1 _ ?_ _) $$ HIown Hlev Hcr_0_1 HO Har_0_1
  · decide
  iintro ⟨HO, Har_0_1, Hr_0_1⟩
  ihave Hr_0_1 := (Steps.recv1_load m ρ c 0).mp $$ Hr_0_1
  have hin : ((Memref.whole cc0_scratch1).access (Rect.unit (s := S8x512x128) (k0_off31 c) S1x256x128.size (k0_off31_inb c))).set ⊆ (hrM.slice (Rect.unit (s := S8x512x128) (offL2 0 c) S1x256x128.size (Regions.offL2_inb 0 c)) (fun _ => rfl)).view.set := Finset.Subset.refl _
  sl_exec_parts
  clear hin
  iapply (Waits.wait_send_c (conts m ρ) K c 0 2 _ ?_ _) $$ HIown Hlev Hcs_0_2 HO Has_0_2
  · decide
  iintro ⟨HO, Has_0_2, Hs_0_2⟩
  sl_exec_parts
  iapply (Waits.wait_recv_c (conts m ρ) K c 0 2 _ ?_ _) $$ HIown Hlev Hcr_0_2 HO Har_0_2
  · decide
  iintro ⟨HO, Har_0_2, Hr_0_2⟩
  ihave Hr_0_2 := (Steps.recv2_load m ρ c 0).mp $$ Hr_0_2
  ihave Hown_0 := (Steps.own_store c 0 o0).mp $$ Hown_0
  have hinO : ((Memref.whole cc0_stg2_0).access (Rect.unit (s := S1024x1024) (k0_off32 c) S256x128.size (k0_off32_inb c))).set ⊆ (oM.slice (Rect.unit (s := S1024x1024) (offOst 0 c) S256x128.size (Regions.offOst_inb 0 c)) (fun _ => rfl)).view.set := Finset.Subset.refl _
  have hinOs : ((Memref.whole cc0_stg2_0).access (Rect.unit (s := S1024x1024) (k0_off32 c) S256x128.size (k0_off32_inb c))).setOn Finset.univ ⊆ (oM.slice (Rect.unit (s := S1024x1024) (offOst 0 c) S256x128.size (Regions.offOst_inb 0 c)) (fun _ => rfl)).view.set := Finset.Subset.refl _
  sl_exec_parts
  clear hinO hinOs
  ihave Hown_0 := (Steps.own_store c 0 (sound_body.sl.Hown_0_w1 m ρ c o0)).mpr $$ Hown_0
  ihave Hs := (Steps.carve_out m ρ c 0 (sound_body.sl.Hown_0_w1 m ρ c o0) (fun i hi => Contents.out_store m ρ c 0 o0 i (by rw [Regions.store_out_set c 0]; exact hi))) $$ Hown_0
  icases Hs with ⟨Hs_0_3, Hs_0_4⟩
  iapply (Steps.send_c m ρ K c 0 3 _ (dev_0_3 c) rfl rfl rfl rfl (Contents.out_land3 m ρ c 0) _ ?_ _) $$ HIown HIpAll Hs_0_3 Hl_0_3 HO Hts_0_3 Hrs_0_3 Htp_0_3 Hrp_0_3
  · decide
  iintro ⟨Hcs_0_3, HO⟩
  sl_exec_parts
  iapply (Steps.send_c m ρ K c 0 4 _ (dev_0_4 c) rfl rfl rfl rfl (Contents.out_land4 m ρ c 0) _ ?_ _) $$ HIown HIpAll Hs_0_4 Hl_0_4 HO Hts_0_4 Hrs_0_4 Htp_0_4 Hrp_0_4
  · decide
  iintro ⟨Hcs_0_4, HO⟩
  sl_exec_parts

  iapply (Waits.wait_send_c (conts m ρ) K c 1 1 _ ?_ _) $$ HIown Hlev Hcs_1_1 HO Has_1_1
  · decide
  iintro ⟨HO, Has_1_1, Hs_1_1⟩
  sl_exec_parts
  iapply (Waits.wait_recv_c (conts m ρ) K c 1 1 _ ?_ _) $$ HIown Hlev Hcr_1_1 HO Har_1_1
  · decide
  iintro ⟨HO, Har_1_1, Hr_1_1⟩
  ihave Hr_1_1 := (Steps.recv1_load m ρ c 1).mp $$ Hr_1_1
  have hin : ((Memref.whole cc0_scratch1).access (Rect.unit (s := S8x512x128) (k0_off34 c) S1x256x128.size (k0_off34_inb c))).set ⊆ (hrM.slice (Rect.unit (s := S8x512x128) (offL2 1 c) S1x256x128.size (Regions.offL2_inb 1 c)) (fun _ => rfl)).view.set := Finset.Subset.refl _
  sl_exec_parts
  clear hin
  iapply (Waits.wait_send_c (conts m ρ) K c 1 2 _ ?_ _) $$ HIown Hlev Hcs_1_2 HO Has_1_2
  · decide
  iintro ⟨HO, Has_1_2, Hs_1_2⟩
  sl_exec_parts
  iapply (Waits.wait_recv_c (conts m ρ) K c 1 2 _ ?_ _) $$ HIown Hlev Hcr_1_2 HO Har_1_2
  · decide
  iintro ⟨HO, Har_1_2, Hr_1_2⟩
  ihave Hr_1_2 := (Steps.recv2_load m ρ c 1).mp $$ Hr_1_2
  ihave Hown_1 := (Steps.own_store c 1 o1).mp $$ Hown_1
  have hinO : ((Memref.whole cc0_stg2_0).access (Rect.unit (s := S1024x1024) (k0_off35 c) S256x128.size (k0_off35_inb c))).set ⊆ (oM.slice (Rect.unit (s := S1024x1024) (offOst 1 c) S256x128.size (Regions.offOst_inb 1 c)) (fun _ => rfl)).view.set := Finset.Subset.refl _
  have hinOs : ((Memref.whole cc0_stg2_0).access (Rect.unit (s := S1024x1024) (k0_off35 c) S256x128.size (k0_off35_inb c))).setOn Finset.univ ⊆ (oM.slice (Rect.unit (s := S1024x1024) (offOst 1 c) S256x128.size (Regions.offOst_inb 1 c)) (fun _ => rfl)).view.set := Finset.Subset.refl _
  sl_exec_parts
  clear hinO hinOs
  ihave Hown_1 := (Steps.own_store c 1 (sound_body.sl.Hown_1_w1 m ρ c o1)).mpr $$ Hown_1
  ihave Hs := (Steps.carve_out m ρ c 1 (sound_body.sl.Hown_1_w1 m ρ c o1) (fun i hi => Contents.out_store m ρ c 1 o1 i (by rw [Regions.store_out_set c 1]; exact hi))) $$ Hown_1
  icases Hs with ⟨Hs_1_3, Hs_1_4⟩
  iapply (Steps.send_c m ρ K c 1 3 _ (dev_1_3 c) rfl rfl rfl rfl (Contents.out_land3 m ρ c 1) _ ?_ _) $$ HIown HIpAll Hs_1_3 Hl_1_3 HO Hts_1_3 Hrs_1_3 Htp_1_3 Hrp_1_3
  · decide
  iintro ⟨Hcs_1_3, HO⟩
  sl_exec_parts
  iapply (Steps.send_c m ρ K c 1 4 _ (dev_1_4 c) rfl rfl rfl rfl (Contents.out_land4 m ρ c 1) _ ?_ _) $$ HIown HIpAll Hs_1_4 Hl_1_4 HO Hts_1_4 Hrs_1_4 Htp_1_4 Hrp_1_4
  · decide
  iintro ⟨Hcs_1_4, HO⟩
  sl_exec_parts

  iapply (Waits.wait_send_c (conts m ρ) K c 2 1 _ ?_ _) $$ HIown Hlev Hcs_2_1 HO Has_2_1
  · decide
  iintro ⟨HO, Has_2_1, Hs_2_1⟩
  sl_exec_parts
  iapply (Waits.wait_recv_c (conts m ρ) K c 2 1 _ ?_ _) $$ HIown Hlev Hcr_2_1 HO Har_2_1
  · decide
  iintro ⟨HO, Har_2_1, Hr_2_1⟩
  ihave Hr_2_1 := (Steps.recv1_load m ρ c 2).mp $$ Hr_2_1
  have hin : ((Memref.whole cc0_scratch1).access (Rect.unit (s := S8x512x128) (k0_off37 c) S1x256x128.size (k0_off37_inb c))).set ⊆ (hrM.slice (Rect.unit (s := S8x512x128) (offL2 2 c) S1x256x128.size (Regions.offL2_inb 2 c)) (fun _ => rfl)).view.set := Finset.Subset.refl _
  sl_exec_parts
  clear hin
  iapply (Waits.wait_send_c (conts m ρ) K c 2 2 _ ?_ _) $$ HIown Hlev Hcs_2_2 HO Has_2_2
  · decide
  iintro ⟨HO, Has_2_2, Hs_2_2⟩
  sl_exec_parts
  iapply (Waits.wait_recv_c (conts m ρ) K c 2 2 _ ?_ _) $$ HIown Hlev Hcr_2_2 HO Har_2_2
  · decide
  iintro ⟨HO, Har_2_2, Hr_2_2⟩
  ihave Hr_2_2 := (Steps.recv2_load m ρ c 2).mp $$ Hr_2_2
  ihave Hown_2 := (Steps.own_store c 2 o2).mp $$ Hown_2
  have hinO : ((Memref.whole cc0_stg2_0).access (Rect.unit (s := S1024x1024) (k0_off38 c) S256x128.size (k0_off38_inb c))).set ⊆ (oM.slice (Rect.unit (s := S1024x1024) (offOst 2 c) S256x128.size (Regions.offOst_inb 2 c)) (fun _ => rfl)).view.set := Finset.Subset.refl _
  have hinOs : ((Memref.whole cc0_stg2_0).access (Rect.unit (s := S1024x1024) (k0_off38 c) S256x128.size (k0_off38_inb c))).setOn Finset.univ ⊆ (oM.slice (Rect.unit (s := S1024x1024) (offOst 2 c) S256x128.size (Regions.offOst_inb 2 c)) (fun _ => rfl)).view.set := Finset.Subset.refl _
  sl_exec_parts
  clear hinO hinOs
  ihave Hown_2 := (Steps.own_store c 2 (sound_body.sl.Hown_2_w1 m ρ c o2)).mpr $$ Hown_2
  ihave Hs := (Steps.carve_out m ρ c 2 (sound_body.sl.Hown_2_w1 m ρ c o2) (fun i hi => Contents.out_store m ρ c 2 o2 i (by rw [Regions.store_out_set c 2]; exact hi))) $$ Hown_2
  icases Hs with ⟨Hs_2_3, Hs_2_4⟩
  iapply (Steps.send_c m ρ K c 2 3 _ (dev_2_3 c) rfl rfl rfl rfl (Contents.out_land3 m ρ c 2) _ ?_ _) $$ HIown HIpAll Hs_2_3 Hl_2_3 HO Hts_2_3 Hrs_2_3 Htp_2_3 Hrp_2_3
  · decide
  iintro ⟨Hcs_2_3, HO⟩
  sl_exec_parts
  iapply (Steps.send_c m ρ K c 2 4 _ (dev_2_4 c) rfl rfl rfl rfl (Contents.out_land4 m ρ c 2) _ ?_ _) $$ HIown HIpAll Hs_2_4 Hl_2_4 HO Hts_2_4 Hrs_2_4 Htp_2_4 Hrp_2_4
  · decide
  iintro ⟨Hcs_2_4, HO⟩
  sl_exec_parts

  iapply (Waits.wait_send_c (conts m ρ) K c 3 1 _ ?_ _) $$ HIown Hlev Hcs_3_1 HO Has_3_1
  · decide
  iintro ⟨HO, Has_3_1, Hs_3_1⟩
  sl_exec_parts
  iapply (Waits.wait_recv_c (conts m ρ) K c 3 1 _ ?_ _) $$ HIown Hlev Hcr_3_1 HO Har_3_1
  · decide
  iintro ⟨HO, Har_3_1, Hr_3_1⟩
  ihave Hr_3_1 := (Steps.recv1_load m ρ c 3).mp $$ Hr_3_1
  have hin : ((Memref.whole cc0_scratch1).access (Rect.unit (s := S8x512x128) (k0_off40 c) S1x256x128.size (k0_off40_inb c))).set ⊆ (hrM.slice (Rect.unit (s := S8x512x128) (offL2 3 c) S1x256x128.size (Regions.offL2_inb 3 c)) (fun _ => rfl)).view.set := Finset.Subset.refl _
  sl_exec_parts
  clear hin
  iapply (Waits.wait_send_c (conts m ρ) K c 3 2 _ ?_ _) $$ HIown Hlev Hcs_3_2 HO Has_3_2
  · decide
  iintro ⟨HO, Has_3_2, Hs_3_2⟩
  sl_exec_parts
  iapply (Waits.wait_recv_c (conts m ρ) K c 3 2 _ ?_ _) $$ HIown Hlev Hcr_3_2 HO Har_3_2
  · decide
  iintro ⟨HO, Har_3_2, Hr_3_2⟩
  ihave Hr_3_2 := (Steps.recv2_load m ρ c 3).mp $$ Hr_3_2
  ihave Hown_3 := (Steps.own_store c 3 o3).mp $$ Hown_3
  have hinO : ((Memref.whole cc0_stg2_0).access (Rect.unit (s := S1024x1024) (k0_off41 c) S256x128.size (k0_off41_inb c))).set ⊆ (oM.slice (Rect.unit (s := S1024x1024) (offOst 3 c) S256x128.size (Regions.offOst_inb 3 c)) (fun _ => rfl)).view.set := Finset.Subset.refl _
  have hinOs : ((Memref.whole cc0_stg2_0).access (Rect.unit (s := S1024x1024) (k0_off41 c) S256x128.size (k0_off41_inb c))).setOn Finset.univ ⊆ (oM.slice (Rect.unit (s := S1024x1024) (offOst 3 c) S256x128.size (Regions.offOst_inb 3 c)) (fun _ => rfl)).view.set := Finset.Subset.refl _
  sl_exec_parts
  clear hinO hinOs
  ihave Hown_3 := (Steps.own_store c 3 (sound_body.sl.Hown_3_w1 m ρ c o3)).mpr $$ Hown_3
  ihave Hs := (Steps.carve_out m ρ c 3 (sound_body.sl.Hown_3_w1 m ρ c o3) (fun i hi => Contents.out_store m ρ c 3 o3 i (by rw [Regions.store_out_set c 3]; exact hi))) $$ Hown_3
  icases Hs with ⟨Hs_3_3, Hs_3_4⟩
  iapply (Steps.send_c m ρ K c 3 3 _ (dev_3_3 c) rfl rfl rfl rfl (Contents.out_land3 m ρ c 3) _ ?_ _) $$ HIown HIpAll Hs_3_3 Hl_3_3 HO Hts_3_3 Hrs_3_3 Htp_3_3 Hrp_3_3
  · decide
  iintro ⟨Hcs_3_3, HO⟩
  sl_exec_parts
  iapply (Steps.send_c m ρ K c 3 4 _ (dev_3_4 c) rfl rfl rfl rfl (Contents.out_land4 m ρ c 3) _ ?_ _) $$ HIown HIpAll Hs_3_4 Hl_3_4 HO Hts_3_4 Hrs_3_4 Htp_3_4 Hrp_3_4
  · decide
  iintro ⟨Hcs_3_4, HO⟩
  sl_exec_parts

  iapply (Waits.wait_send_c (conts m ρ) K c 4 1 _ ?_ _) $$ HIown Hlev Hcs_4_1 HO Has_4_1
  · decide
  iintro ⟨HO, Has_4_1, Hs_4_1⟩
  sl_exec_parts
  iapply (Waits.wait_recv_c (conts m ρ) K c 4 1 _ ?_ _) $$ HIown Hlev Hcr_4_1 HO Har_4_1
  · decide
  iintro ⟨HO, Har_4_1, Hr_4_1⟩
  ihave Hr_4_1 := (Steps.recv1_load m ρ c 4).mp $$ Hr_4_1
  have hin : ((Memref.whole cc0_scratch1).access (Rect.unit (s := S8x512x128) (k0_off43 c) S1x256x128.size (k0_off43_inb c))).set ⊆ (hrM.slice (Rect.unit (s := S8x512x128) (offL2 4 c) S1x256x128.size (Regions.offL2_inb 4 c)) (fun _ => rfl)).view.set := Finset.Subset.refl _
  sl_exec_parts
  clear hin
  iapply (Waits.wait_send_c (conts m ρ) K c 4 2 _ ?_ _) $$ HIown Hlev Hcs_4_2 HO Has_4_2
  · decide
  iintro ⟨HO, Has_4_2, Hs_4_2⟩
  sl_exec_parts
  iapply (Waits.wait_recv_c (conts m ρ) K c 4 2 _ ?_ _) $$ HIown Hlev Hcr_4_2 HO Har_4_2
  · decide
  iintro ⟨HO, Har_4_2, Hr_4_2⟩
  ihave Hr_4_2 := (Steps.recv2_load m ρ c 4).mp $$ Hr_4_2
  ihave Hown_4 := (Steps.own_store c 4 o4).mp $$ Hown_4
  have hinO : ((Memref.whole cc0_stg2_0).access (Rect.unit (s := S1024x1024) (k0_off44 c) S256x128.size (k0_off44_inb c))).set ⊆ (oM.slice (Rect.unit (s := S1024x1024) (offOst 4 c) S256x128.size (Regions.offOst_inb 4 c)) (fun _ => rfl)).view.set := Finset.Subset.refl _
  have hinOs : ((Memref.whole cc0_stg2_0).access (Rect.unit (s := S1024x1024) (k0_off44 c) S256x128.size (k0_off44_inb c))).setOn Finset.univ ⊆ (oM.slice (Rect.unit (s := S1024x1024) (offOst 4 c) S256x128.size (Regions.offOst_inb 4 c)) (fun _ => rfl)).view.set := Finset.Subset.refl _
  sl_exec_parts
  clear hinO hinOs
  ihave Hown_4 := (Steps.own_store c 4 (sound_body.sl.Hown_4_w1 m ρ c o4)).mpr $$ Hown_4
  ihave Hs := (Steps.carve_out m ρ c 4 (sound_body.sl.Hown_4_w1 m ρ c o4) (fun i hi => Contents.out_store m ρ c 4 o4 i (by rw [Regions.store_out_set c 4]; exact hi))) $$ Hown_4
  icases Hs with ⟨Hs_4_3, Hs_4_4⟩
  iapply (Steps.send_c m ρ K c 4 3 _ (dev_4_3 c) rfl rfl rfl rfl (Contents.out_land3 m ρ c 4) _ ?_ _) $$ HIown HIpAll Hs_4_3 Hl_4_3 HO Hts_4_3 Hrs_4_3 Htp_4_3 Hrp_4_3
  · decide
  iintro ⟨Hcs_4_3, HO⟩
  sl_exec_parts
  iapply (Steps.send_c m ρ K c 4 4 _ (dev_4_4 c) rfl rfl rfl rfl (Contents.out_land4 m ρ c 4) _ ?_ _) $$ HIown HIpAll Hs_4_4 Hl_4_4 HO Hts_4_4 Hrs_4_4 Htp_4_4 Hrp_4_4
  · decide
  iintro ⟨Hcs_4_4, HO⟩
  sl_exec_parts

  iapply (Waits.wait_send_c (conts m ρ) K c 5 1 _ ?_ _) $$ HIown Hlev Hcs_5_1 HO Has_5_1
  · decide
  iintro ⟨HO, Has_5_1, Hs_5_1⟩
  sl_exec_parts
  iapply (Waits.wait_recv_c (conts m ρ) K c 5 1 _ ?_ _) $$ HIown Hlev Hcr_5_1 HO Har_5_1
  · decide
  iintro ⟨HO, Har_5_1, Hr_5_1⟩
  ihave Hr_5_1 := (Steps.recv1_load m ρ c 5).mp $$ Hr_5_1
  have hin : ((Memref.whole cc0_scratch1).access (Rect.unit (s := S8x512x128) (k0_off46 c) S1x256x128.size (k0_off46_inb c))).set ⊆ (hrM.slice (Rect.unit (s := S8x512x128) (offL2 5 c) S1x256x128.size (Regions.offL2_inb 5 c)) (fun _ => rfl)).view.set := Finset.Subset.refl _
  sl_exec_parts
  clear hin
  iapply (Waits.wait_send_c (conts m ρ) K c 5 2 _ ?_ _) $$ HIown Hlev Hcs_5_2 HO Has_5_2
  · decide
  iintro ⟨HO, Has_5_2, Hs_5_2⟩
  sl_exec_parts
  iapply (Waits.wait_recv_c (conts m ρ) K c 5 2 _ ?_ _) $$ HIown Hlev Hcr_5_2 HO Har_5_2
  · decide
  iintro ⟨HO, Har_5_2, Hr_5_2⟩
  ihave Hr_5_2 := (Steps.recv2_load m ρ c 5).mp $$ Hr_5_2
  ihave Hown_5 := (Steps.own_store c 5 o5).mp $$ Hown_5
  have hinO : ((Memref.whole cc0_stg2_0).access (Rect.unit (s := S1024x1024) (k0_off47 c) S256x128.size (k0_off47_inb c))).set ⊆ (oM.slice (Rect.unit (s := S1024x1024) (offOst 5 c) S256x128.size (Regions.offOst_inb 5 c)) (fun _ => rfl)).view.set := Finset.Subset.refl _
  have hinOs : ((Memref.whole cc0_stg2_0).access (Rect.unit (s := S1024x1024) (k0_off47 c) S256x128.size (k0_off47_inb c))).setOn Finset.univ ⊆ (oM.slice (Rect.unit (s := S1024x1024) (offOst 5 c) S256x128.size (Regions.offOst_inb 5 c)) (fun _ => rfl)).view.set := Finset.Subset.refl _
  sl_exec_parts
  clear hinO hinOs
  ihave Hown_5 := (Steps.own_store c 5 (sound_body.sl.Hown_5_w1 m ρ c o5)).mpr $$ Hown_5
  ihave Hs := (Steps.carve_out m ρ c 5 (sound_body.sl.Hown_5_w1 m ρ c o5) (fun i hi => Contents.out_store m ρ c 5 o5 i (by rw [Regions.store_out_set c 5]; exact hi))) $$ Hown_5
  icases Hs with ⟨Hs_5_3, Hs_5_4⟩
  iapply (Steps.send_c m ρ K c 5 3 _ (dev_5_3 c) rfl rfl rfl rfl (Contents.out_land3 m ρ c 5) _ ?_ _) $$ HIown HIpAll Hs_5_3 Hl_5_3 HO Hts_5_3 Hrs_5_3 Htp_5_3 Hrp_5_3
  · decide
  iintro ⟨Hcs_5_3, HO⟩
  sl_exec_parts
  iapply (Steps.send_c m ρ K c 5 4 _ (dev_5_4 c) rfl rfl rfl rfl (Contents.out_land4 m ρ c 5) _ ?_ _) $$ HIown HIpAll Hs_5_4 Hl_5_4 HO Hts_5_4 Hrs_5_4 Htp_5_4 Hrp_5_4
  · decide
  iintro ⟨Hcs_5_4, HO⟩
  sl_exec_parts

  iapply (Waits.wait_send_c (conts m ρ) K c 6 1 _ ?_ _) $$ HIown Hlev Hcs_6_1 HO Has_6_1
  · decide
  iintro ⟨HO, Has_6_1, Hs_6_1⟩
  sl_exec_parts
  iapply (Waits.wait_recv_c (conts m ρ) K c 6 1 _ ?_ _) $$ HIown Hlev Hcr_6_1 HO Har_6_1
  · decide
  iintro ⟨HO, Har_6_1, Hr_6_1⟩
  ihave Hr_6_1 := (Steps.recv1_load m ρ c 6).mp $$ Hr_6_1
  have hin : ((Memref.whole cc0_scratch1).access (Rect.unit (s := S8x512x128) (k0_off49 c) S1x256x128.size (k0_off49_inb c))).set ⊆ (hrM.slice (Rect.unit (s := S8x512x128) (offL2 6 c) S1x256x128.size (Regions.offL2_inb 6 c)) (fun _ => rfl)).view.set := Finset.Subset.refl _
  sl_exec_parts
  clear hin
  iapply (Waits.wait_send_c (conts m ρ) K c 6 2 _ ?_ _) $$ HIown Hlev Hcs_6_2 HO Has_6_2
  · decide
  iintro ⟨HO, Has_6_2, Hs_6_2⟩
  sl_exec_parts
  iapply (Waits.wait_recv_c (conts m ρ) K c 6 2 _ ?_ _) $$ HIown Hlev Hcr_6_2 HO Har_6_2
  · decide
  iintro ⟨HO, Har_6_2, Hr_6_2⟩
  ihave Hr_6_2 := (Steps.recv2_load m ρ c 6).mp $$ Hr_6_2
  ihave Hown_6 := (Steps.own_store c 6 o6).mp $$ Hown_6
  have hinO : ((Memref.whole cc0_stg2_0).access (Rect.unit (s := S1024x1024) (k0_off50 c) S256x128.size (k0_off50_inb c))).set ⊆ (oM.slice (Rect.unit (s := S1024x1024) (offOst 6 c) S256x128.size (Regions.offOst_inb 6 c)) (fun _ => rfl)).view.set := Finset.Subset.refl _
  have hinOs : ((Memref.whole cc0_stg2_0).access (Rect.unit (s := S1024x1024) (k0_off50 c) S256x128.size (k0_off50_inb c))).setOn Finset.univ ⊆ (oM.slice (Rect.unit (s := S1024x1024) (offOst 6 c) S256x128.size (Regions.offOst_inb 6 c)) (fun _ => rfl)).view.set := Finset.Subset.refl _
  sl_exec_parts
  clear hinO hinOs
  ihave Hown_6 := (Steps.own_store c 6 (sound_body.sl.Hown_6_w1 m ρ c o6)).mpr $$ Hown_6
  ihave Hs := (Steps.carve_out m ρ c 6 (sound_body.sl.Hown_6_w1 m ρ c o6) (fun i hi => Contents.out_store m ρ c 6 o6 i (by rw [Regions.store_out_set c 6]; exact hi))) $$ Hown_6
  icases Hs with ⟨Hs_6_3, Hs_6_4⟩
  iapply (Steps.send_c m ρ K c 6 3 _ (dev_6_3 c) rfl rfl rfl rfl (Contents.out_land3 m ρ c 6) _ ?_ _) $$ HIown HIpAll Hs_6_3 Hl_6_3 HO Hts_6_3 Hrs_6_3 Htp_6_3 Hrp_6_3
  · decide
  iintro ⟨Hcs_6_3, HO⟩
  sl_exec_parts
  iapply (Steps.send_c m ρ K c 6 4 _ (dev_6_4 c) rfl rfl rfl rfl (Contents.out_land4 m ρ c 6) _ ?_ _) $$ HIown HIpAll Hs_6_4 Hl_6_4 HO Hts_6_4 Hrs_6_4 Htp_6_4 Hrp_6_4
  · decide
  iintro ⟨Hcs_6_4, HO⟩
  sl_exec_parts

  iapply (Waits.wait_send_c (conts m ρ) K c 7 1 _ ?_ _) $$ HIown Hlev Hcs_7_1 HO Has_7_1
  · decide
  iintro ⟨HO, Has_7_1, Hs_7_1⟩
  sl_exec_parts
  iapply (Waits.wait_recv_c (conts m ρ) K c 7 1 _ ?_ _) $$ HIown Hlev Hcr_7_1 HO Har_7_1
  · decide
  iintro ⟨HO, Har_7_1, Hr_7_1⟩
  ihave Hr_7_1 := (Steps.recv1_load m ρ c 7).mp $$ Hr_7_1
  have hin : ((Memref.whole cc0_scratch1).access (Rect.unit (s := S8x512x128) (k0_off52 c) S1x256x128.size (k0_off52_inb c))).set ⊆ (hrM.slice (Rect.unit (s := S8x512x128) (offL2 7 c) S1x256x128.size (Regions.offL2_inb 7 c)) (fun _ => rfl)).view.set := Finset.Subset.refl _
  sl_exec_parts
  clear hin
  iapply (Waits.wait_send_c (conts m ρ) K c 7 2 _ ?_ _) $$ HIown Hlev Hcs_7_2 HO Has_7_2
  · decide
  iintro ⟨HO, Has_7_2, Hs_7_2⟩
  sl_exec_parts
  iapply (Waits.wait_recv_c (conts m ρ) K c 7 2 _ ?_ _) $$ HIown Hlev Hcr_7_2 HO Har_7_2
  · decide
  iintro ⟨HO, Har_7_2, Hr_7_2⟩
  ihave Hr_7_2 := (Steps.recv2_load m ρ c 7).mp $$ Hr_7_2
  ihave Hown_7 := (Steps.own_store c 7 o7).mp $$ Hown_7
  have hinO : ((Memref.whole cc0_stg2_0).access (Rect.unit (s := S1024x1024) (k0_off53 c) S256x128.size (k0_off53_inb c))).set ⊆ (oM.slice (Rect.unit (s := S1024x1024) (offOst 7 c) S256x128.size (Regions.offOst_inb 7 c)) (fun _ => rfl)).view.set := Finset.Subset.refl _
  have hinOs : ((Memref.whole cc0_stg2_0).access (Rect.unit (s := S1024x1024) (k0_off53 c) S256x128.size (k0_off53_inb c))).setOn Finset.univ ⊆ (oM.slice (Rect.unit (s := S1024x1024) (offOst 7 c) S256x128.size (Regions.offOst_inb 7 c)) (fun _ => rfl)).view.set := Finset.Subset.refl _
  sl_exec_parts
  clear hinO hinOs
  ihave Hown_7 := (Steps.own_store c 7 (sound_body.sl.Hown_7_w1 m ρ c o7)).mpr $$ Hown_7
  ihave Hs := (Steps.carve_out m ρ c 7 (sound_body.sl.Hown_7_w1 m ρ c o7) (fun i hi => Contents.out_store m ρ c 7 o7 i (by rw [Regions.store_out_set c 7]; exact hi))) $$ Hown_7
  icases Hs with ⟨Hs_7_3, Hs_7_4⟩
  iapply (Steps.send_c m ρ K c 7 3 _ (dev_7_3 c) rfl rfl rfl rfl (Contents.out_land3 m ρ c 7) _ ?_ _) $$ HIown HIpAll Hs_7_3 Hl_7_3 HO Hts_7_3 Hrs_7_3 Htp_7_3 Hrp_7_3
  · decide
  iintro ⟨Hcs_7_3, HO⟩
  sl_exec_parts
  iapply (Steps.send_c m ρ K c 7 4 _ (dev_7_4 c) rfl rfl rfl rfl (Contents.out_land4 m ρ c 7) _ ?_ _) $$ HIown HIpAll Hs_7_4 Hl_7_4 HO Hts_7_4 Hrs_7_4 Htp_7_4 Hrp_7_4
  · decide
  iintro ⟨Hcs_7_4, HO⟩
  sl_exec_parts

  iapply (Waits.wait_send_c (conts m ρ) K c 0 3 _ ?_ _) $$ HIown Hlev Hcs_0_3 HO Has_0_3
  · decide
  iintro ⟨HO, Has_0_3, Hs_0_3⟩
  sl_exec_parts
  iapply (Waits.wait_recv_c (conts m ρ) K c 0 3 _ ?_ _) $$ HIown Hlev Hcr_0_3 HO Har_0_3
  · decide
  iintro ⟨HO, Har_0_3, Hr_0_3⟩
  sl_exec_parts
  ihave Hs_0_5 := (Steps.fwd5 m ρ c 0) $$ Hr_0_3
  iapply (Steps.send_c m ρ K c 0 5 _ (dev_0_5 c) rfl rfl rfl rfl (Contents.out_land5 m ρ c 0) _ ?_ _) $$ HIown HIpAll Hs_0_5 Hl_0_5 HO Hts_0_5 Hrs_0_5 Htp_0_5 Hrp_0_5
  · decide
  iintro ⟨Hcs_0_5, HO⟩
  sl_exec_parts

  iapply (Waits.wait_send_c (conts m ρ) K c 1 3 _ ?_ _) $$ HIown Hlev Hcs_1_3 HO Has_1_3
  · decide
  iintro ⟨HO, Has_1_3, Hs_1_3⟩
  sl_exec_parts
  iapply (Waits.wait_recv_c (conts m ρ) K c 1 3 _ ?_ _) $$ HIown Hlev Hcr_1_3 HO Har_1_3
  · decide
  iintro ⟨HO, Har_1_3, Hr_1_3⟩
  sl_exec_parts
  ihave Hs_1_5 := (Steps.fwd5 m ρ c 1) $$ Hr_1_3
  iapply (Steps.send_c m ρ K c 1 5 _ (dev_1_5 c) rfl rfl rfl rfl (Contents.out_land5 m ρ c 1) _ ?_ _) $$ HIown HIpAll Hs_1_5 Hl_1_5 HO Hts_1_5 Hrs_1_5 Htp_1_5 Hrp_1_5
  · decide
  iintro ⟨Hcs_1_5, HO⟩
  sl_exec_parts

  iapply (Waits.wait_send_c (conts m ρ) K c 2 3 _ ?_ _) $$ HIown Hlev Hcs_2_3 HO Has_2_3
  · decide
  iintro ⟨HO, Has_2_3, Hs_2_3⟩
  sl_exec_parts
  iapply (Waits.wait_recv_c (conts m ρ) K c 2 3 _ ?_ _) $$ HIown Hlev Hcr_2_3 HO Har_2_3
  · decide
  iintro ⟨HO, Har_2_3, Hr_2_3⟩
  sl_exec_parts
  ihave Hs_2_5 := (Steps.fwd5 m ρ c 2) $$ Hr_2_3
  iapply (Steps.send_c m ρ K c 2 5 _ (dev_2_5 c) rfl rfl rfl rfl (Contents.out_land5 m ρ c 2) _ ?_ _) $$ HIown HIpAll Hs_2_5 Hl_2_5 HO Hts_2_5 Hrs_2_5 Htp_2_5 Hrp_2_5
  · decide
  iintro ⟨Hcs_2_5, HO⟩
  sl_exec_parts

  iapply (Waits.wait_send_c (conts m ρ) K c 3 3 _ ?_ _) $$ HIown Hlev Hcs_3_3 HO Has_3_3
  · decide
  iintro ⟨HO, Has_3_3, Hs_3_3⟩
  sl_exec_parts
  iapply (Waits.wait_recv_c (conts m ρ) K c 3 3 _ ?_ _) $$ HIown Hlev Hcr_3_3 HO Har_3_3
  · decide
  iintro ⟨HO, Har_3_3, Hr_3_3⟩
  sl_exec_parts
  ihave Hs_3_5 := (Steps.fwd5 m ρ c 3) $$ Hr_3_3
  iapply (Steps.send_c m ρ K c 3 5 _ (dev_3_5 c) rfl rfl rfl rfl (Contents.out_land5 m ρ c 3) _ ?_ _) $$ HIown HIpAll Hs_3_5 Hl_3_5 HO Hts_3_5 Hrs_3_5 Htp_3_5 Hrp_3_5
  · decide
  iintro ⟨Hcs_3_5, HO⟩
  sl_exec_parts

  iapply (Waits.wait_send_c (conts m ρ) K c 4 3 _ ?_ _) $$ HIown Hlev Hcs_4_3 HO Has_4_3
  · decide
  iintro ⟨HO, Has_4_3, Hs_4_3⟩
  sl_exec_parts
  iapply (Waits.wait_recv_c (conts m ρ) K c 4 3 _ ?_ _) $$ HIown Hlev Hcr_4_3 HO Har_4_3
  · decide
  iintro ⟨HO, Har_4_3, Hr_4_3⟩
  sl_exec_parts
  ihave Hs_4_5 := (Steps.fwd5 m ρ c 4) $$ Hr_4_3
  iapply (Steps.send_c m ρ K c 4 5 _ (dev_4_5 c) rfl rfl rfl rfl (Contents.out_land5 m ρ c 4) _ ?_ _) $$ HIown HIpAll Hs_4_5 Hl_4_5 HO Hts_4_5 Hrs_4_5 Htp_4_5 Hrp_4_5
  · decide
  iintro ⟨Hcs_4_5, HO⟩
  sl_exec_parts

  iapply (Waits.wait_send_c (conts m ρ) K c 5 3 _ ?_ _) $$ HIown Hlev Hcs_5_3 HO Has_5_3
  · decide
  iintro ⟨HO, Has_5_3, Hs_5_3⟩
  sl_exec_parts
  iapply (Waits.wait_recv_c (conts m ρ) K c 5 3 _ ?_ _) $$ HIown Hlev Hcr_5_3 HO Har_5_3
  · decide
  iintro ⟨HO, Har_5_3, Hr_5_3⟩
  sl_exec_parts
  ihave Hs_5_5 := (Steps.fwd5 m ρ c 5) $$ Hr_5_3
  iapply (Steps.send_c m ρ K c 5 5 _ (dev_5_5 c) rfl rfl rfl rfl (Contents.out_land5 m ρ c 5) _ ?_ _) $$ HIown HIpAll Hs_5_5 Hl_5_5 HO Hts_5_5 Hrs_5_5 Htp_5_5 Hrp_5_5
  · decide
  iintro ⟨Hcs_5_5, HO⟩
  sl_exec_parts

  iapply (Waits.wait_send_c (conts m ρ) K c 6 3 _ ?_ _) $$ HIown Hlev Hcs_6_3 HO Has_6_3
  · decide
  iintro ⟨HO, Has_6_3, Hs_6_3⟩
  sl_exec_parts
  iapply (Waits.wait_recv_c (conts m ρ) K c 6 3 _ ?_ _) $$ HIown Hlev Hcr_6_3 HO Har_6_3
  · decide
  iintro ⟨HO, Har_6_3, Hr_6_3⟩
  sl_exec_parts
  ihave Hs_6_5 := (Steps.fwd5 m ρ c 6) $$ Hr_6_3
  iapply (Steps.send_c m ρ K c 6 5 _ (dev_6_5 c) rfl rfl rfl rfl (Contents.out_land5 m ρ c 6) _ ?_ _) $$ HIown HIpAll Hs_6_5 Hl_6_5 HO Hts_6_5 Hrs_6_5 Htp_6_5 Hrp_6_5
  · decide
  iintro ⟨Hcs_6_5, HO⟩
  sl_exec_parts

  iapply (Waits.wait_send_c (conts m ρ) K c 7 3 _ ?_ _) $$ HIown Hlev Hcs_7_3 HO Has_7_3
  · decide
  iintro ⟨HO, Has_7_3, Hs_7_3⟩
  sl_exec_parts
  iapply (Waits.wait_recv_c (conts m ρ) K c 7 3 _ ?_ _) $$ HIown Hlev Hcr_7_3 HO Har_7_3
  · decide
  iintro ⟨HO, Har_7_3, Hr_7_3⟩
  sl_exec_parts
  ihave Hs_7_5 := (Steps.fwd5 m ρ c 7) $$ Hr_7_3
  iapply (Steps.send_c m ρ K c 7 5 _ (dev_7_5 c) rfl rfl rfl rfl (Contents.out_land5 m ρ c 7) _ ?_ _) $$ HIown HIpAll Hs_7_5 Hl_7_5 HO Hts_7_5 Hrs_7_5 Htp_7_5 Hrp_7_5
  · decide
  iintro ⟨Hcs_7_5, HO⟩
  sl_exec_parts

  iapply (Waits.wait_send_c (conts m ρ) K c 0 4 _ ?_ _) $$ HIown Hlev Hcs_0_4 HO Has_0_4
  · decide
  iintro ⟨HO, Has_0_4, Hs_0_4⟩
  sl_exec_parts
  iapply (Waits.wait_recv_c (conts m ρ) K c 0 4 _ ?_ _) $$ HIown Hlev Hcr_0_4 HO Har_0_4
  · decide
  iintro ⟨HO, Har_0_4, Hr_0_4⟩
  sl_exec_parts
  iapply (Waits.wait_send_c (conts m ρ) K c 0 5 _ ?_ _) $$ HIown Hlev Hcs_0_5 HO Has_0_5
  · decide
  iintro ⟨HO, Has_0_5, Hs_0_5⟩
  sl_exec_parts
  iapply (Waits.wait_recv_c (conts m ρ) K c 0 5 _ ?_ _) $$ HIown Hlev Hcr_0_5 HO Har_0_5
  · decide
  iintro ⟨HO, Har_0_5, Hr_0_5⟩
  sl_exec_parts

  iapply (Waits.wait_send_c (conts m ρ) K c 1 4 _ ?_ _) $$ HIown Hlev Hcs_1_4 HO Has_1_4
  · decide
  iintro ⟨HO, Has_1_4, Hs_1_4⟩
  sl_exec_parts
  iapply (Waits.wait_recv_c (conts m ρ) K c 1 4 _ ?_ _) $$ HIown Hlev Hcr_1_4 HO Har_1_4
  · decide
  iintro ⟨HO, Har_1_4, Hr_1_4⟩
  sl_exec_parts
  iapply (Waits.wait_send_c (conts m ρ) K c 1 5 _ ?_ _) $$ HIown Hlev Hcs_1_5 HO Has_1_5
  · decide
  iintro ⟨HO, Has_1_5, Hs_1_5⟩
  sl_exec_parts
  iapply (Waits.wait_recv_c (conts m ρ) K c 1 5 _ ?_ _) $$ HIown Hlev Hcr_1_5 HO Har_1_5
  · decide
  iintro ⟨HO, Har_1_5, Hr_1_5⟩
  sl_exec_parts

  iapply (Waits.wait_send_c (conts m ρ) K c 2 4 _ ?_ _) $$ HIown Hlev Hcs_2_4 HO Has_2_4
  · decide
  iintro ⟨HO, Has_2_4, Hs_2_4⟩
  sl_exec_parts
  iapply (Waits.wait_recv_c (conts m ρ) K c 2 4 _ ?_ _) $$ HIown Hlev Hcr_2_4 HO Har_2_4
  · decide
  iintro ⟨HO, Har_2_4, Hr_2_4⟩
  sl_exec_parts
  iapply (Waits.wait_send_c (conts m ρ) K c 2 5 _ ?_ _) $$ HIown Hlev Hcs_2_5 HO Has_2_5
  · decide
  iintro ⟨HO, Has_2_5, Hs_2_5⟩
  sl_exec_parts
  iapply (Waits.wait_recv_c (conts m ρ) K c 2 5 _ ?_ _) $$ HIown Hlev Hcr_2_5 HO Har_2_5
  · decide
  iintro ⟨HO, Har_2_5, Hr_2_5⟩
  sl_exec_parts

  iapply (Waits.wait_send_c (conts m ρ) K c 3 4 _ ?_ _) $$ HIown Hlev Hcs_3_4 HO Has_3_4
  · decide
  iintro ⟨HO, Has_3_4, Hs_3_4⟩
  sl_exec_parts
  iapply (Waits.wait_recv_c (conts m ρ) K c 3 4 _ ?_ _) $$ HIown Hlev Hcr_3_4 HO Har_3_4
  · decide
  iintro ⟨HO, Har_3_4, Hr_3_4⟩
  sl_exec_parts
  iapply (Waits.wait_send_c (conts m ρ) K c 3 5 _ ?_ _) $$ HIown Hlev Hcs_3_5 HO Has_3_5
  · decide
  iintro ⟨HO, Has_3_5, Hs_3_5⟩
  sl_exec_parts
  iapply (Waits.wait_recv_c (conts m ρ) K c 3 5 _ ?_ _) $$ HIown Hlev Hcr_3_5 HO Har_3_5
  · decide
  iintro ⟨HO, Har_3_5, Hr_3_5⟩
  sl_exec_parts

  iapply (Waits.wait_send_c (conts m ρ) K c 4 4 _ ?_ _) $$ HIown Hlev Hcs_4_4 HO Has_4_4
  · decide
  iintro ⟨HO, Has_4_4, Hs_4_4⟩
  sl_exec_parts
  iapply (Waits.wait_recv_c (conts m ρ) K c 4 4 _ ?_ _) $$ HIown Hlev Hcr_4_4 HO Har_4_4
  · decide
  iintro ⟨HO, Har_4_4, Hr_4_4⟩
  sl_exec_parts
  iapply (Waits.wait_send_c (conts m ρ) K c 4 5 _ ?_ _) $$ HIown Hlev Hcs_4_5 HO Has_4_5
  · decide
  iintro ⟨HO, Has_4_5, Hs_4_5⟩
  sl_exec_parts
  iapply (Waits.wait_recv_c (conts m ρ) K c 4 5 _ ?_ _) $$ HIown Hlev Hcr_4_5 HO Har_4_5
  · decide
  iintro ⟨HO, Har_4_5, Hr_4_5⟩
  sl_exec_parts

  iapply (Waits.wait_send_c (conts m ρ) K c 5 4 _ ?_ _) $$ HIown Hlev Hcs_5_4 HO Has_5_4
  · decide
  iintro ⟨HO, Has_5_4, Hs_5_4⟩
  sl_exec_parts
  iapply (Waits.wait_recv_c (conts m ρ) K c 5 4 _ ?_ _) $$ HIown Hlev Hcr_5_4 HO Har_5_4
  · decide
  iintro ⟨HO, Har_5_4, Hr_5_4⟩
  sl_exec_parts
  iapply (Waits.wait_send_c (conts m ρ) K c 5 5 _ ?_ _) $$ HIown Hlev Hcs_5_5 HO Has_5_5
  · decide
  iintro ⟨HO, Has_5_5, Hs_5_5⟩
  sl_exec_parts
  iapply (Waits.wait_recv_c (conts m ρ) K c 5 5 _ ?_ _) $$ HIown Hlev Hcr_5_5 HO Har_5_5
  · decide
  iintro ⟨HO, Har_5_5, Hr_5_5⟩
  sl_exec_parts

  iapply (Waits.wait_send_c (conts m ρ) K c 6 4 _ ?_ _) $$ HIown Hlev Hcs_6_4 HO Has_6_4
  · decide
  iintro ⟨HO, Has_6_4, Hs_6_4⟩
  sl_exec_parts
  iapply (Waits.wait_recv_c (conts m ρ) K c 6 4 _ ?_ _) $$ HIown Hlev Hcr_6_4 HO Har_6_4
  · decide
  iintro ⟨HO, Har_6_4, Hr_6_4⟩
  sl_exec_parts
  iapply (Waits.wait_send_c (conts m ρ) K c 6 5 _ ?_ _) $$ HIown Hlev Hcs_6_5 HO Has_6_5
  · decide
  iintro ⟨HO, Has_6_5, Hs_6_5⟩
  sl_exec_parts
  iapply (Waits.wait_recv_c (conts m ρ) K c 6 5 _ ?_ _) $$ HIown Hlev Hcr_6_5 HO Har_6_5
  · decide
  iintro ⟨HO, Har_6_5, Hr_6_5⟩
  sl_exec_parts

  iapply (Waits.wait_send_c (conts m ρ) K c 7 4 _ ?_ _) $$ HIown Hlev Hcs_7_4 HO Has_7_4
  · decide
  iintro ⟨HO, Has_7_4, Hs_7_4⟩
  sl_exec_parts
  iapply (Waits.wait_recv_c (conts m ρ) K c 7 4 _ ?_ _) $$ HIown Hlev Hcr_7_4 HO Har_7_4
  · decide
  iintro ⟨HO, Har_7_4, Hr_7_4⟩
  sl_exec_parts
  iapply (Waits.wait_send_c (conts m ρ) K c 7 5 _ ?_ _) $$ HIown Hlev Hcs_7_5 HO Has_7_5
  · decide
  iintro ⟨HO, Has_7_5, Hs_7_5⟩
  sl_exec_parts
  iapply (Waits.wait_recv_c (conts m ρ) K c 7 5 _ ?_ _) $$ HIown Hlev Hcr_7_5 HO Har_7_5
  · decide
  iintro ⟨HO, Har_7_5, Hr_7_5⟩
  sl_exec_parts

  ihave Ha := (show (((Memref.whole cc0_stg0_0).view.loc (c : Thread nD τ) ↦{fullShare} astg m ρ c : sProp 𝕄)) ⊢ ((c : Thread nD τ).loc cc0_stg0_0 ↦{fullShare} astg m ρ c) from BI.Entails.refl _) $$ Ha
  ihave Hb := (show (((Memref.whole cc0_stg1_0).view.loc (c : Thread nD τ) ↦{fullShare} bstg m ρ c : sProp 𝕄)) ⊢ ((c : Thread nD τ).loc cc0_stg1_0 ↦{fullShare} bstg m ρ c) from BI.Entails.refl _) $$ Hb
  imod (EndBlock.finish_S m ρ K c _ _ ?_) $$ [Has_0_0 Has_0_1 Has_0_2 Has_0_3 Has_0_4 Has_0_5 Has_1_0 Has_1_1 Has_1_2 Has_1_3 Has_1_4 Has_1_5 Has_2_0 Has_2_1 Has_2_2 Has_2_3 Has_2_4 Has_2_5 Has_3_0 Has_3_1 Has_3_2 Has_3_3 Has_3_4 Has_3_5 Has_4_0 Has_4_1 Has_4_2 Has_4_3 Has_4_4 Has_4_5 Has_5_0 Has_5_1 Has_5_2 Has_5_3 Has_5_4 Has_5_5 Has_6_0 Has_6_1 Has_6_2 Has_6_3 Has_6_4 Has_6_5 Has_7_0 Has_7_1 Has_7_2 Has_7_3 Has_7_4 Has_7_5 Har_0_0 Har_0_1 Har_0_2 Har_0_3 Har_0_4 Har_0_5 Har_1_0 Har_1_1 Har_1_2 Har_1_3 Har_1_4 Har_1_5 Har_2_0 Har_2_1 Har_2_2 Har_2_3 Har_2_4 Har_2_5 Har_3_0 Har_3_1 Har_3_2 Har_3_3 Har_3_4 Har_3_5 Har_4_0 Har_4_1 Har_4_2 Har_4_3 Har_4_4 Har_4_5 Har_5_0 Har_5_1 Har_5_2 Har_5_3 Har_5_4 Har_5_5 Har_6_0 Har_6_1 Har_6_2 Har_6_3 Har_6_4 Har_6_5 Har_7_0 Har_7_1 Har_7_2 Har_7_3 Har_7_4 Har_7_5 Hr_0_0 Hr_0_1 Hr_0_2 Hr_0_4 Hr_0_5 Hr_1_0 Hr_1_1 Hr_1_2 Hr_1_4 Hr_1_5 Hr_2_0 Hr_2_1 Hr_2_2 Hr_2_4 Hr_2_5 Hr_3_0 Hr_3_1 Hr_3_2 Hr_3_4 Hr_3_5 Hr_4_0 Hr_4_1 Hr_4_2 Hr_4_4 Hr_4_5 Hr_5_0 Hr_5_1 Hr_5_2 Hr_5_4 Hr_5_5 Hr_6_0 Hr_6_1 Hr_6_2 Hr_6_4 Hr_6_5 Hr_7_0 Hr_7_1 Hr_7_2 Hr_7_4 Hr_7_5 Hs_0_0 Hs_0_1 Hs_0_2 Hs_0_3 Hs_0_4 Hs_0_5 Hs_1_0 Hs_1_1 Hs_1_2 Hs_1_3 Hs_1_4 Hs_1_5 Hs_2_0 Hs_2_1 Hs_2_2 Hs_2_3 Hs_2_4 Hs_2_5 Hs_3_0 Hs_3_1 Hs_3_2 Hs_3_3 Hs_3_4 Hs_3_5 Hs_4_0 Hs_4_1 Hs_4_2 Hs_4_3 Hs_4_4 Hs_4_5 Hs_5_0 Hs_5_1 Hs_5_2 Hs_5_3 Hs_5_4 Hs_5_5 Hs_6_0 Hs_6_1 Hs_6_2 Hs_6_3 Hs_6_4 Hs_6_5 Hs_7_0 Hs_7_1 Hs_7_2 Hs_7_3 Hs_7_4 Hs_7_5 HO Ha Hb] with Hpost
  swap
  · rw [BodyCtx.bigSep_LK (fun lk : LK => atPos ER (sendCell c lk.1 lk.2) 1 ∅ 0),
      BodyCtx.bigSep_LK (fun lk : LK => atPos ER (recvCell c lk.1 lk.2) 1 ∅ 0),
      Finish.bigSep_recv_no3 (fun lk : LK => recvPayFrom (conts m ρ) (peer lk.1 lk.2 c) lk.1 lk.2),
      BodyCtx.bigSep_LK (fun lk : LK => sendPay (conts m ρ) c lk.1 lk.2)]
    dsimp only
    simp only [EndBlock.recv0_eq m ρ c, EndBlock.recv1_eq m ρ c, EndBlock.recv2_eq m ρ c]
    iframe # ∗
  · decide
  sl_step
  iapply Hk
  iexact Hpost

end Cert.KernelIdeal.Body

end
-- ==== Proof.Wire.lean ====
import proofs.«900880_g7700000000000881_dist_matmul_gelu_kshard_i_m1024_n1024_k512_v7x_i4_bf16_1_alg».proof.Proof.Assemble
import proofs.«900880_g7700000000000881_dist_matmul_gelu_kshard_i_m1024_n1024_k512_v7x_i4_bf16_1_alg».proof.Proof.Final
import proofs.«900880_g7700000000000881_dist_matmul_gelu_kshard_i_m1024_n1024_k512_v7x_i4_bf16_1_alg».proof.Proof.Obligation
import proofs.«900880_g7700000000000881_dist_matmul_gelu_kshard_i_m1024_n1024_k512_v7x_i4_bf16_1_alg».proof.Proof.Contents
import proofs.«900880_g7700000000000881_dist_matmul_gelu_kshard_i_m1024_n1024_k512_v7x_i4_bf16_1_alg».proof.Proof.Body

noncomputable section

namespace Cert.Wire

open Idealize.ShloMosaic Idealize.SL.Sem

theorem runKI : Cert.Assemble.RunKI := fun m ρ =>
  Cert.KernelIdeal.Final.run_value m ρ (Cert.KernelIdeal.Contents.conts m ρ) fun c =>
    Cert.KernelIdeal.Obligation.body_obligation m ρ (Cert.KernelIdeal.Contents.conts m ρ) (Cert.KernelIdeal.Body.sound_body m ρ) c

-- The two printed programs are one text, and the run is proved for every reading of the floats: read at the word-level one it is the word-level program's run.
set_option smartUnfolding false in
theorem runK : Cert.Assemble.RunK := fun m ρ =>
  Cert.KernelIdeal.Final.frame_KI (F := Bits) m ρ (Cert.KernelIdeal.Contents.conts m ρ) fun c =>
    Cert.KernelIdeal.Obligation.body_obligation m ρ (Cert.KernelIdeal.Contents.conts m ρ) (Cert.KernelIdeal.Body.sound_body m ρ) c

end Cert.Wire

end
-- ==== Proof.ContentsValue.lean ====
import proofs.«900880_g7700000000000881_dist_matmul_gelu_kshard_i_m1024_n1024_k512_v7x_i4_bf16_1_alg».proof.Proof.Contents
import proofs.«900880_g7700000000000881_dist_matmul_gelu_kshard_i_m1024_n1024_k512_v7x_i4_bf16_1_alg».proof.Proof.ValueSpec
import Idealize.ShloMosaic.Lib.ValueIdx
import Idealize.ShloMosaic.PureOps.Ideal.Laws

noncomputable section

open scoped BigOperators

namespace Cert.KernelIdeal.ContentsValue

open Cert.KernelIdeal Cert.KernelIdeal.Gen Cert.KernelIdeal.Tab Cert.KernelIdeal.Proto Cert.KernelIdeal.Cells Cert.KernelIdeal.Sched
open Cert.KernelIdeal.Ghost

open Idealize.ShloMosaic
open Idealize.ShloMosaic.TcCoe
open Idealize.SL.Sem
open Idealize.ShloMosaic.ValueIdx

theorem lhs512_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs512_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs512_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs512_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

theorem mm512_apply {φ₁ φ₂ : FTy} (a : FVec Ideal S512x512 φ₁) (b : FVec Ideal S512x128 φ₂) (i : S512x128.Idx) :
    matmul dot_S512x512_S512x128_S512x128_1_0_0_1_n_n none a b (constant (F := Ideal) S512x128 .f32 0x00000000#32) i
      = ∑ k : Fin 512, a (ix2 (i 0) k) * b (ix2 k (i 1)) := by
  simp only [matmul]
  rw [Ideal.matmul_constant_zero_apply, ← Equiv.sum_comp (ValueIdx.contrEquiv1 dot_S512x512_S512x128_S512x128_1_0_0_1_n_n 512 rfl rfl).symm]
  refine Finset.sum_congr rfl fun k _ => ?_
  have hk := ValueIdx.contrEquiv1_symm_val dot_S512x512_S512x128_S512x128_1_0_0_1_n_n 512 rfl rfl k
  have el : dot_S512x512_S512x128_S512x128_1_0_0_1_n_n.lhsIdx i ((ValueIdx.contrEquiv1 dot_S512x512_S512x128_S512x128_1_0_0_1_n_n 512 rfl rfl).symm k) = ix2 (i 0) k := funext fun a => Fin.ext (by
    match a with
    | ⟨0, _⟩ => exact lhs512_0 _ _
    | ⟨1, _⟩ => exact (lhs512_1 _ _).trans hk)
  have er : dot_S512x512_S512x128_S512x128_1_0_0_1_n_n.rhsIdx i ((ValueIdx.contrEquiv1 dot_S512x512_S512x128_S512x128_1_0_0_1_n_n 512 rfl rfl).symm k) = ix2 k (i 1) := funext fun a => Fin.ext (by
    match a with
    | ⟨0, _⟩ => exact (rhs512_0 _ _).trans hk
    | ⟨1, _⟩ => exact rhs512_1 _ _)
  rw [el, er]
  rfl

theorem lhs256_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem lhs256_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem rhs256_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem rhs256_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

theorem mm256_apply {φ₁ φ₂ : FTy} (a : FVec Ideal S256x512 φ₁) (b : FVec Ideal S512x128 φ₂) (i : S256x128.Idx) :
    matmul dot_S256x512_S512x128_S256x128_1_0_0_1_n_n none a b (constant (F := Ideal) S256x128 .f32 0x00000000#32) i
      = ∑ k : Fin 512, a (ix2 (i 0) k) * b (ix2 k (i 1)) := by
  simp only [matmul]
  rw [Ideal.matmul_constant_zero_apply, ← Equiv.sum_comp (ValueIdx.contrEquiv1 dot_S256x512_S512x128_S256x128_1_0_0_1_n_n 512 rfl rfl).symm]
  refine Finset.sum_congr rfl fun k _ => ?_
  have hk := ValueIdx.contrEquiv1_symm_val dot_S256x512_S512x128_S256x128_1_0_0_1_n_n 512 rfl rfl k
  have el : dot_S256x512_S512x128_S256x128_1_0_0_1_n_n.lhsIdx i ((ValueIdx.contrEquiv1 dot_S256x512_S512x128_S256x128_1_0_0_1_n_n 512 rfl rfl).symm k) = ix2 (i 0) k := funext fun a => Fin.ext (by
    match a with
    | ⟨0, _⟩ => exact lhs256_0 _ _
    | ⟨1, _⟩ => exact (lhs256_1 _ _).trans hk)
  have er : dot_S256x512_S512x128_S256x128_1_0_0_1_n_n.rhsIdx i ((ValueIdx.contrEquiv1 dot_S256x512_S512x128_S256x128_1_0_0_1_n_n 512 rfl rfl).symm k) = ix2 k (i 1) := funext fun a => Fin.ext (by
    match a with
    | ⟨0, _⟩ => exact (rhs256_0 _ _).trans hk
    | ⟨1, _⟩ => exact rhs256_1 _ _)
  rw [el, er]
  rfl

theorem addUnit512 {α : Type} (v : S512x128.Idx → α) (h : S512x128.ShapeCasts S1x512x128) (j : S1x512x128.Idx) :
    shapeCast S1x512x128 v h j = v (ix2 (j 1) (j 2)) :=
  (shapeCast_addUnit_apply ![512, 128] v h j).trans
    (congrArg v (funext fun a => match a with | ⟨0, _⟩ => rfl | ⟨1, _⟩ => rfl))
theorem addUnit256 {α : Type} (v : S256x128.Idx → α) (h : S256x128.ShapeCasts S1x256x128) (j : S1x256x128.Idx) :
    shapeCast S1x256x128 v h j = v (ix2 (j 1) (j 2)) :=
  (shapeCast_addUnit_apply ![256, 128] v h j).trans
    (congrArg v (funext fun a => match a with | ⟨0, _⟩ => rfl | ⟨1, _⟩ => rfl))
theorem dropUnit256 {α : Type} (w : S1x256x128.Idx → α) (h : S1x256x128.ShapeCasts S256x128) (j : S256x128.Idx) :
    shapeCast S256x128 w h j = w (ix3 ⟨0, Nat.one_pos⟩ (j 0) (j 1)) :=
  (shapeCast_dropUnit_apply ![256, 128] w h j).trans
    (congrArg w (funext fun a => match a with | ⟨0, _⟩ => rfl | ⟨1, _⟩ => rfl | ⟨2, _⟩ => rfl))

theorem pay1_apply (a : Vec Ideal S512x512 .f32) (b : Vec Ideal S512x128 .f32) (j : S1x512x128.Idx) :
    k0_pay1 (F := Ideal) a b j = ∑ k : Fin 512, a (ix2 (j 1) k) * b (ix2 k (j 2)) := by
  unfold k0_pay1
  rw [addUnit512]
  show matmul _ none _ _ (constant (F := Ideal) S512x128 .f32 0x00000000#32) (ix2 (j 1) (j 2)) = _
  rw [mm512_apply]
  refine Finset.sum_congr rfl fun k _ => ?_
  show shapeCast S512x512 a _ (ix2 (j 1) k) * shapeCast S512x128 b _ (ix2 k (j 2)) = _
  rw [shapeCast_self, shapeCast_self]

theorem pay9_apply (a : Vec Ideal S256x512 .f32) (b : Vec Ideal S512x128 .f32) (j : S256x128.Idx) :
    k0_pay9 (F := Ideal) a b j = ∑ k : Fin 512, a (ix2 (j 0) k) * b (ix2 k (j 1)) := by
  unfold k0_pay9
  show matmul _ none _ _ (constant (F := Ideal) S256x128 .f32 0x00000000#32) j = _
  rw [mm256_apply]
  refine Finset.sum_congr rfl fun k _ => ?_
  show shapeCast S256x512 a _ (ix2 (j 0) k) * shapeCast S512x128 b _ (ix2 k (j 1)) = _
  rw [shapeCast_self, shapeCast_self]

theorem pay31_apply (v : FVec Ideal S256x128 .f32) (w : Vec Ideal S1x256x128 .bf16) (j : S1x256x128.Idx) :
    k0_pay31 (F := Ideal) v w j = v (ix2 (j 1) (j 2)) + w (ix3 ⟨0, Nat.one_pos⟩ (j 1) (j 2)) := by
  unfold k0_pay31
  rw [addUnit256]
  show v _ + shapeCast S256x128 w _ (ix2 (j 1) (j 2)) = _
  rw [dropUnit256]

theorem pay40_apply (v : FVec Ideal S256x128 .f32) (w : Vec Ideal S1x256x128 .bf16) (j : S256x128.Idx) :
    k0_pay40 (F := Ideal) v w j = v j + w (ix3 ⟨0, Nat.one_pos⟩ (j 0) (j 1)) := by
  unfold k0_pay40
  show v _ + shapeCast S256x128 w _ j = _
  rw [dropUnit256]

open Cert.KernelIdeal.Contents

variable (m : (ℓ : Loc nD τ sig) → Buf (Elt Ideal) ℓ) (ρ : Dev nD → PrngReg)

def part (e : Dev nD) (r c : Fin 1024) : EReal := Cert.ValueSpec.zpart (astg m ρ e) (bstg m ρ e) r c

theorem pay41_apply (v : FVec Ideal S256x128 .f32) (w : Vec Ideal S1x256x128 .bf16) (j : S256x128.Idx) :
    k0_pay41 (F := Ideal) v w j = Cert.ValueSpec.gelu (v j + w (ix3 ⟨0, Nat.one_pos⟩ (j 0) (j 1))) := by
  unfold k0_pay41
  show Cert.ValueSpec.gelu (v j + shapeCast S256x128 w shapeCasts_S1x256x128_S256x128 j) = _
  rw [dropUnit256]

theorem bCols_apply (e : Dev nD) (li : Fin 8) (k : Fin 512) (x : Fin 128) (C : Fin 1024) (hC : C.val = col li + x.val) :
    bCols m ρ e li (ix2 k x) = bstg m ρ e (ix2 k C) := by
  show bstg m ρ e ((Rect.unit (s := S512x1024) (colOff li) S512x128.size (colOff_inb li)).emb (ix2 k x)) = _
  congr 1
  funext a; refine Fin.ext ?_
  match a with
  | ⟨0, _⟩ => show 0 + 1 * k.val = k.val; omega
  | ⟨1, _⟩ => show col li + 1 * x.val = C.val; omega

theorem hval_apply (e : Dev nD) (li : Fin 8) (j : S1x512x128.Idx) (R C : Fin 1024)
    (hR : R.val = sendRow li e + (j 1).val) (hC : C.val = col li + (j 2).val) :
    hval m ρ e li j = part m ρ e R C := by
  unfold hval
  rw [pay1_apply]
  unfold part Cert.ValueSpec.zpart
  refine Finset.sum_congr rfl fun k _ => ?_
  have ha : aSend m ρ e li (ix2 (j 1) k) = astg m ρ e (ix2 R k) := by
    show astg m ρ e ((Rect.unit (s := S1024x512) (offA1 li e) S512x512.size (offA1_inb li e)).emb (ix2 (j 1) k)) = _
    congr 1
    funext a; refine Fin.ext ?_
    match a with
    | ⟨0, _⟩ => show offA1 li e 0 + 1 * (j 1).val = R.val; rw [offA1_eq li e 0, hR]; show sendRow li e + 1 * _ = _; omega
    | ⟨1, _⟩ => show offA1 li e 1 + 1 * k.val = k.val; rw [offA1_eq li e 1]; show 0 + 1 * _ = _; omega
  rw [ha, bCols_apply m ρ e li k (j 2) C hC]

theorem mmQo_apply (e : Dev nD) (li : Fin 8) (j : S256x128.Idx) (R C : Fin 1024)
    (hR : R.val = qoRow li e + (j 0).val) (hC : C.val = col li + (j 1).val) :
    k0_pay9 (F := Ideal) (aQo m ρ e li) (bCols m ρ e li) j = part m ρ e R C := by
  rw [pay9_apply]
  unfold part Cert.ValueSpec.zpart
  refine Finset.sum_congr rfl fun k _ => ?_
  have ha : aQo m ρ e li (ix2 (j 0) k) = astg m ρ e (ix2 R k) := by
    show astg m ρ e ((Rect.unit (s := S1024x512) (offAqo li e) S256x512.size (offAqo_inb li e)).emb (ix2 (j 0) k)) = _
    congr 1
    funext a; refine Fin.ext ?_
    match a with
    | ⟨0, _⟩ => show offAqo li e 0 + 1 * (j 0).val = R.val; rw [offAqo_eq li e 0, hR]; show qoRow li e + 1 * _ = _; omega
    | ⟨1, _⟩ => show offAqo li e 1 + 1 * k.val = k.val; rw [offAqo_eq li e 1]; show 0 + 1 * _ = _; omega
  rw [ha, bCols_apply m ρ e li k (j 1) C hC]

theorem mmQi_apply (e : Dev nD) (li : Fin 8) (j : S256x128.Idx) (R C : Fin 1024)
    (hR : R.val = qiRow li e + (j 0).val) (hC : C.val = col li + (j 1).val) :
    k0_pay19 (F := Ideal) (aQi m ρ e li) (bCols m ρ e li) j = part m ρ e R C := by
  show k0_pay9 (F := Ideal) (aQi m ρ e li) (bCols m ρ e li) j = _
  rw [pay9_apply]
  unfold part Cert.ValueSpec.zpart
  refine Finset.sum_congr rfl fun k _ => ?_
  have ha : aQi m ρ e li (ix2 (j 0) k) = astg m ρ e (ix2 R k) := by
    show astg m ρ e ((Rect.unit (s := S1024x512) (offAqi li e) S256x512.size (offAqi_inb li e)).emb (ix2 (j 0) k)) = _
    congr 1
    funext a; refine Fin.ext ?_
    match a with
    | ⟨0, _⟩ => show offAqi li e 0 + 1 * (j 0).val = R.val; rw [offAqi_eq li e 0, hR]; show qiRow li e + 1 * _ = _; omega
    | ⟨1, _⟩ => show offAqi li e 1 + 1 * k.val = k.val; rw [offAqi_eq li e 1]; show 0 + 1 * _ = _; omega
  rw [ha, bCols_apply m ρ e li k (j 1) C hC]

theorem hr_read (e : Dev nD) (li : Fin 8) (off : Fin 3 → Nat) (inb : ∀ a, off a + S1x256x128.size a ≤ S8x512x128.size a)
    (h0 : off 0 = li.val) (h2 : off 2 = 0) (j : S256x128.Idx) (R C : Fin 1024)
    (hR : R.val = keep li e * 512 + off 1 + (j 0).val) (hC : C.val = col li + (j 1).val) :
    hrM.view.readAt (Elt Ideal) (Rect.unit (s := S8x512x128) off S1x256x128.size inb).toLoadRect (hrC m ρ e)
        (ix3 ⟨0, Nat.one_pos⟩ (j 0) (j 1)) = part m ρ (peer li 0 e) R C := by
  show hrC m ρ e ((Rect.unit (s := S8x512x128) off S1x256x128.size inb).emb (ix3 ⟨0, Nat.one_pos⟩ (j 0) (j 1))) = _
  have hE0 : ((Rect.unit (s := S8x512x128) off S1x256x128.size inb).emb (ix3 ⟨0, Nat.one_pos⟩ (j 0) (j 1))) 0 = li :=
    Fin.ext (by show off 0 + 1 * 0 = li.val; omega)
  unfold hrC hsC
  rw [hE0]
  refine hval_apply m ρ (peer li 0 e) li _ R C ?_ ?_
  · show R.val = sendRow li (peer li 0 e) + (off 1 + 1 * (j 0).val)
    rw [sendRow_peer0]; omega
  · show C.val = col li + (off 2 + 1 * (j 1).val)
    omega

theorem qval_apply (e : Dev nD) (li : Fin 8) (j : S1x256x128.Idx) (R C : Fin 1024)
    (hR : R.val = qoRow li e + (j 1).val) (hC : C.val = col li + (j 2).val) :
    qval m ρ e li j = part m ρ e R C + part m ρ (peer li 0 e) R C := by
  unfold qval
  rw [pay31_apply, mmQo_apply m ρ e li _ R C hR hC,
    hr_read m ρ e li (offL1 li e) (offL1_inb li e) (offL1_eq li e 0) (offL1_eq li e 2) (ix2 (j 1) (j 2)) R C ?_ hC]
  rw [offL1_eq li e 1, hR]
  show qoRow li e + _ = keep li e * 512 + (1 - sub li e) * 256 + _
  rfl

theorem qo_peer2 : ∀ (li : Fin 8) (e : Dev nD), qoRow li (peer li 2 e) = qiRow li e := by decide +kernel

theorem qr_read (e : Dev nD) (li : Fin 8) (j : S256x128.Idx) (R C : Fin 1024)
    (hR : R.val = qiRow li e + (j 0).val) (hC : C.val = col li + (j 1).val) :
    qrM.view.readAt (Elt Ideal) (Rect.unit (s := S8x256x128) (lane3 li) S1x256x128.size (lane3_inb256 li)).toLoadRect (qrC m ρ e)
        (ix3 ⟨0, Nat.one_pos⟩ (j 0) (j 1))
      = part m ρ (peer li 2 e) R C + part m ρ (peer li 0 (peer li 2 e)) R C := by
  show qrC m ρ e ((Rect.unit (s := S8x256x128) (lane3 li) S1x256x128.size (lane3_inb256 li)).emb (ix3 ⟨0, Nat.one_pos⟩ (j 0) (j 1))) = _
  have hE0 : ((Rect.unit (s := S8x256x128) (lane3 li) S1x256x128.size (lane3_inb256 li)).emb (ix3 ⟨0, Nat.one_pos⟩ (j 0) (j 1))) 0 = li :=
    Fin.ext (by show li.val + 1 * 0 = li.val; omega)
  unfold qrC qsC
  rw [hE0]
  refine qval_apply m ρ (peer li 2 e) li _ R C ?_ ?_
  · show R.val = qoRow li (peer li 2 e) + (0 + 1 * (j 0).val)
    rw [qo_peer2]; omega
  · show C.val = col li + (0 + 1 * (j 1).val)
    omega

theorem oval_apply (e : Dev nD) (li : Fin 8) (j : S256x128.Idx) (R C : Fin 1024)
    (hR : R.val = qiRow li e + (j 0).val) (hC : C.val = col li + (j 1).val) :
    oval m ρ e li j = Cert.ValueSpec.gelu ((part m ρ e R C + part m ρ (peer li 0 e) R C)
      + (part m ρ (peer li 2 e) R C + part m ρ (peer li 0 (peer li 2 e)) R C)) := by
  unfold oval
  rw [pay41_apply, pay40_apply, mmQi_apply m ρ e li j R C hR hC,
    hr_read m ρ e li (offL2 li e) (offL2_inb li e) (offL2_eq li e 0) (offL2_eq li e 2) j R C ?_ hC,
    qr_read m ρ e li j R C hR hC]
  rw [offL2_eq li e 1, hR]
  rfl

theorem partners : ∀ li : Fin 8, (∀ e : Dev nD, peer li 0 e = Cert.ValueSpec.p1 e ∧ peer li 2 e = Cert.ValueSpec.p2 e)
    ∨ (∀ e : Dev nD, peer li 0 e = Cert.ValueSpec.p2 e ∧ peer li 2 e = Cert.ValueSpec.p1 e) := by decide +kernel

theorem four (li : Fin 8) (e : Dev nD) (P : Dev nD → EReal) :
    (P e + P (peer li 0 e)) + (P (peer li 2 e) + P (peer li 0 (peer li 2 e))) = ∑ d : Fin 4, P d := by
  rcases partners li with h | h
  · rw [(h e).1, (h e).2, (h _).1]; exact Cert.ValueSpec.four_sum_a P e
  · rw [(h e).1, (h e).2, (h _).1]; exact Cert.ValueSpec.four_sum_b P e

theorem qi_own : ∀ (li : Fin 8) (r : Fin 1024), qiRow li (own li (r.val / 256)) + r.val % 256 = r.val := by decide +kernel
theorem col_lane : ∀ r : Fin 1024, col (laneOfCol r.val) + r.val % 128 = r.val := by decide +kernel

theorem out_value (Aw : (⟨2, ![1024, 2048]⟩ : Shape).Idx → EReal) (Bw : (⟨2, ![2048, 1024]⟩ : Shape).Idx → EReal)
    (hA : ∀ c, astg m ρ c = Layout.block ⟨2, ![1024, 512]⟩ ⟨2, ![1024, 2048]⟩ 1 4 c Aw)
    (hB : ∀ c, bstg m ρ c = Layout.block ⟨2, ![512, 1024]⟩ ⟨2, ![2048, 1024]⟩ 0 4 c Bw)
    (c : Dev nD) (i : S1024x1024.Idx) :
    (conts m ρ).out c i = Cert.ValueSpec.gelu (Cert.ValueSpec.zdot Aw Bw (i 0) (i 1)) := by
  show oval m ρ (own (laneOfCol (i 1).val) ((i 0).val / 256)) (laneOfCol (i 1).val) (inBlock i) = _
  rw [oval_apply m ρ _ _ _ (i 0) (i 1) (qi_own _ (i 0)).symm (col_lane (i 1)).symm]
  refine congrArg Cert.ValueSpec.gelu (((four _ _ (fun d => part m ρ d (i 0) (i 1))).trans ?_).trans
    (Cert.ValueSpec.zdot_split Aw Bw (i 0) (i 1)).symm)
  refine Finset.sum_congr rfl fun d _ => ?_
  show part m ρ d (i 0) (i 1) = _
  unfold part
  rw [hA, hB]

end Cert.KernelIdeal.ContentsValue

end
-- ==== Proof.lean ====
/-
The product of a 1024 × 2048 by a 2048 × 1024 matrix followed by GELU, the contracted axis cut in four: device `c` holds
columns `512 c … 512 c + 511` of the left factor and the same rows of the right one. Each device contracts its own 512
coordinates; the four partial products are added pairwise in two exchanges, GELU is applied to the complete sums, and the
finished quarters are handed round. Addition of extended reals is associative and commutative, so the regrouped sum is the
whole contraction and every device ends with the reference's result.
-/
import proofs.«900880_g7700000000000881_dist_matmul_gelu_kshard_i_m1024_n1024_k512_v7x_i4_bf16_1_alg».proof.Defs
import proofs.«900880_g7700000000000881_dist_matmul_gelu_kshard_i_m1024_n1024_k512_v7x_i4_bf16_1_alg».proof.Proof.Assemble
import proofs.«900880_g7700000000000881_dist_matmul_gelu_kshard_i_m1024_n1024_k512_v7x_i4_bf16_1_alg».proof.Proof.Wire
import proofs.«900880_g7700000000000881_dist_matmul_gelu_kshard_i_m1024_n1024_k512_v7x_i4_bf16_1_alg».proof.Proof.ContentsValue

noncomputable section

namespace Cert.Proof

theorem claim : Cert.Claim :=
  Cert.Assemble.claim Cert.Wire.runK Cert.Wire.runKI Cert.KernelIdeal.ContentsValue.out_value

end Cert.Proof

end
